-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)) →
    ∃ (v0 : (c : Dev Cert.KernelIdeal.nD) → Buf (Elt Ideal) ((c.tc : Thread Cert.KernelIdeal.nD Cert.KernelIdeal.τ).loc Cert.KernelIdeal.main_v101)) (v1 : (c : Dev Cert.KernelIdeal.nD) → Buf (Elt Ideal) ((c.tc : Thread Cert.KernelIdeal.nD Cert.KernelIdeal.τ).loc Cert.KernelIdeal.main_v56)) (v2 : (c : Dev Cert.KernelIdeal.nD) → Buf (Elt Ideal) ((c.tc : Thread Cert.KernelIdeal.nD Cert.KernelIdeal.τ).loc Cert.KernelIdeal.main_v79)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v101) = v0 c
          ∧ r.2.mem ((c.tc : Thread Cert.KernelIdeal.nD Cert.KernelIdeal.τ).loc Cert.KernelIdeal.main_v56) = v1 c
          ∧ r.2.mem ((c.tc : Thread Cert.KernelIdeal.nD Cert.KernelIdeal.τ).loc Cert.KernelIdeal.main_v79) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v201) = v0 c
          ∧ r.2.mem ((c.tc : Thread Cert.ReferenceIdeal.nD Cert.ReferenceIdeal.τ).loc Cert.ReferenceIdeal.main_v93) = v1 c
          ∧ r.2.mem ((c.tc : Thread Cert.ReferenceIdeal.nD Cert.ReferenceIdeal.τ).loc Cert.ReferenceIdeal.main_v177) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x800000 : Shape := ⟨2, ![2, 800000]⟩
abbrev S2x200000 : Shape := ⟨2, ![2, 200000]⟩
abbrev S200000x16 : Shape := ⟨2, ![200000, 16]⟩
abbrev S50000x128 : Shape := ⟨2, ![50000, 128]⟩
abbrev S256x256 : Shape := ⟨2, ![256, 256]⟩
abbrev S256 : Shape := ⟨1, ![256]⟩
abbrev S256x128 : Shape := ⟨2, ![256, 128]⟩
abbrev S128 : Shape := ⟨1, ![128]⟩
abbrev S128x256 : Shape := ⟨2, ![128, 256]⟩
abbrev S256x768 : Shape := ⟨2, ![256, 768]⟩
abbrev S768 : Shape := ⟨1, ![768]⟩
abbrev S128x384 : Shape := ⟨2, ![128, 384]⟩
abbrev S384 : Shape := ⟨1, ![384]⟩
abbrev S272x1 : Shape := ⟨2, ![272, 1]⟩
abbrev S1 : Shape := ⟨1, ![1]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S200000x16 : S_.BroadcastsInDim S200000x16 (![] : Fin 0 → Fin S200000x16.rank)
  reducesTo_S200000x16_S_d0_1 : S200000x16.ReducesTo [0, 1] S_
  bcast_S_S50000x128 : S_.BroadcastsInDim S50000x128 (![] : Fin 0 → Fin S50000x128.rank)
  reducesTo_S50000x128_S_d0_1 : S50000x128.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x256 : S_.BroadcastsInDim S128x256 (![] : Fin 0 → Fin S128x256.rank)
  reducesTo_S128x256_S_d0_1 : S128x256.ReducesTo [0, 1] S_
  bcast_S_S256x768 : S_.BroadcastsInDim S256x768 (![] : Fin 0 → Fin S256x768.rank)
  reducesTo_S256x768_S_d0_1 : S256x768.ReducesTo [0, 1] S_
  bcast_S_S768 : S_.BroadcastsInDim S768 (![] : Fin 0 → Fin S768.rank)
  reducesTo_S768_S_d0 : S768.ReducesTo [0] S_
  bcast_S_S128x384 : S_.BroadcastsInDim S128x384 (![] : Fin 0 → Fin S128x384.rank)
  reducesTo_S128x384_S_d0_1 : S128x384.ReducesTo [0, 1] S_
  bcast_S_S384 : S_.BroadcastsInDim S384 (![] : Fin 0 → Fin S384.rank)
  reducesTo_S384_S_d0 : S384.ReducesTo [0] S_
  bcast_S_S272x1 : S_.BroadcastsInDim S272x1 (![] : Fin 0 → Fin S272x1.rank)
  reducesTo_S272x1_S_d0_1 : S272x1.ReducesTo [0, 1] S_
  bcast_S_S1 : S_.BroadcastsInDim S1 (![] : Fin 0 → Fin S1.rank)
  reducesTo_S1_S_d0 : S1.ReducesTo [0] S_

variable [Facts]

def fn_part6 {F : FTy → Type} [FloatOps F] (main_arg23 : FVec F S1 .f32) (main_v98 : IVec S_ 1) (main_v101 : IVec S272x1 1) (main_c_39 : IVec S_ 1) : IVec S_ 1 :=
  let main_v102 : IVec S_ 1 := (fun x v => Host.reduce IntOp.andi x v reducesTo_S272x1_S_d0_1 h_S_) main_v101 main_c_39
  let main_v103 : IVec S_ 1 := andi main_v98 main_v102
  let main_v104 : FVec F S1 .f32 := Host.absf main_arg23
  let main_cst_40 : FVec F S_ .f32 := constant S_ .f32 0x7F800000#32
  let main_v105 : FVec F S1 .f32 := broadcastInDim S1 ![] bcast_S_S1 main_cst_40
  let main_v106 : IVec S1 1 := cmpf .olt main_v104 main_v105
  let main_c_41 : IVec S_ 1 := constantI S_ 1 1#1
  let main_v107 : IVec S_ 1 := (fun x v => Host.reduce IntOp.andi x v reducesTo_S1_S_d0 h_S_) main_v106 main_c_41
  let main_v108 : IVec S_ 1 := andi main_v103 main_v107
  main_v108

def fn_part5 {F : FTy → Type} [FloatOps F] (main_arg20 : FVec F S384 .f32) (main_arg21 : FVec F S384 .f32) (main_arg22 : FVec F S272x1 .f32) (main_arg23 : FVec F S1 .f32) (main_v83 : IVec S_ 1) (main_v84 : FVec F S128x384 .f32) (main_cst_32 : FVec F S_ .f32) : IVec S_ 1 :=
  let main_v85 : FVec F S128x384 .f32 := broadcastInDim S128x384 ![] bcast_S_S128x384 main_cst_32
  let main_v86 : IVec S128x384 1 := cmpf .olt main_v84 main_v85
  let main_c_33 : IVec S_ 1 := constantI S_ 1 1#1
  let main_v87 : IVec S_ 1 := (fun x v => Host.reduce IntOp.andi x v reducesTo_S128x384_S_d0_1 h_S_) main_v86 main_c_33
  let main_v88 : IVec S_ 1 := andi main_v83 main_v87
  let main_v89 : FVec F S384 .f32 := Host.absf main_arg20
  let main_cst_34 : FVec F S_ .f32 := constant S_ .f32 0x7F800000#32
  let main_v90 : FVec F S384 .f32 := broadcastInDim S384 ![] bcast_S_S384 main_cst_34
  let main_v91 : IVec S384 1 := cmpf .olt main_v89 main_v90
  let main_c_35 : IVec S_ 1 := constantI S_ 1 1#1
  let main_v92 : IVec S_ 1 := (fun x v => Host.reduce IntOp.andi x v reducesTo_S384_S_d0 h_S_) main_v91 main_c_35
  let main_v93 : IVec S_ 1 := andi main_v88 main_v92
  let main_v94 : FVec F S384 .f32 := Host.absf main_arg21
  let main_cst_36 : FVec F S_ .f32 := constant S_ .f32 0x7F800000#32
  let main_v95 : FVec F S384 .f32 := broadcastInDim S384 ![] bcast_S_S384 main_cst_36
  let main_v96 : IVec S384 1 := cmpf .olt main_v94 main_v95
  let main_c_37 : IVec S_ 1 := constantI S_ 1 1#1
  let main_v97 : IVec S_ 1 := (fun x v => Host.reduce IntOp.andi x v reducesTo_S384_S_d0 h_S_) main_v96 main_c_37
  let main_v98 : IVec S_ 1 := andi main_v93 main_v97
  let main_v99 : FVec F S272x1 .f32 := Host.absf main_arg22
  let main_cst_38 : FVec F S_ .f32 := constant S_ .f32 0x7F800000#32
  let main_v100 : FVec F S272x1 .f32 := broadcastInDim S272x1 ![] bcast_S_S272x1 main_cst_38
  let main_v101 : IVec S272x1 1 := cmpf .olt main_v99 main_v100
  let main_c_39 : IVec S_ 1 := constantI S_ 1 1#1
  fn_part6 (F := F) main_arg23 main_v98 main_v101 main_c_39

def fn_part4 {F : FTy → Type} [FloatOps F] (main_arg16 : FVec F S768 .f32) (main_arg17 : FVec F S768 .f32) (main_arg18 : FVec F S128x384 .f32) (main_arg19 : FVec F S128x384 .f32) (main_arg20 : FVec F S384 .f32) (main_arg21 : FVec F S384 .f32) (main_arg22 : FVec F S272x1 .f32) (main_arg23 : FVec F S1 .f32) (main_v63 : IVec S_ 1) (main_v67 : IVec S_ 1) : IVec S_ 1 :=
  let main_v68 : IVec S_ 1 := andi main_v63 main_v67
  let main_v69 : FVec F S768 .f32 := Host.absf main_arg16
  let main_cst_26 : FVec F S_ .f32 := constant S_ .f32 0x7F800000#32
  let main_v70 : FVec F S768 .f32 := broadcastInDim S768 ![] bcast_S_S768 main_cst_26
  let main_v71 : IVec S768 1 := cmpf .olt main_v69 main_v70
  let main_c_27 : IVec S_ 1 := constantI S_ 1 1#1
  let main_v72 : IVec S_ 1 := (fun x v => Host.reduce IntOp.andi x v reducesTo_S768_S_d0 h_S_) main_v71 main_c_27
  let main_v73 : IVec S_ 1 := andi main_v68 main_v72
  let main_v74 : FVec F S768 .f32 := Host.absf main_arg17
  let main_cst_28 : FVec F S_ .f32 := constant S_ .f32 0x7F800000#32
  let main_v75 : FVec F S768 .f32 := broadcastInDim S768 ![] bcast_S_S768 main_cst_28
  let main_v76 : IVec S768 1 := cmpf .olt main_v74 main_v75
  let main_c_29 : IVec S_ 1 := constantI S_ 1 1#1
  let main_v77 : IVec S_ 1 := (fun x v => Host.reduce IntOp.andi x v reducesTo_S768_S_d0 h_S_) main_v76 main_c_29
  let main_v78 : IVec S_ 1 := andi main_v73 main_v77
  let main_v79 : FVec F S128x384 .f32 := Host.absf main_arg18
  let main_cst_30 : FVec F S_ .f32 := constant S_ .f32 0x7F800000#32
  let main_v80 : FVec F S128x384 .f32 := broadcastInDim S128x384 ![] bcast_S_S128x384 main_cst_30
  let main_v81 : IVec S128x384 1 := cmpf .olt main_v79 main_v80
  let main_c_31 : IVec S_ 1 := constantI S_ 1 1#1
  let main_v82 : IVec S_ 1 := (fun x v => Host.reduce IntOp.andi x v reducesTo_S128x384_S_d0_1 h_S_) main_v81 main_c_31
  let main_v83 : IVec S_ 1 := andi main_v78 main_v82
  let main_v84 : FVec F S128x384 .f32 := Host.absf main_arg19
  let main_cst_32 : FVec F S_ .f32 := constant S_ .f32 0x7F800000#32
  fn_part5 (F := F) main_arg20 main_arg21 main_arg22 main_arg23 main_v83 main_v84 main_cst_32

def fn_part3 {F : FTy → Type} [FloatOps F] (main_arg13 : FVec F S128 .f32) (main_arg14 : FVec F S256x768 .f32) (main_arg15 : FVec F S256x768 .f32) (main_arg16 : FVec F S768 .f32) (main_arg17 : FVec F S768 .f32) (main_arg18 : FVec F S128x384 .f32) (main_arg19 : FVec F S128x384 .f32) (main_arg20 : FVec F S384 .f32) (main_arg21 : FVec F S384 .f32) (main_arg22 : FVec F S272x1 .f32) (main_arg23 : FVec F S1 .f32) (main_v48 : IVec S_ 1) (main_v49 : FVec F S256x128 .f32) (main_v50 : FVec F S256x128 .f32) : IVec S_ 1 :=
  let main_v51 : IVec S256x128 1 := cmpf .olt main_v49 main_v50
  let main_c_19 : IVec S_ 1 := constantI S_ 1 1#1
  let main_v52 : IVec S_ 1 := (fun x v => Host.reduce IntOp.andi x v reducesTo_S256x128_S_d0_1 h_S_) main_v51 main_c_19
  let main_v53 : IVec S_ 1 := andi main_v48 main_v52
  let main_v54 : FVec F S128 .f32 := Host.absf main_arg13
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S256x768 .f32 := Host.absf main_arg14
  let main_cst_22 : FVec F S_ .f32 := constant S_ .f32 0x7F800000#32
  let main_v60 : FVec F S256x768 .f32 := broadcastInDim S256x768 ![] bcast_S_S256x768 main_cst_22
  let main_v61 : IVec S256x768 1 := cmpf .olt main_v59 main_v60
  let main_c_23 : IVec S_ 1 := constantI S_ 1 1#1
  let main_v62 : IVec S_ 1 := (fun x v => Host.reduce IntOp.andi x v reducesTo_S256x768_S_d0_1 h_S_) main_v61 main_c_23
  let main_v63 : IVec S_ 1 := andi main_v58 main_v62
  let main_v64 : FVec F S256x768 .f32 := Host.absf main_arg15
  let main_cst_24 : FVec F S_ .f32 := constant S_ .f32 0x7F800000#32
  let main_v65 : FVec F S256x768 .f32 := broadcastInDim S256x768 ![] bcast_S_S256x768 main_cst_24
  let main_v66 : IVec S256x768 1 := cmpf .olt main_v64 main_v65
  let main_c_25 : IVec S_ 1 := constantI S_ 1 1#1
  let main_v67 : IVec S_ 1 := (fun x v => Host.reduce IntOp.andi x v reducesTo_S256x768_S_d0_1 h_S_) main_v66 main_c_25
  fn_part4 (F := F) main_arg16 main_arg17 main_arg18 main_arg19 main_arg20 main_arg21 main_arg22 main_arg23 main_v63 main_v67

def fn_part2 {F : FTy → Type} [FloatOps F] (main_arg9 : FVec F S128 .f32) (main_arg10 : FVec F S128x256 .f32) (main_arg11 : FVec F S256 .f32) (main_arg12 : FVec F S256x128 .f32) (main_arg13 : FVec F S128 .f32) (main_arg14 : FVec F S256x768 .f32) (main_arg15 : FVec F S256x768 .f32) (main_arg16 : FVec F S768 .f32) (main_arg17 : FVec F S768 .f32) (main_arg18 : FVec F S128x384 .f32) (main_arg19 : FVec F S128x384 .f32) (main_arg20 : FVec F S384 .f32) (main_arg21 : FVec F S384 .f32) (main_arg22 : FVec F S272x1 .f32) (main_arg23 : FVec F S1 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x256 .f32 := Host.absf main_arg10
  let main_cst_14 : FVec F S_ .f32 := constant S_ .f32 0x7F800000#32
  let main_v40 : FVec F S128x256 .f32 := broadcastInDim S128x256 ![] bcast_S_S128x256 main_cst_14
  let main_v41 : IVec S128x256 1 := cmpf .olt main_v39 main_v40
  let main_c_15 : IVec S_ 1 := constantI S_ 1 1#1
  let main_v42 : IVec S_ 1 := (fun x v => Host.reduce IntOp.andi x v reducesTo_S128x256_S_d0_1 h_S_) main_v41 main_c_15
  let main_v43 : IVec S_ 1 := andi main_v38 main_v42
  let main_v44 : FVec F S256 .f32 := Host.absf main_arg11
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S256x128 .f32 := Host.absf main_arg12
  let main_cst_18 : FVec F S_ .f32 := constant S_ .f32 0x7F800000#32
  let main_v50 : FVec F S256x128 .f32 := broadcastInDim S256x128 ![] bcast_S_S256x128 main_cst_18
  fn_part3 (F := F) main_arg13 main_arg14 main_arg15 main_arg16 main_arg17 main_arg18 main_arg19 main_arg20 main_arg21 main_arg22 main_arg23 main_v48 main_v49 main_v50

def fn_part1 {F : FTy → Type} [FloatOps F] (main_arg6 : FVec F S256x256 .f32) (main_arg7 : FVec F S256 .f32) (main_arg8 : FVec F S256x128 .f32) (main_arg9 : FVec F S128 .f32) (main_arg10 : FVec F S128x256 .f32) (main_arg11 : FVec F S256 .f32) (main_arg12 : FVec F S256x128 .f32) (main_arg13 : FVec F S128 .f32) (main_arg14 : FVec F S256x768 .f32) (main_arg15 : FVec F S256x768 .f32) (main_arg16 : FVec F S768 .f32) (main_arg17 : FVec F S768 .f32) (main_arg18 : FVec F S128x384 .f32) (main_arg19 : FVec F S128x384 .f32) (main_arg20 : FVec F S384 .f32) (main_arg21 : FVec F S384 .f32) (main_arg22 : FVec F S272x1 .f32) (main_arg23 : FVec F S1 .f32) (main_v13 : IVec S_ 1) (main_v16 : IVec S50000x128 1) : IVec S_ 1 :=
  let main_c_5 : IVec S_ 1 := constantI S_ 1 1#1
  let main_v17 : IVec S_ 1 := (fun x v => Host.reduce IntOp.andi x v reducesTo_S50000x128_S_d0_1 h_S_) main_v16 main_c_5
  let main_v18 : IVec S_ 1 := andi main_v13 main_v17
  let main_v19 : FVec F S256x256 .f32 := Host.absf main_arg6
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg7
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x128 .f32 := Host.absf main_arg8
  let main_cst_10 : FVec F S_ .f32 := constant S_ .f32 0x7F800000#32
  let main_v30 : FVec F S256x128 .f32 := broadcastInDim S256x128 ![] bcast_S_S256x128 main_cst_10
  let main_v31 : IVec S256x128 1 := cmpf .olt main_v29 main_v30
  let main_c_11 : IVec S_ 1 := constantI S_ 1 1#1
  let main_v32 : IVec S_ 1 := (fun x v => Host.reduce IntOp.andi x v reducesTo_S256x128_S_d0_1 h_S_) main_v31 main_c_11
  let main_v33 : IVec S_ 1 := andi main_v28 main_v32
  fn_part2 (F := F) main_arg9 main_arg10 main_arg11 main_arg12 main_arg13 main_arg14 main_arg15 main_arg16 main_arg17 main_arg18 main_arg19 main_arg20 main_arg21 main_arg22 main_arg23 main_v33

def fn {F : FTy → Type} [FloatOps F] (main_arg0 : FVec F S50000x256 .f32) (main_arg1 : IVec S2x800000 32) (main_arg2 : IVec S2x200000 32) (main_arg3 : FVec F S200000x16 .f32) (main_arg4 : FVec F S50000x256 .f32) (main_arg5 : FVec F S50000x128 .f32) (main_arg6 : FVec F S256x256 .f32) (main_arg7 : FVec F S256 .f32) (main_arg8 : FVec F S256x128 .f32) (main_arg9 : FVec F S128 .f32) (main_arg10 : FVec F S128x256 .f32) (main_arg11 : FVec F S256 .f32) (main_arg12 : FVec F S256x128 .f32) (main_arg13 : FVec F S128 .f32) (main_arg14 : FVec F S256x768 .f32) (main_arg15 : FVec F S256x768 .f32) (main_arg16 : FVec F S768 .f32) (main_arg17 : FVec F S768 .f32) (main_arg18 : FVec F S128x384 .f32) (main_arg19 : FVec F S128x384 .f32) (main_arg20 : FVec F S384 .f32) (main_arg21 : FVec F S384 .f32) (main_arg22 : FVec F S272x1 .f32) (main_arg23 : FVec F S1 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S200000x16 .f32 := Host.absf main_arg3
  let main_cst_0 : FVec F S_ .f32 := constant S_ .f32 0x7F800000#32
  let main_v5 : FVec F S200000x16 .f32 := broadcastInDim S200000x16 ![] bcast_S_S200000x16 main_cst_0
  let main_v6 : IVec S200000x16 1 := cmpf .olt main_v4 main_v5
  let main_c_1 : IVec S_ 1 := constantI S_ 1 1#1
  let main_v7 : IVec S_ 1 := (fun x v => Host.reduce IntOp.andi x v reducesTo_S200000x16_S_d0_1 h_S_) main_v6 main_c_1
  let main_v8 : IVec S_ 1 := andi main_v3 main_v7
  let main_v9 : FVec F S50000x256 .f32 := Host.absf main_arg4
  let main_cst_2 : FVec F S_ .f32 := constant S_ .f32 0x7F800000#32
  let main_v10 : FVec F S50000x256 .f32 := broadcastInDim S50000x256 ![] bcast_S_S50000x256 main_cst_2
  let main_v11 : IVec S50000x256 1 := cmpf .olt main_v9 main_v10
  let main_c_3 : IVec S_ 1 := constantI S_ 1 1#1
  let main_v12 : IVec S_ 1 := (fun x v => Host.reduce IntOp.andi x v reducesTo_S50000x256_S_d0_1 h_S_) main_v11 main_c_3
  let main_v13 : IVec S_ 1 := andi main_v8 main_v12
  let main_v14 : FVec F S50000x128 .f32 := Host.absf main_arg5
  let main_cst_4 : FVec F S_ .f32 := constant S_ .f32 0x7F800000#32
  let main_v15 : FVec F S50000x128 .f32 := broadcastInDim S50000x128 ![] bcast_S_S50000x128 main_cst_4
  let main_v16 : IVec S50000x128 1 := cmpf .olt main_v14 main_v15
  fn_part1 (F := F) main_arg6 main_arg7 main_arg8 main_arg9 main_arg10 main_arg11 main_arg12 main_arg13 main_arg14 main_arg15 main_arg16 main_arg17 main_arg18 main_arg19 main_arg20 main_arg21 main_arg22 main_arg23 main_v13 main_v16
-- ==== Kernel.lean ====
abbrev S50000x256 : Shape := ⟨2, ![50000, 256]⟩
abbrev S2x800000 : Shape := ⟨2, ![2, 800000]⟩
abbrev S2x200000 : Shape := ⟨2, ![2, 200000]⟩
abbrev S200000x16 : Shape := ⟨2, ![200000, 16]⟩
abbrev S50000x128 : Shape := ⟨2, ![50000, 128]⟩
abbrev S256x256 : Shape := ⟨2, ![256, 256]⟩
abbrev S256 : Shape := ⟨1, ![256]⟩
abbrev S256x128 : Shape := ⟨2, ![256, 128]⟩
abbrev S128 : Shape := ⟨1, ![128]⟩
abbrev S128x256 : Shape := ⟨2, ![128, 256]⟩
abbrev S256x768 : Shape := ⟨2, ![256, 768]⟩
abbrev S768 : Shape := ⟨1, ![768]⟩
abbrev S128x384 : Shape := ⟨2, ![128, 384]⟩
abbrev S384 : Shape := ⟨1, ![384]⟩
abbrev S272x1 : Shape := ⟨2, ![272, 1]⟩
abbrev S1 : Shape := ⟨1, ![1]⟩
abbrev S1x256 : Shape := ⟨2, ![1, 256]⟩
abbrev S1000x256 : Shape := ⟨2, ![1000, 256]⟩
abbrev S1x128 : Shape := ⟨2, ![1, 128]⟩
abbrev S1000x128 : Shape := ⟨2, ![1000, 128]⟩
abbrev S1x800000 : Shape := ⟨2, ![1, 800000]⟩
abbrev S800000 : Shape := ⟨1, ![800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S850000x256 : Shape := ⟨2, ![850000, 256]⟩
abbrev S1x768 : Shape := ⟨2, ![1, 768]⟩
abbrev S1000x768 : Shape := ⟨2, ![1000, 768]⟩
abbrev S850000x128 : Shape := ⟨2, ![850000, 128]⟩
abbrev S1x384 : Shape := ⟨2, ![1, 384]⟩
abbrev S2000x128 : Shape := ⟨2, ![2000, 128]⟩
abbrev S2000x384 : Shape := ⟨2, ![2000, 384]⟩
abbrev S1x200000 : Shape := ⟨2, ![1, 200000]⟩
abbrev S200000 : Shape := ⟨1, ![200000]⟩
abbrev S200000x1 : Shape := ⟨2, ![200000, 1]⟩
abbrev S200000x128 : Shape := ⟨2, ![200000, 128]⟩
abbrev S200000x272 : Shape := ⟨2, ![200000, 272]⟩
abbrev S1x1 : Shape := ⟨2, ![1, 1]⟩
abbrev S2000x272 : Shape := ⟨2, ![2000, 272]⟩
abbrev S2000x1 : Shape := ⟨2, ![2000, 1]⟩

abbrev nBuf : Space → Nat
  | .hbm => 162
  | .vmem => 50
  | .smem => 0
  | _ => 0

abbrev hbmTy0_0 (i : Nat) : BufTy := match i % 128 with
  | 0 => ⟨S50000x256, .f32⟩
  | 1 => ⟨S2x800000, .i32⟩
  | 2 => ⟨S2x200000, .i32⟩
  | 3 => ⟨S200000x16, .f32⟩
  | 4 => ⟨S50000x256, .f32⟩
  | 5 => ⟨S50000x128, .f32⟩
  | 6 => ⟨S256x256, .f32⟩
  | 7 => ⟨S256, .f32⟩
  | 8 => ⟨S256x128, .f32⟩
  | 9 => ⟨S128, .f32⟩
  | 10 => ⟨S128x256, .f32⟩
  | 11 => ⟨S256, .f32⟩
  | 12 => ⟨S256x128, .f32⟩
  | 13 => ⟨S128, .f32⟩
  | 14 => ⟨S256x768, .f32⟩
  | 15 => ⟨S256x768, .f32⟩
  | 16 => ⟨S768, .f32⟩
  | 17 => ⟨S768, .f32⟩
  | 18 => ⟨S128x384, .f32⟩
  | 19 => ⟨S128x384, .f32⟩
  | 20 => ⟨S384, .f32⟩
  | 21 => ⟨S384, .f32⟩
  | 22 => ⟨S272x1, .f32⟩
  | 23 => ⟨S1, .f32⟩
  | 24 => ⟨S1x256, .f32⟩
  | 25 => ⟨S50000x256, .f32⟩
  | 26 => ⟨S1x128, .f32⟩
  | 27 => ⟨S50000x128, .f32⟩
  | 28 => ⟨S1x800000, .i32⟩
  | 29 => ⟨S800000, .i32⟩
  | 30 => ⟨S1x800000, .i32⟩
  | 31 => ⟨S800000, .i32⟩
  | 32 => ⟨S50000, .i32⟩
  | 33 => ⟨S850000, .i32⟩
  | 34 => ⟨S850000, .i32⟩
  | 35 => ⟨S_, .f32⟩
  | 36 => ⟨S850000, .f32⟩
  | 37 => ⟨S_, .f32⟩
  | 38 => ⟨S50000, .f32⟩
  | 39 => ⟨S850000x1, .i32⟩
  | 40 => ⟨S50000, .f32⟩
  | 41 => ⟨S_, .f32⟩
  | 42 => ⟨S50000, .f32⟩
  | 43 => ⟨S50000, .i1⟩
  | 44 => ⟨S50000, .f32⟩
  | 45 => ⟨S_, .f32⟩
  | 46 => ⟨S_, .f32⟩
  | 47 => ⟨S50000, .f32⟩
  | 48 => ⟨S50000, .f32⟩
  | 49 => ⟨S_, .i32⟩
  | 50 => ⟨S850000, .i32⟩
  | 51 => ⟨S850000, .i1⟩
  | 52 => ⟨S_, .i32⟩
  | 53 => ⟨S850000, .i32⟩
  | 54 => ⟨S850000, .i32⟩
  | 55 => ⟨S850000, .i32⟩
  | 56 => ⟨S850000x1, .i32⟩
  | 57 => ⟨S850000, .f32⟩
  | 58 => ⟨S_, .i32⟩
  | 59 => ⟨S850000, .i32⟩
  | 60 => ⟨S850000, .i1⟩
  | 61 => ⟨S_, .i32⟩
  | 62 => ⟨S850000, .i32⟩
  | 63 => ⟨S850000, .i32⟩
  | 64 => ⟨S850000, .i32⟩
  | 65 => ⟨S850000x1, .i32⟩
  | 66 => ⟨S850000, .f32⟩
  | 67 => ⟨S850000, .f32⟩
  | 68 => ⟨S_, .f32⟩
  | 69 => ⟨S256, .f32⟩
  | 70 => ⟨S1x256, .f32⟩
  | 71 => ⟨S50000x256, .f32⟩
  | 72 => ⟨S_, .i32⟩
  | 73 => ⟨S850000, .i32⟩
  | 74 => ⟨S850000, .i1⟩
  | 75 => ⟨S_, .i32⟩
  | 76 => ⟨S850000, .i32⟩
  | 77 => ⟨S850000, .i32⟩
  | 78 => ⟨S850000, .i32⟩
  | 79 => ⟨S850000x1, .i32⟩
  | 80 => ⟨S850000x256, .f32⟩
  | 81 => ⟨S850000x1, .f32⟩
  | 82 => ⟨S850000x256, .f32⟩
  | 83 => ⟨S850000x256, .f32⟩
  | 84 => ⟨S_, .f32⟩
  | 85 => ⟨S50000x256, .f32⟩
  | 86 => ⟨S850000x1, .i32⟩
  | 87 => ⟨S50000x256, .f32⟩
  | 88 => ⟨S1x256, .f32⟩
  | 89 => ⟨S50000x256, .f32⟩
  | 90 => ⟨S50000x256, .f32⟩
  | 91 => ⟨S_, .f32⟩
  | 92 => ⟨S_, .f32⟩
  | 93 => ⟨S50000x256, .f32⟩
  | 94 => ⟨S50000x256, .i1⟩
  | 95 => ⟨S_, .f32⟩
  | 96 => ⟨S50000x256, .f32⟩
  | 97 => ⟨S50000x256, .f32⟩
  | 98 => ⟨S50000x256, .f32⟩
  | 99 => ⟨S1x768, .f32⟩
  | 100 => ⟨S1x768, .f32⟩
  | 101 => ⟨S50000x256, .f32⟩
  | 102 => ⟨S_, .f32⟩
  | 103 => ⟨S128, .f32⟩
  | 104 => ⟨S1x128, .f32⟩
  | 105 => ⟨S50000x128, .f32⟩
  | 106 => ⟨S_, .i32⟩
  | 107 => ⟨S850000, .i32⟩
  | 108 => ⟨S850000, .i1⟩
  | 109 => ⟨S_, .i32⟩
  | 110 => ⟨S850000, .i32⟩
  | 111 => ⟨S850000, .i32⟩
  | 112 => ⟨S850000, .i32⟩
  | 113 => ⟨S850000x1, .i32⟩
  | 114 => ⟨S850000x128, .f32⟩
  | 115 => ⟨S850000x1, .f32⟩
  | 116 => ⟨S850000x128, .f32⟩
  | 117 => ⟨S850000x128, .f32⟩
  | 118 => ⟨S_, .f32⟩
  | 119 => ⟨S50000x128, .f32⟩
  | 120 => ⟨S850000x1, .i32⟩
  | 121 => ⟨S50000x128, .f32⟩
  | 122 => ⟨S1x128, .f32⟩
  | 123 => ⟨S50000x128, .f32⟩
  | 124 => ⟨S50000x128, .f32⟩
  | 125 => ⟨S_, .f32⟩
  | 126 => ⟨S_, .f32⟩
  | 127 => ⟨S50000x128, .f32⟩
  | _ => ⟨S50000x256, .f32⟩

abbrev hbmTy0_1 (i : Nat) : BufTy := match i % 128 with
  | 0 => ⟨S50000x128, .i1⟩
  | 1 => ⟨S_, .f32⟩
  | 2 => ⟨S50000x128, .f32⟩
  | 3 => ⟨S50000x128, .f32⟩
  | 4 => ⟨S50000x128, .f32⟩
  | 5 => ⟨S1x384, .f32⟩
  | 6 => ⟨S1x384, .f32⟩
  | 7 => ⟨S50000x128, .f32⟩
  | 8 => ⟨S1x200000, .i32⟩
  | 9 => ⟨S200000, .i32⟩
  | 10 => ⟨S_, .i32⟩
  | 11 => ⟨S200000, .i32⟩
  | 12 => ⟨S200000, .i1⟩
  | 13 => ⟨S_, .i32⟩
  | 14 => ⟨S200000, .i32⟩
  | 15 => ⟨S200000, .i32⟩
  | 16 => ⟨S200000, .i32⟩
  | 17 => ⟨S200000x1, .i32⟩
  | 18 => ⟨S200000x128, .f32⟩
  | 19 => ⟨S1x200000, .i32⟩
  | 20 => ⟨S200000, .i32⟩
  | 21 => ⟨S_, .i32⟩
  | 22 => ⟨S200000, .i32⟩
  | 23 => ⟨S200000, .i1⟩
  | 24 => ⟨S_, .i32⟩
  | 25 => ⟨S200000, .i32⟩
  | 26 => ⟨S200000, .i32⟩
  | 27 => ⟨S200000, .i32⟩
  | 28 => ⟨S200000x1, .i32⟩
  | 29 => ⟨S200000x128, .f32⟩
  | 30 => ⟨S200000x272, .f32⟩
  | 31 => ⟨S1x1, .f32⟩
  | 32 => ⟨S200000x1, .f32⟩
  | 33 => ⟨S200000, .f32⟩
  | _ => ⟨S50000x256, .f32⟩

abbrev hbmTy (i : Nat) : BufTy := match i / 128 with
  | 0 => hbmTy0_0 i
  | 1 => hbmTy0_1 i
  | _ => ⟨S50000x256, .f32⟩

abbrev bufTy : (tb : Table) → Fin (tcTables nBuf tb) → BufTy
  | .hbm, ⟨i, _⟩ => hbmTy i
  | .local _ .vmem, ⟨0, _⟩ => ⟨S1000x256, .f32⟩
  | .local _ .vmem, ⟨1, _⟩ => ⟨S1000x256, .f32⟩
  | .local _ .vmem, ⟨2, _⟩ => ⟨S256x256, .f32⟩
  | .local _ .vmem, ⟨3, _⟩ => ⟨S1x256, .f32⟩
  | .local _ .vmem, ⟨4, _⟩ => ⟨S1000x256, .f32⟩
  | .local _ .vmem, ⟨5, _⟩ => ⟨S1000x256, .f32⟩
  | .local _ .vmem, ⟨6, _⟩ => ⟨S1000x256, .f32⟩
  | .local _ .vmem, ⟨7, _⟩ => ⟨S1000x256, .f32⟩
  | .local _ .vmem, ⟨8, _⟩ => ⟨S256x128, .f32⟩
  | .local _ .vmem, ⟨9, _⟩ => ⟨S1x128, .f32⟩
  | .local _ .vmem, ⟨10, _⟩ => ⟨S1000x128, .f32⟩
  | .local _ .vmem, ⟨11, _⟩ => ⟨S1000x128, .f32⟩
  | .local _ .vmem, ⟨12, _⟩ => ⟨S1000x128, .f32⟩
  | .local _ .vmem, ⟨13, _⟩ => ⟨S1000x128, .f32⟩
  | .local _ .vmem, ⟨14, _⟩ => ⟨S128x256, .f32⟩
  | .local _ .vmem, ⟨15, _⟩ => ⟨S1x256, .f32⟩
  | .local _ .vmem, ⟨16, _⟩ => ⟨S1000x256, .f32⟩
  | .local _ .vmem, ⟨17, _⟩ => ⟨S1000x256, .f32⟩
  | .local _ .vmem, ⟨18, _⟩ => ⟨S1000x256, .f32⟩
  | .local _ .vmem, ⟨19, _⟩ => ⟨S1000x256, .f32⟩
  | .local _ .vmem, ⟨20, _⟩ => ⟨S1000x256, .f32⟩
  | .local _ .vmem, ⟨21, _⟩ => ⟨S1000x256, .f32⟩
  | .local _ .vmem, ⟨22, _⟩ => ⟨S256x768, .f32⟩
  | .local _ .vmem, ⟨23, _⟩ => ⟨S256x768, .f32⟩
  | .local _ .vmem, ⟨24, _⟩ => ⟨S1x768, .f32⟩
  | .local _ .vmem, ⟨25, _⟩ => ⟨S1x768, .f32⟩
  | .local _ .vmem, ⟨26, _⟩ => ⟨S1000x256, .f32⟩
  | .local _ .vmem, ⟨27, _⟩ => ⟨S1000x256, .f32⟩
  | .local _ .vmem, ⟨28, _⟩ => ⟨S1000x256, .f32⟩
  | .local _ .vmem, ⟨29, _⟩ => ⟨S1000x256, .f32⟩
  | .local _ .vmem, ⟨30, _⟩ => ⟨S256x128, .f32⟩
  | .local _ .vmem, ⟨31, _⟩ => ⟨S1x128, .f32⟩
  | .local _ .vmem, ⟨32, _⟩ => ⟨S1000x128, .f32⟩
  | .local _ .vmem, ⟨33, _⟩ => ⟨S1000x128, .f32⟩
  | .local _ .vmem, ⟨34, _⟩ => ⟨S2000x128, .f32⟩
  | .local _ .vmem, ⟨35, _⟩ => ⟨S2000x128, .f32⟩
  | .local _ .vmem, ⟨36, _⟩ => ⟨S2000x128, .f32⟩
  | .local _ .vmem, ⟨37, _⟩ => ⟨S2000x128, .f32⟩
  | .local _ .vmem, ⟨38, _⟩ => ⟨S128x384, .f32⟩
  | .local _ .vmem, ⟨39, _⟩ => ⟨S128x384, .f32⟩
  | .local _ .vmem, ⟨40, _⟩ => ⟨S1x384, .f32⟩
  | .local _ .vmem, ⟨41, _⟩ => ⟨S1x384, .f32⟩
  | .local _ .vmem, ⟨42, _⟩ => ⟨S2000x128, .f32⟩
  | .local _ .vmem, ⟨43, _⟩ => ⟨S2000x128, .f32⟩
  | .local _ .vmem, ⟨44, _⟩ => ⟨S2000x272, .f32⟩
  | .local _ .vmem, ⟨45, _⟩ => ⟨S2000x272, .f32⟩
  | .local _ .vmem, ⟨46, _⟩ => ⟨S272x1, .f32⟩
  | .local _ .vmem, ⟨47, _⟩ => ⟨S1x1, .f32⟩
  | .local _ .vmem, ⟨48, _⟩ => ⟨S2000x1, .f32⟩
  | .local _ .vmem, ⟨49, _⟩ => ⟨S2000x1, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | _, _ => false

abbrev semScoped : Fin 0 → Bool
  | ⟨_, h⟩ => absurd h (Nat.not_lt_zero _)

abbrev dmaSemScoped : Fin 50 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | _ => false

abbrev sig : RefSig :=
  ofTc nBuf bufTy 0 50 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_v0 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_cst : Ref sig .tc := ⟨.hbm, 35, rfl⟩
abbrev main_v11 : Ref sig .tc := ⟨.hbm, 36, rfl⟩
abbrev main_cst_0 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_cst_1 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_cst_2 : Ref sig .tc := ⟨.hbm, 45, rfl⟩
abbrev main_call0_v0 : Ref sig .tc := ⟨.hbm, 46, rfl⟩
abbrev main_call0_v1 : Ref sig .tc := ⟨.hbm, 47, rfl⟩
abbrev main_v18 : Ref sig .tc := ⟨.hbm, 48, rfl⟩
abbrev main_c : Ref sig .tc := ⟨.hbm, 49, rfl⟩
abbrev main_v19 : Ref sig .tc := ⟨.hbm, 50, rfl⟩
abbrev main_v20 : Ref sig .tc := ⟨.hbm, 51, rfl⟩
abbrev main_c_3 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_c_4 : Ref sig .tc := ⟨.hbm, 58, rfl⟩
abbrev main_v26 : Ref sig .tc := ⟨.hbm, 59, rfl⟩
abbrev main_v27 : Ref sig .tc := ⟨.hbm, 60, rfl⟩
abbrev main_c_5 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_cst_6 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_c_7 : Ref sig .tc := ⟨.hbm, 72, rfl⟩
abbrev main_v37 : Ref sig .tc := ⟨.hbm, 73, rfl⟩
abbrev main_v38 : Ref sig .tc := ⟨.hbm, 74, rfl⟩
abbrev main_c_8 : Ref sig .tc := ⟨.hbm, 75, rfl⟩
abbrev main_v39 : Ref sig .tc := ⟨.hbm, 76, rfl⟩
abbrev main_v40 : Ref sig .tc := ⟨.hbm, 77, rfl⟩
abbrev main_v41 : Ref sig .tc := ⟨.hbm, 78, rfl⟩
abbrev main_v42 : Ref sig .tc := ⟨.hbm, 79, rfl⟩
abbrev main_v43 : Ref sig .tc := ⟨.hbm, 80, rfl⟩
abbrev main_v44 : Ref sig .tc := ⟨.hbm, 81, rfl⟩
abbrev main_v45 : Ref sig .tc := ⟨.hbm, 82, rfl⟩
abbrev main_v46 : Ref sig .tc := ⟨.hbm, 83, rfl⟩
abbrev main_cst_9 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_cst_10 : Ref sig .tc := ⟨.hbm, 91, rfl⟩
abbrev main_call1_cst : Ref sig .tc := ⟨.hbm, 92, rfl⟩
abbrev main_call1_v0 : Ref sig .tc := ⟨.hbm, 93, rfl⟩
abbrev main_call1_v1 : Ref sig .tc := ⟨.hbm, 94, rfl⟩
abbrev main_call1_v2 : Ref sig .tc := ⟨.hbm, 95, rfl⟩
abbrev main_call1_v3 : Ref sig .tc := ⟨.hbm, 96, rfl⟩
abbrev main_call1_v4 : Ref sig .tc := ⟨.hbm, 97, rfl⟩
abbrev main_v53 : Ref sig .tc := ⟨.hbm, 98, rfl⟩
abbrev main_v54 : Ref sig .tc := ⟨.hbm, 99, rfl⟩
abbrev main_v55 : Ref sig .tc := ⟨.hbm, 100, rfl⟩
abbrev main_v56 : Ref sig .tc := ⟨.hbm, 101, rfl⟩
abbrev main_cst_11 : Ref sig .tc := ⟨.hbm, 102, rfl⟩
abbrev main_v57 : Ref sig .tc := ⟨.hbm, 103, rfl⟩
abbrev main_v58 : Ref sig .tc := ⟨.hbm, 104, rfl⟩
abbrev main_v59 : Ref sig .tc := ⟨.hbm, 105, rfl⟩
abbrev main_c_12 : Ref sig .tc := ⟨.hbm, 106, rfl⟩
abbrev main_v60 : Ref sig .tc := ⟨.hbm, 107, rfl⟩
abbrev main_v61 : Ref sig .tc := ⟨.hbm, 108, rfl⟩
abbrev main_c_13 : Ref sig .tc := ⟨.hbm, 109, rfl⟩
abbrev main_v62 : Ref sig .tc := ⟨.hbm, 110, rfl⟩
abbrev main_v63 : Ref sig .tc := ⟨.hbm, 111, rfl⟩
abbrev main_v64 : Ref sig .tc := ⟨.hbm, 112, rfl⟩
abbrev main_v65 : Ref sig .tc := ⟨.hbm, 113, rfl⟩
abbrev main_v66 : Ref sig .tc := ⟨.hbm, 114, rfl⟩
abbrev main_v67 : Ref sig .tc := ⟨.hbm, 115, rfl⟩
abbrev main_v68 : Ref sig .tc := ⟨.hbm, 116, rfl⟩
abbrev main_v69 : Ref sig .tc := ⟨.hbm, 117, rfl⟩
abbrev main_cst_14 : Ref sig .tc := ⟨.hbm, 118, rfl⟩
abbrev main_v70 : Ref sig .tc := ⟨.hbm, 119, rfl⟩
abbrev main_v71 : Ref sig .tc := ⟨.hbm, 120, rfl⟩
abbrev main_v72 : Ref sig .tc := ⟨.hbm, 121, rfl⟩
abbrev main_v73 : Ref sig .tc := ⟨.hbm, 122, rfl⟩
abbrev main_v74 : Ref sig .tc := ⟨.hbm, 123, rfl⟩
abbrev main_v75 : Ref sig .tc := ⟨.hbm, 124, rfl⟩
abbrev main_cst_15 : Ref sig .tc := ⟨.hbm, 125, rfl⟩
abbrev main_call2_cst : Ref sig .tc := ⟨.hbm, 126, rfl⟩
abbrev main_call2_v0 : Ref sig .tc := ⟨.hbm, 127, rfl⟩
abbrev main_call2_v1 : Ref sig .tc := ⟨.hbm, 128, rfl⟩
abbrev main_call2_v2 : Ref sig .tc := ⟨.hbm, 129, rfl⟩
abbrev main_call2_v3 : Ref sig .tc := ⟨.hbm, 130, rfl⟩
abbrev main_call2_v4 : Ref sig .tc := ⟨.hbm, 131, rfl⟩
abbrev main_v76 : Ref sig .tc := ⟨.hbm, 132, rfl⟩
abbrev main_v77 : Ref sig .tc := ⟨.hbm, 133, rfl⟩
abbrev main_v78 : Ref sig .tc := ⟨.hbm, 134, rfl⟩
abbrev main_v79 : Ref sig .tc := ⟨.hbm, 135, rfl⟩
abbrev main_v80 : Ref sig .tc := ⟨.hbm, 136, rfl⟩
abbrev main_v81 : Ref sig .tc := ⟨.hbm, 137, rfl⟩
abbrev main_c_16 : Ref sig .tc := ⟨.hbm, 138, rfl⟩
abbrev main_v82 : Ref sig .tc := ⟨.hbm, 139, rfl⟩
abbrev main_v83 : Ref sig .tc := ⟨.hbm, 140, rfl⟩
abbrev main_c_17 : Ref sig .tc := ⟨.hbm, 141, rfl⟩
abbrev main_v84 : Ref sig .tc := ⟨.hbm, 142, rfl⟩
abbrev main_v85 : Ref sig .tc := ⟨.hbm, 143, rfl⟩
abbrev main_v86 : Ref sig .tc := ⟨.hbm, 144, rfl⟩
abbrev main_v87 : Ref sig .tc := ⟨.hbm, 145, rfl⟩
abbrev main_v88 : Ref sig .tc := ⟨.hbm, 146, rfl⟩
abbrev main_v89 : Ref sig .tc := ⟨.hbm, 147, rfl⟩
abbrev main_v90 : Ref sig .tc := ⟨.hbm, 148, rfl⟩
abbrev main_c_18 : Ref sig .tc := ⟨.hbm, 149, rfl⟩
abbrev main_v91 : Ref sig .tc := ⟨.hbm, 150, rfl⟩
abbrev main_v92 : Ref sig .tc := ⟨.hbm, 151, rfl⟩
abbrev main_c_19 : Ref sig .tc := ⟨.hbm, 152, rfl⟩
abbrev main_v93 : Ref sig .tc := ⟨.hbm, 153, rfl⟩
abbrev main_v94 : Ref sig .tc := ⟨.hbm, 154, rfl⟩
abbrev main_v95 : Ref sig .tc := ⟨.hbm, 155, rfl⟩
abbrev main_v96 : Ref sig .tc := ⟨.hbm, 156, rfl⟩
abbrev main_v97 : Ref sig .tc := ⟨.hbm, 157, rfl⟩
abbrev main_v98 : Ref sig .tc := ⟨.hbm, 158, rfl⟩
abbrev main_v99 : Ref sig .tc := ⟨.hbm, 159, rfl⟩
abbrev main_v100 : Ref sig .tc := ⟨.hbm, 160, rfl⟩
abbrev main_v101 : Ref sig .tc := ⟨.hbm, 161, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg3_0 : Ref sig .tc := ⟨.vmem, 23, rfl⟩
abbrev cc3_stg4_0 : Ref sig .tc := ⟨.vmem, 24, rfl⟩
abbrev cc3_stg5_0 : Ref sig .tc := ⟨.vmem, 25, rfl⟩
abbrev cc3_stg6_0 : Ref sig .tc := ⟨.vmem, 26, rfl⟩
abbrev cc3_stg6_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg3_0 : Ref sig .tc := ⟨.vmem, 32, rfl⟩
abbrev cc4_stg3_1 : Ref sig .tc := ⟨.vmem, 33, rfl⟩
abbrev cc5_stg0_0 : Ref sig .tc := ⟨.vmem, 34, rfl⟩
abbrev cc5_stg0_1 : Ref sig .tc := ⟨.vmem, 35, rfl⟩
abbrev cc5_stg1_0 : Ref sig .tc := ⟨.vmem, 36, rfl⟩
abbrev cc5_stg1_1 : Ref sig .tc := ⟨.vmem, 37, rfl⟩
abbrev cc5_stg2_0 : Ref sig .tc := ⟨.vmem, 38, rfl⟩
abbrev cc5_stg3_0 : Ref sig .tc := ⟨.vmem, 39, rfl⟩
abbrev cc5_stg4_0 : Ref sig .tc := ⟨.vmem, 40, rfl⟩
abbrev cc5_stg5_0 : Ref sig .tc := ⟨.vmem, 41, rfl⟩
abbrev cc5_stg6_0 : Ref sig .tc := ⟨.vmem, 42, rfl⟩
abbrev cc5_stg6_1 : Ref sig .tc := ⟨.vmem, 43, rfl⟩
abbrev cc6_stg0_0 : Ref sig .tc := ⟨.vmem, 44, rfl⟩
abbrev cc6_stg0_1 : Ref sig .tc := ⟨.vmem, 45, rfl⟩
abbrev cc6_stg1_0 : Ref sig .tc := ⟨.vmem, 46, rfl⟩
abbrev cc6_stg2_0 : Ref sig .tc := ⟨.vmem, 47, rfl⟩
abbrev cc6_stg3_0 : Ref sig .tc := ⟨.vmem, 48, rfl⟩
abbrev cc6_stg3_1 : Ref sig .tc := ⟨.vmem, 49, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem3_0 : DmaSem sig := 23
abbrev cc3_sem4_0 : DmaSem sig := 24
abbrev cc3_sem5_0 : DmaSem sig := 25
abbrev cc3_sem6_0 : DmaSem sig := 26
abbrev cc3_sem6_1 : DmaSem sig := 27
abbrev cc4_sem0_0 : DmaSem sig := 28
abbrev cc4_sem0_1 : DmaSem sig := 29
abbrev cc4_sem1_0 : DmaSem sig := 30
abbrev cc4_sem2_0 : DmaSem sig := 31
abbrev cc4_sem3_0 : DmaSem sig := 32
abbrev cc4_sem3_1 : DmaSem sig := 33
abbrev cc5_sem0_0 : DmaSem sig := 34
abbrev cc5_sem0_1 : DmaSem sig := 35
abbrev cc5_sem1_0 : DmaSem sig := 36
abbrev cc5_sem1_1 : DmaSem sig := 37
abbrev cc5_sem2_0 : DmaSem sig := 38
abbrev cc5_sem3_0 : DmaSem sig := 39
abbrev cc5_sem4_0 : DmaSem sig := 40
abbrev cc5_sem5_0 : DmaSem sig := 41
abbrev cc5_sem6_0 : DmaSem sig := 42
abbrev cc5_sem6_1 : DmaSem sig := 43
abbrev cc6_sem0_0 : DmaSem sig := 44
abbrev cc6_sem0_1 : DmaSem sig := 45
abbrev cc6_sem1_0 : DmaSem sig := 46
abbrev cc6_sem2_0 : DmaSem sig := 47
abbrev cc6_sem3_0 : DmaSem sig := 48
abbrev cc6_sem3_1 : DmaSem sig := 49

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1000x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S1000x256 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S1000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S1000x256 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S256x768 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S256x768 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x768 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x768 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S1000x256 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![50], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S1000x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S256x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S1000x128 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S2000x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S128x384 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S128x384 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x384 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S1x384 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 2 → Memref sig .tc .vmem S2000x128 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

abbrev grid6 : Pipeline.Grid := ⟨1, ![100], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2000x272 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S272x1 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x1 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S2000x1 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

class Facts₀ : Prop where
  shapeCasts_S256_S1x256 : S256.ShapeCasts S1x256
  inb_S1000x256_S1000x256_0_0 : ∀ a, (![0, 0] : Fin 2 → Nat) a + S1000x256.size a ≤ S1000x256.size a
  h_S1000x256 : 0 < S1000x256.numel
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1000x256 : S1x256.Broadcasts S1000x256
  shapeCasts_S128_S1x128 : S128.ShapeCasts S1x128
  shapeCasts_S1000x256_S1000x256 : S1000x256.ShapeCasts S1000x256
  inb_S256x128_S256x128_0_0 : ∀ a, (![0, 0] : Fin 2 → Nat) a + S256x128.size a ≤ S256x128.size a
  h_S256x128 : 0 < S256x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1000x128 : S1x128.Broadcasts S1000x128
  inb_S1000x128_S1000x128_0_0 : ∀ a, (![0, 0] : Fin 2 → Nat) a + S1000x128.size a ≤ S1000x128.size a
  h_S1000x128 : 0 < S1000x128.numel
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S_S256 : S_.BroadcastsInDim S256 (![] : Fin 0 → Fin S256.rank)
  shapeCasts_S1000x128_S1000x128 : S1000x128.ShapeCasts S1000x128
  inb_S128x256_S128x256_0_0 : ∀ a, (![0, 0] : Fin 2 → Nat) a + S128x256.size a ≤ S128x256.size a
  h_S128x256 : 0 < S128x256.numel
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  shapeCasts_S768_S1x768 : S768.ShapeCasts S1x768
  inb_S256x768_S256x768_0_0 : ∀ a, (![0, 0] : Fin 2 → Nat) a + S256x768.size a ≤ S256x768.size a
  h_S256x768 : 0 < S256x768.numel
  inb_S1x768_S1x768_0_0 : ∀ a, (![0, 0] : Fin 2 → Nat) a + S1x768.size a ≤ S1x768.size a
  h_S1x768 : 0 < S1x768.numel
  shapeCasts_S1x768_S1x768 : S1x768.ShapeCasts S1x768
  broadcasts_S1x768_S1000x768 : S1x768.Broadcasts S1000x768
  slices_S1000x768_o0_0_S1000x256 : S1000x768.Slices ![0, 0] S1000x256
  slices_S1000x768_o0_256_S1000x256 : S1000x768.Slices ![0, 256] S1000x256
  slices_S1000x768_o0_512_S1000x256 : S1000x768.Slices ![0, 512] S1000x256
  bcast_S_S128 : S_.BroadcastsInDim S128 (![] : Fin 0 → Fin S128.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  shapeCasts_S384_S1x384 : S384.ShapeCasts S1x384
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S128x384_S128x384_0_0 : ∀ a, (![0, 0] : Fin 2 → Nat) a + S128x384.size a ≤ S128x384.size a
  h_S128x384 : 0 < S128x384.numel
  inb_S1x384_S1x384_0_0 : ∀ a, (![0, 0] : Fin 2 → Nat) a + S1x384.size a ≤ S1x384.size a
  h_S1x384 : 0 < S1x384.numel
  shapeCasts_S1x384_S1x384 : S1x384.ShapeCasts S1x384
  broadcasts_S1x384_S2000x384 : S1x384.Broadcasts S2000x384
  slices_S2000x384_o0_0_S2000x128 : S2000x384.Slices ![0, 0] S2000x128
  slices_S2000x384_o0_128_S2000x128 : S2000x384.Slices ![0, 128] S2000x128
  slices_S2000x384_o0_256_S2000x128 : S2000x384.Slices ![0, 256] S2000x128
  slices_S2x200000_S1x200000_0_0 : S2x200000.Slices ![0, 0] S1x200000
  shapeCasts_S1x200000_S200000 : S1x200000.ShapeCasts S200000
  bcast_S_S200000 : S_.BroadcastsInDim S200000 (![] : Fin 0 → Fin S200000.rank)
  bcast_S200000_S200000x1_0 : S200000.BroadcastsInDim S200000x1 (![0] : Fin 1 → Fin S200000x1.rank)
  slices_S2x200000_S1x200000_1_0 : S2x200000.Slices ![1, 0] S1x200000
  concatenates_S200000x128_S200000x128_S200000x16_S200000x272_d1 : Shape.Concatenates [S200000x128, S200000x128, S200000x16] S200000x272 1
  shapeCasts_S1_S1x1 : S1.ShapeCasts S1x1
  inb_S2000x272_S2000x272_0_0 : ∀ a, (![0, 0] : Fin 2 → Nat) a + S2000x272.size a ≤ S2000x272.size a
  h_S2000x272 : 0 < S2000x272.numel
  shapeCasts_S2000x272_S2000x272 : S2000x272.ShapeCasts S2000x272
  inb_S272x1_S272x1_0_0 : ∀ a, (![0, 0] : Fin 2 → Nat) a + S272x1.size a ≤ S272x1.size a
  h_S272x1 : 0 < S272x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2000x1 : S1x1.Broadcasts S2000x1
  inb_S2000x1_S2000x1_0_0 : ∀ a, (![0, 0] : Fin 2 → Nat) a + S2000x1.size a ≤ S2000x1.size a
  h_S2000x1 : 0 < S2000x1.numel
  shapeCasts_S200000x1_S200000 : S200000x1.ShapeCasts S200000
  dot_S1000x256_S256x256_S1000x256_1_0_0_1_n_n_wf : DotDims.WF S1000x256 S256x256 S1000x256 [1] [0] [0] [1] [] []
  dot_S1000x256_S256x128_S1000x128_1_0_0_1_n_n_wf : DotDims.WF S1000x256 S256x128 S1000x128 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S1000x128_S128x256_S1000x256_1_0_0_1_n_n_wf : DotDims.WF S1000x128 S128x256 S1000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S1000x256_S256x768_S1000x768_1_0_0_1_n_n_wf : DotDims.WF S1000x256 S256x768 S1000x768 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S2000x128_S128x384_S2000x384_1_0_0_1_n_n_wf : DotDims.WF S2000x128 S128x384 S2000x384 [1] [0] [0] [1] [] []
  gather_S50000x128_S200000x1_S200000x128_1_0_n_n_0_1_1128_wf : GatherDims.WF S50000x128 S200000x1 S200000x128 [1] [0] [] [0] [] 1 ![1, 128]
  dot_S2000x272_S272x1_S2000x1_1_0_0_1_n_n_wf : DotDims.WF S2000x272 S272x1 S2000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x256.size a ≤ S50000x256.size a
  hwx0_0 : ∀ i : grid0.Coords, EltTy.bits .f32 = 32 ∨ (Rect.block (s := S50000x256) S1000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1000x256.size a ≤ S50000x256.size a
  hwx0_3 : ∀ i : grid0.Coords, EltTy.bits .f32 = 32 ∨ (Rect.block (s := S50000x256) S1000x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x256.size a ≤ S50000x256.size a
  hwx1_0 : ∀ i : grid1.Coords, EltTy.bits .f32 = 32 ∨ (Rect.block (s := S50000x256) S1000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x128.size a ≤ S256x128.size a
  hwx1_1 : ∀ i : grid1.Coords, EltTy.bits .f32 = 32 ∨ (Rect.block (s := S256x128) S256x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1000x128.size a ≤ S50000x128.size a
  hwx1_3 : ∀ i : grid1.Coords, EltTy.bits .f32 = 32 ∨ (Rect.block (s := S50000x128) S1000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1000x128.size a ≤ S50000x128.size a
  hwx2_0 : ∀ i : grid2.Coords, EltTy.bits .f32 = 32 ∨ (Rect.block (s := S50000x128) S1000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x256.size a ≤ S128x256.size a
  hwx2_1 : ∀ i : grid2.Coords, EltTy.bits .f32 = 32 ∨ (Rect.block (s := S128x256) S128x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x256.size a ≤ S1x256.size a
  hwx2_2 : ∀ i : grid2.Coords, EltTy.bits .f32 = 32 ∨ (Rect.block (s := S1x256) S1x256.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1000x256.size a ≤ S50000x256.size a
  hwx2_3 : ∀ i : grid2.Coords, EltTy.bits .f32 = 32 ∨ (Rect.block (s := S50000x256) S1000x256.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1000x256.size a ≤ S50000x256.size a
  hwx3_0 : ∀ i : grid3.Coords, EltTy.bits .f32 = 32 ∨ (Rect.block (s := S50000x256) S1000x256.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1000x256.size a ≤ S50000x256.size a
  hwx3_1 : ∀ i : grid3.Coords, EltTy.bits .f32 = 32 ∨ (Rect.block (s := S50000x256) S1000x256.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S256x768.size a ≤ S256x768.size a
  hwx3_2 : ∀ i : grid3.Coords, EltTy.bits .f32 = 32 ∨ (Rect.block (s := S256x768) S256x768.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S256x768.size a ≤ S256x768.size a
  hwx3_3 : ∀ i : grid3.Coords, EltTy.bits .f32 = 32 ∨ (Rect.block (s := S256x768) S256x768.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x768.size a ≤ S1x768.size a
  hwx3_4 : ∀ i : grid3.Coords, EltTy.bits .f32 = 32 ∨ (Rect.block (s := S1x768) S1x768.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x768.size a ≤ S1x768.size a
  hwx3_5 : ∀ i : grid3.Coords, EltTy.bits .f32 = 32 ∨ (Rect.block (s := S1x768) S1x768.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S1000x256.size a ≤ S50000x256.size a
  hwx3_6 : ∀ i : grid3.Coords, EltTy.bits .f32 = 32 ∨ (Rect.block (s := S50000x256) S1000x256.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1000x256.size a ≤ S50000x256.size a
  hwx4_0 : ∀ i : grid4.Coords, EltTy.bits .f32 = 32 ∨ (Rect.block (s := S50000x256) S1000x256.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S256x128.size a ≤ S256x128.size a
  hwx4_1 : ∀ i : grid4.Coords, EltTy.bits .f32 = 32 ∨ (Rect.block (s := S256x128) S256x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S1000x128.size a ≤ S50000x128.size a
  hwx4_3 : ∀ i : grid4.Coords, EltTy.bits .f32 = 32 ∨ (Rect.block (s := S50000x128) S1000x128.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x128.size a ≤ S50000x128.size a
  hwx5_0 : ∀ i : grid5.Coords, EltTy.bits .f32 = 32 ∨ (Rect.block (s := S50000x128) S2000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S2000x128.size a ≤ S50000x128.size a
  hwx5_1 : ∀ i : grid5.Coords, EltTy.bits .f32 = 32 ∨ (Rect.block (s := S50000x128) S2000x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S128x384.size a ≤ S128x384.size a
  hwx5_2 : ∀ i : grid5.Coords, EltTy.bits .f32 = 32 ∨ (Rect.block (s := S128x384) S128x384.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S128x384.size a ≤ S128x384.size a
  hwx5_3 : ∀ i : grid5.Coords, EltTy.bits .f32 = 32 ∨ (Rect.block (s := S128x384) S128x384.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x384.size a ≤ S1x384.size a
  hwx5_4 : ∀ i : grid5.Coords, EltTy.bits .f32 = 32 ∨ (Rect.block (s := S1x384) S1x384.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S1x384.size a ≤ S1x384.size a
  hwx5_5 : ∀ i : grid5.Coords, EltTy.bits .f32 = 32 ∨ (Rect.block (s := S1x384) S1x384.size (cc5_transform_5 i) (hinb5_5 i)).WholeWords (EltTy.packing .f32)
  hstage5_6 : ∀ j, (stage5_6 j).IsWhole
  nbuf5_6 : grid5.bufCount reads5_6 false = 2
  hreads5_6 : ∀ i i' : grid5.Coords, (∀ a, reads5_6 a = true → i a = i' a) → cc5_transform_6 i = cc5_transform_6 i'
  hinb5_6 : ∀ (i : grid5.Coords) a, (cc5_transform_6 i a + 1) * S2000x128.size a ≤ S50000x128.size a
  hwx5_6 : ∀ i : grid5.Coords, EltTy.bits .f32 = 32 ∨ (Rect.block (s := S50000x128) S2000x128.size (cc5_transform_6 i) (hinb5_6 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x272.size a ≤ S200000x272.size a
  hwx6_0 : ∀ i : grid6.Coords, EltTy.bits .f32 = 32 ∨ (Rect.block (s := S200000x272) S2000x272.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S272x1.size a ≤ S272x1.size a
  hwx6_1 : ∀ i : grid6.Coords, EltTy.bits .f32 = 32 ∨ (Rect.block (s := S272x1) S272x1.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x1.size a ≤ S1x1.size a
  hwx6_2 : ∀ i : grid6.Coords, EltTy.bits .f32 = 32 ∨ (Rect.block (s := S1x1) S1x1.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S2000x1.size a ≤ S200000x1.size a
  hwx6_3 : ∀ i : grid6.Coords, EltTy.bits .f32 = 32 ∨ (Rect.block (s := S200000x1) S2000x1.size (cc6_transform_3 i) (hinb6_3 i)).WholeWords (EltTy.packing .f32)

variable [Facts₀]

def dot_S1000x256_S256x256_S1000x256_1_0_0_1_n_n : DotDims S1000x256 S256x256 S1000x256 where
  lhsContracting := [1]
  rhsContracting := [0]
  lhsNonContracting := [0]
  rhsNonContracting := [1]
  lhsBatch := []
  rhsBatch := []
  wf := dot_S1000x256_S256x256_S1000x256_1_0_0_1_n_n_wf
def dot_S1000x256_S256x128_S1000x128_1_0_0_1_n_n : DotDims S1000x256 S256x128 S1000x128 where
  lhsContracting := [1]
  rhsContracting := [0]
  lhsNonContracting := [0]
  rhsNonContracting := [1]
  lhsBatch := []
  rhsBatch := []
  wf := dot_S1000x256_S256x128_S1000x128_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S1000x128_S128x256_S1000x256_1_0_0_1_n_n : DotDims S1000x128 S128x256 S1000x256 where
  lhsContracting := [1]
  rhsContracting := [0]
  lhsNonContracting := [0]
  rhsNonContracting := [1]
  lhsBatch := []
  rhsBatch := []
  wf := dot_S1000x128_S128x256_S1000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S1000x256_S256x768_S1000x768_1_0_0_1_n_n : DotDims S1000x256 S256x768 S1000x768 where
  lhsContracting := [1]
  rhsContracting := [0]
  lhsNonContracting := [0]
  rhsNonContracting := [1]
  lhsBatch := []
  rhsBatch := []
  wf := dot_S1000x256_S256x768_S1000x768_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S2000x128_S128x384_S2000x384_1_0_0_1_n_n : DotDims S2000x128 S128x384 S2000x384 where
  lhsContracting := [1]
  rhsContracting := [0]
  lhsNonContracting := [0]
  rhsNonContracting := [1]
  lhsBatch := []
  rhsBatch := []
  wf := dot_S2000x128_S128x384_S2000x384_1_0_0_1_n_n_wf
def gather_S50000x128_S200000x1_S200000x128_1_0_n_n_0_1_1128 : GatherDims S50000x128 S200000x1 S200000x128 where
  offsetDims := [1]
  collapsedSliceDims := [0]
  operandBatchingDims := []
  startIndicesBatchingDims := []
  startIndexMap := [0]
  indexVectorDim := 1
  sliceSizes := ![1, 128]
  wf := gather_S50000x128_S200000x1_S200000x128_1_0_n_n_0_1_1128_wf
def dot_S2000x272_S272x1_S2000x1_1_0_0_1_n_n : DotDims S2000x272 S272x1 S2000x1 where
  lhsContracting := [1]
  rhsContracting := [0]
  lhsNonContracting := [0]
  rhsNonContracting := [1]
  lhsBatch := []
  rhsBatch := []
  wf := dot_S2000x272_S272x1_S2000x1_1_0_0_1_n_n_wf

abbrev win0_0 : Pipeline.Window sig grid0 :=
  Pipeline.Window.ofSpec (Memref.whole main_arg0) S1000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg6) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1000x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v1) S1000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg8) S256x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v3) S1000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v3) S1000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg10) S128x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v35) S1x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v36) S1000x256.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v53) S1000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg4) S1000x256.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg14) S256x768.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg15) S256x768.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v54) S1x768.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v55) S1x768.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v56) S1000x256.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v56) S1000x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg12) S256x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v58) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v59) S1000x128.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v76) S2000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg5) S2000x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_arg18) S128x384.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_arg19) S128x384.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v77) S1x384.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v78) S1x384.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v79) S2000x128.size cc5_transform_6 reads5_6 true false 2 stage5_6 sem5_6
    hrank5 hreads5_6 hinb5_6 nbuf5_6 (Memref.isWhole_whole _) hwx5_6 hstage5_6

abbrev win5 : Fin 7 → Pipeline.Window sig grid5 := fun | 0 => win5_0 | 1 => win5_1 | 2 => win5_2 | 3 => win5_3 | 4 => win5_4 | 5 => win5_5 | 6 => win5_6 | ⟨_ + 7, h⟩ => absurd h (Nat.not_lt.2 (Nat.le_add_left _ _))
abbrev spec5 : Fin 7 → Pipeline.WinSpec sig grid5.rank := fun w => (win5 w).toWinSpec

abbrev win6_0 : Pipeline.Window sig grid6 :=
  Pipeline.Window.ofSpec (Memref.whole main_v98) S2000x272.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg22) S272x1.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v99) S1x1.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v100) S2000x1.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

class Facts : Prop extends Facts₀ where

variable [Facts]
-- ==== ReferenceIdeal.lean ====
abbrev S50000x256 : Shape := ⟨2, ![50000, 256]⟩
abbrev S2x800000 : Shape := ⟨2, ![2, 800000]⟩
abbrev S2x200000 : Shape := ⟨2, ![2, 200000]⟩
abbrev S200000x16 : Shape := ⟨2, ![200000, 16]⟩
abbrev S50000x128 : Shape := ⟨2, ![50000, 128]⟩
abbrev S256x256 : Shape := ⟨2, ![256, 256]⟩
abbrev S256 : Shape := ⟨1, ![256]⟩
abbrev S256x128 : Shape := ⟨2, ![256, 128]⟩
abbrev S128 : Shape := ⟨1, ![128]⟩
abbrev S128x256 : Shape := ⟨2, ![128, 256]⟩
abbrev S256x768 : Shape := ⟨2, ![256, 768]⟩
abbrev S768 : Shape := ⟨1, ![768]⟩
abbrev S128x384 : Shape := ⟨2, ![128, 384]⟩
abbrev S384 : Shape := ⟨1, ![384]⟩
abbrev S272x1 : Shape := ⟨2, ![272, 1]⟩
abbrev S1 : Shape := ⟨1, ![1]⟩
abbrev S1x256 : Shape := ⟨2, ![1, 256]⟩
abbrev S_ : Shape := ⟨0, ![]⟩
abbrev S1x128 : Shape := ⟨2, ![1, 128]⟩
abbrev S1x800000 : Shape := ⟨2, ![1, 800000]⟩
abbrev S800000 : Shape := ⟨1, ![800000]⟩
abbrev S50000 : Shape := ⟨1, ![50000]⟩
abbrev S850000 : Shape := ⟨1, ![850000]⟩
abbrev S850000x1 : Shape := ⟨2, ![850000, 1]⟩
abbrev S850000x256 : Shape := ⟨2, ![850000, 256]⟩
abbrev S50000x768 : Shape := ⟨2, ![50000, 768]⟩
abbrev S1x768 : Shape := ⟨2, ![1, 768]⟩
abbrev S850000x128 : Shape := ⟨2, ![850000, 128]⟩
abbrev S50000x384 : Shape := ⟨2, ![50000, 384]⟩
abbrev S1x384 : Shape := ⟨2, ![1, 384]⟩
abbrev S1x200000 : Shape := ⟨2, ![1, 200000]⟩
abbrev S200000 : Shape := ⟨1, ![200000]⟩
abbrev S200000x1 : Shape := ⟨2, ![200000, 1]⟩
abbrev S200000x128 : Shape := ⟨2, ![200000, 128]⟩
abbrev S200000x272 : Shape := ⟨2, ![200000, 272]⟩
abbrev S1x1 : Shape := ⟨2, ![1, 1]⟩

abbrev nBuf : Space → Nat
  | .hbm => 294
  | .vmem => 0
  | .smem => 0
  | _ => 0

abbrev hbmTy0_0 (i : Nat) : BufTy := match i % 128 with
  | 0 => ⟨S50000x256, .f32⟩
  | 1 => ⟨S2x800000, .i32⟩
  | 2 => ⟨S2x200000, .i32⟩
  | 3 => ⟨S200000x16, .f32⟩
  | 4 => ⟨S50000x256, .f32⟩
  | 5 => ⟨S50000x128, .f32⟩
  | 6 => ⟨S256x256, .f32⟩
  | 7 => ⟨S256, .f32⟩
  | 8 => ⟨S256x128, .f32⟩
  | 9 => ⟨S128, .f32⟩
  | 10 => ⟨S128x256, .f32⟩
  | 11 => ⟨S256, .f32⟩
  | 12 => ⟨S256x128, .f32⟩
  | 13 => ⟨S128, .f32⟩
  | 14 => ⟨S256x768, .f32⟩
  | 15 => ⟨S256x768, .f32⟩
  | 16 => ⟨S768, .f32⟩
  | 17 => ⟨S768, .f32⟩
  | 18 => ⟨S128x384, .f32⟩
  | 19 => ⟨S128x384, .f32⟩
  | 20 => ⟨S384, .f32⟩
  | 21 => ⟨S384, .f32⟩
  | 22 => ⟨S272x1, .f32⟩
  | 23 => ⟨S1, .f32⟩
  | 24 => ⟨S50000x256, .f32⟩
  | 25 => ⟨S1x256, .f32⟩
  | 26 => ⟨S50000x256, .f32⟩
  | 27 => ⟨S50000x256, .f32⟩
  | 28 => ⟨S_, .f32⟩
  | 29 => ⟨S_, .f32⟩
  | 30 => ⟨S50000x256, .f32⟩
  | 31 => ⟨S50000x256, .i1⟩
  | 32 => ⟨S_, .f32⟩
  | 33 => ⟨S50000x256, .f32⟩
  | 34 => ⟨S50000x256, .f32⟩
  | 35 => ⟨S50000x256, .f32⟩
  | 36 => ⟨S50000x128, .f32⟩
  | 37 => ⟨S1x128, .f32⟩
  | 38 => ⟨S50000x128, .f32⟩
  | 39 => ⟨S50000x128, .f32⟩
  | 40 => ⟨S_, .f32⟩
  | 41 => ⟨S_, .f32⟩
  | 42 => ⟨S50000x128, .f32⟩
  | 43 => ⟨S50000x128, .i1⟩
  | 44 => ⟨S_, .f32⟩
  | 45 => ⟨S50000x128, .f32⟩
  | 46 => ⟨S50000x128, .f32⟩
  | 47 => ⟨S50000x128, .f32⟩
  | 48 => ⟨S1x800000, .i32⟩
  | 49 => ⟨S800000, .i32⟩
  | 50 => ⟨S1x800000, .i32⟩
  | 51 => ⟨S800000, .i32⟩
  | 52 => ⟨S50000, .i32⟩
  | 53 => ⟨S850000, .i32⟩
  | 54 => ⟨S850000, .i32⟩
  | 55 => ⟨S_, .f32⟩
  | 56 => ⟨S850000, .f32⟩
  | 57 => ⟨S_, .f32⟩
  | 58 => ⟨S50000, .f32⟩
  | 59 => ⟨S850000x1, .i32⟩
  | 60 => ⟨S50000, .f32⟩
  | 61 => ⟨S_, .f32⟩
  | 62 => ⟨S50000, .f32⟩
  | 63 => ⟨S50000, .i1⟩
  | 64 => ⟨S50000, .f32⟩
  | 65 => ⟨S_, .f32⟩
  | 66 => ⟨S_, .f32⟩
  | 67 => ⟨S50000, .f32⟩
  | 68 => ⟨S50000, .f32⟩
  | 69 => ⟨S_, .i32⟩
  | 70 => ⟨S850000, .i32⟩
  | 71 => ⟨S850000, .i1⟩
  | 72 => ⟨S_, .i32⟩
  | 73 => ⟨S850000, .i32⟩
  | 74 => ⟨S850000, .i32⟩
  | 75 => ⟨S850000, .i32⟩
  | 76 => ⟨S850000x1, .i32⟩
  | 77 => ⟨S850000, .f32⟩
  | 78 => ⟨S_, .i32⟩
  | 79 => ⟨S850000, .i32⟩
  | 80 => ⟨S850000, .i1⟩
  | 81 => ⟨S_, .i32⟩
  | 82 => ⟨S850000, .i32⟩
  | 83 => ⟨S850000, .i32⟩
  | 84 => ⟨S850000, .i32⟩
  | 85 => ⟨S850000x1, .i32⟩
  | 86 => ⟨S850000, .f32⟩
  | 87 => ⟨S850000, .f32⟩
  | 88 => ⟨S50000x256, .f32⟩
  | 89 => ⟨S_, .i32⟩
  | 90 => ⟨S850000, .i32⟩
  | 91 => ⟨S850000, .i1⟩
  | 92 => ⟨S_, .i32⟩
  | 93 => ⟨S850000, .i32⟩
  | 94 => ⟨S850000, .i32⟩
  | 95 => ⟨S850000, .i32⟩
  | 96 => ⟨S850000x1, .i32⟩
  | 97 => ⟨S850000x256, .f32⟩
  | 98 => ⟨S850000x1, .f32⟩
  | 99 => ⟨S850000x256, .f32⟩
  | 100 => ⟨S850000x256, .f32⟩
  | 101 => ⟨S_, .f32⟩
  | 102 => ⟨S50000x256, .f32⟩
  | 103 => ⟨S850000x1, .i32⟩
  | 104 => ⟨S50000x256, .f32⟩
  | 105 => ⟨S1x256, .f32⟩
  | 106 => ⟨S50000x256, .f32⟩
  | 107 => ⟨S50000x256, .f32⟩
  | 108 => ⟨S_, .f32⟩
  | 109 => ⟨S_, .f32⟩
  | 110 => ⟨S50000x256, .f32⟩
  | 111 => ⟨S50000x256, .i1⟩
  | 112 => ⟨S_, .f32⟩
  | 113 => ⟨S50000x256, .f32⟩
  | 114 => ⟨S50000x256, .f32⟩
  | 115 => ⟨S50000x256, .f32⟩
  | 116 => ⟨S50000x768, .f32⟩
  | 117 => ⟨S1x768, .f32⟩
  | 118 => ⟨S50000x768, .f32⟩
  | 119 => ⟨S50000x768, .f32⟩
  | 120 => ⟨S50000x768, .f32⟩
  | 121 => ⟨S1x768, .f32⟩
  | 122 => ⟨S50000x768, .f32⟩
  | 123 => ⟨S50000x768, .f32⟩
  | 124 => ⟨S50000x256, .f32⟩
  | 125 => ⟨S50000x256, .f32⟩
  | 126 => ⟨S50000x256, .f32⟩
  | 127 => ⟨S50000x256, .f32⟩
  | _ => ⟨S50000x256, .f32⟩

abbrev hbmTy0_1 (i : Nat) : BufTy := match i % 128 with
  | 0 => ⟨S50000x256, .f32⟩
  | 1 => ⟨S50000x256, .f32⟩
  | 2 => ⟨S50000x256, .f32⟩
  | 3 => ⟨S50000x256, .f32⟩
  | 4 => ⟨S50000x256, .f32⟩
  | 5 => ⟨S_, .f32⟩
  | 6 => ⟨S50000x256, .f32⟩
  | 7 => ⟨S50000x256, .f32⟩
  | 8 => ⟨S_, .f32⟩
  | 9 => ⟨S50000x256, .f32⟩
  | 10 => ⟨S50000x256, .f32⟩
  | 11 => ⟨S50000x256, .f32⟩
  | 12 => ⟨S50000x256, .f32⟩
  | 13 => ⟨S50000x256, .f32⟩
  | 14 => ⟨S_, .f32⟩
  | 15 => ⟨S50000x256, .f32⟩
  | 16 => ⟨S50000x256, .f32⟩
  | 17 => ⟨S_, .f32⟩
  | 18 => ⟨S50000x256, .f32⟩
  | 19 => ⟨S50000x256, .f32⟩
  | 20 => ⟨S50000x256, .f32⟩
  | 21 => ⟨S50000x256, .f32⟩
  | 22 => ⟨S50000x256, .f32⟩
  | 23 => ⟨S_, .f32⟩
  | 24 => ⟨S50000x256, .f32⟩
  | 25 => ⟨S50000x256, .f32⟩
  | 26 => ⟨S50000x256, .f32⟩
  | 27 => ⟨S50000x256, .f32⟩
  | 28 => ⟨S50000x256, .f32⟩
  | 29 => ⟨S1x800000, .i32⟩
  | 30 => ⟨S800000, .i32⟩
  | 31 => ⟨S1x800000, .i32⟩
  | 32 => ⟨S800000, .i32⟩
  | 33 => ⟨S50000, .i32⟩
  | 34 => ⟨S850000, .i32⟩
  | 35 => ⟨S850000, .i32⟩
  | 36 => ⟨S_, .f32⟩
  | 37 => ⟨S850000, .f32⟩
  | 38 => ⟨S_, .f32⟩
  | 39 => ⟨S50000, .f32⟩
  | 40 => ⟨S850000x1, .i32⟩
  | 41 => ⟨S50000, .f32⟩
  | 42 => ⟨S_, .f32⟩
  | 43 => ⟨S50000, .f32⟩
  | 44 => ⟨S50000, .i1⟩
  | 45 => ⟨S50000, .f32⟩
  | 46 => ⟨S_, .f32⟩
  | 47 => ⟨S_, .f32⟩
  | 48 => ⟨S50000, .f32⟩
  | 49 => ⟨S50000, .f32⟩
  | 50 => ⟨S_, .i32⟩
  | 51 => ⟨S850000, .i32⟩
  | 52 => ⟨S850000, .i1⟩
  | 53 => ⟨S_, .i32⟩
  | 54 => ⟨S850000, .i32⟩
  | 55 => ⟨S850000, .i32⟩
  | 56 => ⟨S850000, .i32⟩
  | 57 => ⟨S850000x1, .i32⟩
  | 58 => ⟨S850000, .f32⟩
  | 59 => ⟨S_, .i32⟩
  | 60 => ⟨S850000, .i32⟩
  | 61 => ⟨S850000, .i1⟩
  | 62 => ⟨S_, .i32⟩
  | 63 => ⟨S850000, .i32⟩
  | 64 => ⟨S850000, .i32⟩
  | 65 => ⟨S850000, .i32⟩
  | 66 => ⟨S850000x1, .i32⟩
  | 67 => ⟨S850000, .f32⟩
  | 68 => ⟨S850000, .f32⟩
  | 69 => ⟨S50000x128, .f32⟩
  | 70 => ⟨S_, .i32⟩
  | 71 => ⟨S850000, .i32⟩
  | 72 => ⟨S850000, .i1⟩
  | 73 => ⟨S_, .i32⟩
  | 74 => ⟨S850000, .i32⟩
  | 75 => ⟨S850000, .i32⟩
  | 76 => ⟨S850000, .i32⟩
  | 77 => ⟨S850000x1, .i32⟩
  | 78 => ⟨S850000x128, .f32⟩
  | 79 => ⟨S850000x1, .f32⟩
  | 80 => ⟨S850000x128, .f32⟩
  | 81 => ⟨S850000x128, .f32⟩
  | 82 => ⟨S_, .f32⟩
  | 83 => ⟨S50000x128, .f32⟩
  | 84 => ⟨S850000x1, .i32⟩
  | 85 => ⟨S50000x128, .f32⟩
  | 86 => ⟨S1x128, .f32⟩
  | 87 => ⟨S50000x128, .f32⟩
  | 88 => ⟨S50000x128, .f32⟩
  | 89 => ⟨S_, .f32⟩
  | 90 => ⟨S_, .f32⟩
  | 91 => ⟨S50000x128, .f32⟩
  | 92 => ⟨S50000x128, .i1⟩
  | 93 => ⟨S_, .f32⟩
  | 94 => ⟨S50000x128, .f32⟩
  | 95 => ⟨S50000x128, .f32⟩
  | 96 => ⟨S50000x128, .f32⟩
  | 97 => ⟨S50000x384, .f32⟩
  | 98 => ⟨S1x384, .f32⟩
  | 99 => ⟨S50000x384, .f32⟩
  | 100 => ⟨S50000x384, .f32⟩
  | 101 => ⟨S50000x384, .f32⟩
  | 102 => ⟨S1x384, .f32⟩
  | 103 => ⟨S50000x384, .f32⟩
  | 104 => ⟨S50000x384, .f32⟩
  | 105 => ⟨S50000x128, .f32⟩
  | 106 => ⟨S50000x128, .f32⟩
  | 107 => ⟨S50000x128, .f32⟩
  | 108 => ⟨S50000x128, .f32⟩
  | 109 => ⟨S50000x128, .f32⟩
  | 110 => ⟨S50000x128, .f32⟩
  | 111 => ⟨S50000x128, .f32⟩
  | 112 => ⟨S50000x128, .f32⟩
  | 113 => ⟨S50000x128, .f32⟩
  | 114 => ⟨S_, .f32⟩
  | 115 => ⟨S50000x128, .f32⟩
  | 116 => ⟨S50000x128, .f32⟩
  | 117 => ⟨S_, .f32⟩
  | 118 => ⟨S50000x128, .f32⟩
  | 119 => ⟨S50000x128, .f32⟩
  | 120 => ⟨S50000x128, .f32⟩
  | 121 => ⟨S50000x128, .f32⟩
  | 122 => ⟨S50000x128, .f32⟩
  | 123 => ⟨S_, .f32⟩
  | 124 => ⟨S50000x128, .f32⟩
  | 125 => ⟨S50000x128, .f32⟩
  | 126 => ⟨S_, .f32⟩
  | 127 => ⟨S50000x128, .f32⟩
  | _ => ⟨S50000x256, .f32⟩

abbrev hbmTy0_2 (i : Nat) : BufTy := match i % 128 with
  | 0 => ⟨S50000x128, .f32⟩
  | 1 => ⟨S50000x128, .f32⟩
  | 2 => ⟨S50000x128, .f32⟩
  | 3 => ⟨S50000x128, .f32⟩
  | 4 => ⟨S_, .f32⟩
  | 5 => ⟨S50000x128, .f32⟩
  | 6 => ⟨S50000x128, .f32⟩
  | 7 => ⟨S50000x128, .f32⟩
  | 8 => ⟨S50000x128, .f32⟩
  | 9 => ⟨S50000x128, .f32⟩
  | 10 => ⟨S1x200000, .i32⟩
  | 11 => ⟨S200000, .i32⟩
  | 12 => ⟨S_, .i32⟩
  | 13 => ⟨S200000, .i32⟩
  | 14 => ⟨S200000, .i1⟩
  | 15 => ⟨S_, .i32⟩
  | 16 => ⟨S200000, .i32⟩
  | 17 => ⟨S200000, .i32⟩
  | 18 => ⟨S200000, .i32⟩
  | 19 => ⟨S200000x1, .i32⟩
  | 20 => ⟨S200000x128, .f32⟩
  | 21 => ⟨S1x200000, .i32⟩
  | 22 => ⟨S200000, .i32⟩
  | 23 => ⟨S_, .i32⟩
  | 24 => ⟨S200000, .i32⟩
  | 25 => ⟨S200000, .i1⟩
  | 26 => ⟨S_, .i32⟩
  | 27 => ⟨S200000, .i32⟩
  | 28 => ⟨S200000, .i32⟩
  | 29 => ⟨S200000, .i32⟩
  | 30 => ⟨S200000x1, .i32⟩
  | 31 => ⟨S200000x128, .f32⟩
  | 32 => ⟨S200000x272, .f32⟩
  | 33 => ⟨S200000x1, .f32⟩
  | 34 => ⟨S1x1, .f32⟩
  | 35 => ⟨S200000x1, .f32⟩
  | 36 => ⟨S200000x1, .f32⟩
  | 37 => ⟨S200000, .f32⟩
  | _ => ⟨S50000x256, .f32⟩

abbrev hbmTy (i : Nat) : BufTy := match i / 128 with
  | 0 => hbmTy0_0 i
  | 1 => hbmTy0_1 i
  | 2 => hbmTy0_2 i
  | _ => ⟨S50000x256, .f32⟩

abbrev bufTy : (tb : Table) → Fin (tcTables nBuf tb) → BufTy
  | .hbm, ⟨i, _⟩ => hbmTy i
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_v0 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_cst : Ref sig .tc := ⟨.hbm, 28, rfl⟩
abbrev main_call0_cst : Ref sig .tc := ⟨.hbm, 29, rfl⟩
abbrev main_call0_v0 : Ref sig .tc := ⟨.hbm, 30, rfl⟩
abbrev main_call0_v1 : Ref sig .tc := ⟨.hbm, 31, rfl⟩
abbrev main_call0_v2 : Ref sig .tc := ⟨.hbm, 32, rfl⟩
abbrev main_call0_v3 : Ref sig .tc := ⟨.hbm, 33, rfl⟩
abbrev main_call0_v4 : Ref sig .tc := ⟨.hbm, 34, rfl⟩
abbrev main_v4 : Ref sig .tc := ⟨.hbm, 35, rfl⟩
abbrev main_v5 : Ref sig .tc := ⟨.hbm, 36, rfl⟩
abbrev main_v6 : Ref sig .tc := ⟨.hbm, 37, rfl⟩
abbrev main_v7 : Ref sig .tc := ⟨.hbm, 38, rfl⟩
abbrev main_v8 : Ref sig .tc := ⟨.hbm, 39, rfl⟩
abbrev main_cst_0 : Ref sig .tc := ⟨.hbm, 40, rfl⟩
abbrev main_call1_cst : Ref sig .tc := ⟨.hbm, 41, rfl⟩
abbrev main_call1_v0 : Ref sig .tc := ⟨.hbm, 42, rfl⟩
abbrev main_call1_v1 : Ref sig .tc := ⟨.hbm, 43, rfl⟩
abbrev main_call1_v2 : Ref sig .tc := ⟨.hbm, 44, rfl⟩
abbrev main_call1_v3 : Ref sig .tc := ⟨.hbm, 45, rfl⟩
abbrev main_call1_v4 : Ref sig .tc := ⟨.hbm, 46, rfl⟩
abbrev main_v9 : Ref sig .tc := ⟨.hbm, 47, rfl⟩
abbrev main_v10 : Ref sig .tc := ⟨.hbm, 48, rfl⟩
abbrev main_v11 : Ref sig .tc := ⟨.hbm, 49, rfl⟩
abbrev main_v12 : Ref sig .tc := ⟨.hbm, 50, rfl⟩
abbrev main_v13 : Ref sig .tc := ⟨.hbm, 51, rfl⟩
abbrev main_v14 : Ref sig .tc := ⟨.hbm, 52, rfl⟩
abbrev main_v15 : Ref sig .tc := ⟨.hbm, 53, rfl⟩
abbrev main_v16 : Ref sig .tc := ⟨.hbm, 54, rfl⟩
abbrev main_cst_1 : Ref sig .tc := ⟨.hbm, 55, rfl⟩
abbrev main_v17 : Ref sig .tc := ⟨.hbm, 56, rfl⟩
abbrev main_cst_2 : Ref sig .tc := ⟨.hbm, 57, rfl⟩
abbrev main_v18 : Ref sig .tc := ⟨.hbm, 58, rfl⟩
abbrev main_v19 : Ref sig .tc := ⟨.hbm, 59, rfl⟩
abbrev main_v20 : Ref sig .tc := ⟨.hbm, 60, rfl⟩
abbrev main_cst_3 : Ref sig .tc := ⟨.hbm, 61, rfl⟩
abbrev main_v21 : Ref sig .tc := ⟨.hbm, 62, rfl⟩
abbrev main_v22 : Ref sig .tc := ⟨.hbm, 63, rfl⟩
abbrev main_v23 : Ref sig .tc := ⟨.hbm, 64, rfl⟩
abbrev main_cst_4 : Ref sig .tc := ⟨.hbm, 65, rfl⟩
abbrev main_call2_v0 : Ref sig .tc := ⟨.hbm, 66, rfl⟩
abbrev main_call2_v1 : Ref sig .tc := ⟨.hbm, 67, rfl⟩
abbrev main_v24 : Ref sig .tc := ⟨.hbm, 68, rfl⟩
abbrev main_c : Ref sig .tc := ⟨.hbm, 69, rfl⟩
abbrev main_v25 : Ref sig .tc := ⟨.hbm, 70, rfl⟩
abbrev main_v26 : Ref sig .tc := ⟨.hbm, 71, rfl⟩
abbrev main_c_5 : Ref sig .tc := ⟨.hbm, 72, rfl⟩
abbrev main_v27 : Ref sig .tc := ⟨.hbm, 73, rfl⟩
abbrev main_v28 : Ref sig .tc := ⟨.hbm, 74, rfl⟩
abbrev main_v29 : Ref sig .tc := ⟨.hbm, 75, rfl⟩
abbrev main_v30 : Ref sig .tc := ⟨.hbm, 76, rfl⟩
abbrev main_v31 : Ref sig .tc := ⟨.hbm, 77, rfl⟩
abbrev main_c_6 : Ref sig .tc := ⟨.hbm, 78, rfl⟩
abbrev main_v32 : Ref sig .tc := ⟨.hbm, 79, rfl⟩
abbrev main_v33 : Ref sig .tc := ⟨.hbm, 80, rfl⟩
abbrev main_c_7 : Ref sig .tc := ⟨.hbm, 81, rfl⟩
abbrev main_v34 : Ref sig .tc := ⟨.hbm, 82, rfl⟩
abbrev main_v35 : Ref sig .tc := ⟨.hbm, 83, rfl⟩
abbrev main_v36 : Ref sig .tc := ⟨.hbm, 84, rfl⟩
abbrev main_v37 : Ref sig .tc := ⟨.hbm, 85, rfl⟩
abbrev main_v38 : Ref sig .tc := ⟨.hbm, 86, rfl⟩
abbrev main_v39 : Ref sig .tc := ⟨.hbm, 87, rfl⟩
abbrev main_v40 : Ref sig .tc := ⟨.hbm, 88, rfl⟩
abbrev main_c_8 : Ref sig .tc := ⟨.hbm, 89, rfl⟩
abbrev main_v41 : Ref sig .tc := ⟨.hbm, 90, rfl⟩
abbrev main_v42 : Ref sig .tc := ⟨.hbm, 91, rfl⟩
abbrev main_c_9 : Ref sig .tc := ⟨.hbm, 92, rfl⟩
abbrev main_v43 : Ref sig .tc := ⟨.hbm, 93, rfl⟩
abbrev main_v44 : Ref sig .tc := ⟨.hbm, 94, rfl⟩
abbrev main_v45 : Ref sig .tc := ⟨.hbm, 95, rfl⟩
abbrev main_v46 : Ref sig .tc := ⟨.hbm, 96, rfl⟩
abbrev main_v47 : Ref sig .tc := ⟨.hbm, 97, rfl⟩
abbrev main_v48 : Ref sig .tc := ⟨.hbm, 98, rfl⟩
abbrev main_v49 : Ref sig .tc := ⟨.hbm, 99, rfl⟩
abbrev main_v50 : Ref sig .tc := ⟨.hbm, 100, rfl⟩
abbrev main_cst_10 : Ref sig .tc := ⟨.hbm, 101, rfl⟩
abbrev main_v51 : Ref sig .tc := ⟨.hbm, 102, rfl⟩
abbrev main_v52 : Ref sig .tc := ⟨.hbm, 103, rfl⟩
abbrev main_v53 : Ref sig .tc := ⟨.hbm, 104, rfl⟩
abbrev main_v54 : Ref sig .tc := ⟨.hbm, 105, rfl⟩
abbrev main_v55 : Ref sig .tc := ⟨.hbm, 106, rfl⟩
abbrev main_v56 : Ref sig .tc := ⟨.hbm, 107, rfl⟩
abbrev main_cst_11 : Ref sig .tc := ⟨.hbm, 108, rfl⟩
abbrev main_call3_cst : Ref sig .tc := ⟨.hbm, 109, rfl⟩
abbrev main_call3_v0 : Ref sig .tc := ⟨.hbm, 110, rfl⟩
abbrev main_call3_v1 : Ref sig .tc := ⟨.hbm, 111, rfl⟩
abbrev main_call3_v2 : Ref sig .tc := ⟨.hbm, 112, rfl⟩
abbrev main_call3_v3 : Ref sig .tc := ⟨.hbm, 113, rfl⟩
abbrev main_call3_v4 : Ref sig .tc := ⟨.hbm, 114, rfl⟩
abbrev main_v57 : Ref sig .tc := ⟨.hbm, 115, rfl⟩
abbrev main_v58 : Ref sig .tc := ⟨.hbm, 116, rfl⟩
abbrev main_v59 : Ref sig .tc := ⟨.hbm, 117, rfl⟩
abbrev main_v60 : Ref sig .tc := ⟨.hbm, 118, rfl⟩
abbrev main_v61 : Ref sig .tc := ⟨.hbm, 119, rfl⟩
abbrev main_v62 : Ref sig .tc := ⟨.hbm, 120, rfl⟩
abbrev main_v63 : Ref sig .tc := ⟨.hbm, 121, rfl⟩
abbrev main_v64 : Ref sig .tc := ⟨.hbm, 122, rfl⟩
abbrev main_v65 : Ref sig .tc := ⟨.hbm, 123, rfl⟩
abbrev main_v66 : Ref sig .tc := ⟨.hbm, 124, rfl⟩
abbrev main_v67 : Ref sig .tc := ⟨.hbm, 125, rfl⟩
abbrev main_v68 : Ref sig .tc := ⟨.hbm, 126, rfl⟩
abbrev main_v69 : Ref sig .tc := ⟨.hbm, 127, rfl⟩
abbrev main_v70 : Ref sig .tc := ⟨.hbm, 128, rfl⟩
abbrev main_v71 : Ref sig .tc := ⟨.hbm, 129, rfl⟩
abbrev main_v72 : Ref sig .tc := ⟨.hbm, 130, rfl⟩
abbrev main_v73 : Ref sig .tc := ⟨.hbm, 131, rfl⟩
abbrev main_v74 : Ref sig .tc := ⟨.hbm, 132, rfl⟩
abbrev main_cst_12 : Ref sig .tc := ⟨.hbm, 133, rfl⟩
abbrev main_v75 : Ref sig .tc := ⟨.hbm, 134, rfl⟩
abbrev main_v76 : Ref sig .tc := ⟨.hbm, 135, rfl⟩
abbrev main_cst_13 : Ref sig .tc := ⟨.hbm, 136, rfl⟩
abbrev main_v77 : Ref sig .tc := ⟨.hbm, 137, rfl⟩
abbrev main_v78 : Ref sig .tc := ⟨.hbm, 138, rfl⟩
abbrev main_v79 : Ref sig .tc := ⟨.hbm, 139, rfl⟩
abbrev main_v80 : Ref sig .tc := ⟨.hbm, 140, rfl⟩
abbrev main_v81 : Ref sig .tc := ⟨.hbm, 141, rfl⟩
abbrev main_cst_14 : Ref sig .tc := ⟨.hbm, 142, rfl⟩
abbrev main_v82 : Ref sig .tc := ⟨.hbm, 143, rfl⟩
abbrev main_v83 : Ref sig .tc := ⟨.hbm, 144, rfl⟩
abbrev main_cst_15 : Ref sig .tc := ⟨.hbm, 145, rfl⟩
abbrev main_v84 : Ref sig .tc := ⟨.hbm, 146, rfl⟩
abbrev main_v85 : Ref sig .tc := ⟨.hbm, 147, rfl⟩
abbrev main_v86 : Ref sig .tc := ⟨.hbm, 148, rfl⟩
abbrev main_v87 : Ref sig .tc := ⟨.hbm, 149, rfl⟩
abbrev main_v88 : Ref sig .tc := ⟨.hbm, 150, rfl⟩
abbrev main_cst_16 : Ref sig .tc := ⟨.hbm, 151, rfl⟩
abbrev main_v89 : Ref sig .tc := ⟨.hbm, 152, rfl⟩
abbrev main_v90 : Ref sig .tc := ⟨.hbm, 153, rfl⟩
abbrev main_v91 : Ref sig .tc := ⟨.hbm, 154, rfl⟩
abbrev main_v92 : Ref sig .tc := ⟨.hbm, 155, rfl⟩
abbrev main_v93 : Ref sig .tc := ⟨.hbm, 156, rfl⟩
abbrev main_v94 : Ref sig .tc := ⟨.hbm, 157, rfl⟩
abbrev main_v95 : Ref sig .tc := ⟨.hbm, 158, rfl⟩
abbrev main_v96 : Ref sig .tc := ⟨.hbm, 159, rfl⟩
abbrev main_v97 : Ref sig .tc := ⟨.hbm, 160, rfl⟩
abbrev main_v98 : Ref sig .tc := ⟨.hbm, 161, rfl⟩
abbrev main_v99 : Ref sig .tc := ⟨.hbm, 162, rfl⟩
abbrev main_v100 : Ref sig .tc := ⟨.hbm, 163, rfl⟩
abbrev main_cst_17 : Ref sig .tc := ⟨.hbm, 164, rfl⟩
abbrev main_v101 : Ref sig .tc := ⟨.hbm, 165, rfl⟩
abbrev main_cst_18 : Ref sig .tc := ⟨.hbm, 166, rfl⟩
abbrev main_v102 : Ref sig .tc := ⟨.hbm, 167, rfl⟩
abbrev main_v103 : Ref sig .tc := ⟨.hbm, 168, rfl⟩
abbrev main_v104 : Ref sig .tc := ⟨.hbm, 169, rfl⟩
abbrev main_cst_19 : Ref sig .tc := ⟨.hbm, 170, rfl⟩
abbrev main_v105 : Ref sig .tc := ⟨.hbm, 171, rfl⟩
abbrev main_v106 : Ref sig .tc := ⟨.hbm, 172, rfl⟩
abbrev main_v107 : Ref sig .tc := ⟨.hbm, 173, rfl⟩
abbrev main_cst_20 : Ref sig .tc := ⟨.hbm, 174, rfl⟩
abbrev main_call4_v0 : Ref sig .tc := ⟨.hbm, 175, rfl⟩
abbrev main_call4_v1 : Ref sig .tc := ⟨.hbm, 176, rfl⟩
abbrev main_v108 : Ref sig .tc := ⟨.hbm, 177, rfl⟩
abbrev main_c_21 : Ref sig .tc := ⟨.hbm, 178, rfl⟩
abbrev main_v109 : Ref sig .tc := ⟨.hbm, 179, rfl⟩
abbrev main_v110 : Ref sig .tc := ⟨.hbm, 180, rfl⟩
abbrev main_c_22 : Ref sig .tc := ⟨.hbm, 181, rfl⟩
abbrev main_v111 : Ref sig .tc := ⟨.hbm, 182, rfl⟩
abbrev main_v112 : Ref sig .tc := ⟨.hbm, 183, rfl⟩
abbrev main_v113 : Ref sig .tc := ⟨.hbm, 184, rfl⟩
abbrev main_v114 : Ref sig .tc := ⟨.hbm, 185, rfl⟩
abbrev main_v115 : Ref sig .tc := ⟨.hbm, 186, rfl⟩
abbrev main_c_23 : Ref sig .tc := ⟨.hbm, 187, rfl⟩
abbrev main_v116 : Ref sig .tc := ⟨.hbm, 188, rfl⟩
abbrev main_v117 : Ref sig .tc := ⟨.hbm, 189, rfl⟩
abbrev main_c_24 : Ref sig .tc := ⟨.hbm, 190, rfl⟩
abbrev main_v118 : Ref sig .tc := ⟨.hbm, 191, rfl⟩
abbrev main_v119 : Ref sig .tc := ⟨.hbm, 192, rfl⟩
abbrev main_v120 : Ref sig .tc := ⟨.hbm, 193, rfl⟩
abbrev main_v121 : Ref sig .tc := ⟨.hbm, 194, rfl⟩
abbrev main_v122 : Ref sig .tc := ⟨.hbm, 195, rfl⟩
abbrev main_v123 : Ref sig .tc := ⟨.hbm, 196, rfl⟩
abbrev main_v124 : Ref sig .tc := ⟨.hbm, 197, rfl⟩
abbrev main_c_25 : Ref sig .tc := ⟨.hbm, 198, rfl⟩
abbrev main_v125 : Ref sig .tc := ⟨.hbm, 199, rfl⟩
abbrev main_v126 : Ref sig .tc := ⟨.hbm, 200, rfl⟩
abbrev main_c_26 : Ref sig .tc := ⟨.hbm, 201, rfl⟩
abbrev main_v127 : Ref sig .tc := ⟨.hbm, 202, rfl⟩
abbrev main_v128 : Ref sig .tc := ⟨.hbm, 203, rfl⟩
abbrev main_v129 : Ref sig .tc := ⟨.hbm, 204, rfl⟩
abbrev main_v130 : Ref sig .tc := ⟨.hbm, 205, rfl⟩
abbrev main_v131 : Ref sig .tc := ⟨.hbm, 206, rfl⟩
abbrev main_v132 : Ref sig .tc := ⟨.hbm, 207, rfl⟩
abbrev main_v133 : Ref sig .tc := ⟨.hbm, 208, rfl⟩
abbrev main_v134 : Ref sig .tc := ⟨.hbm, 209, rfl⟩
abbrev main_cst_27 : Ref sig .tc := ⟨.hbm, 210, rfl⟩
abbrev main_v135 : Ref sig .tc := ⟨.hbm, 211, rfl⟩
abbrev main_v136 : Ref sig .tc := ⟨.hbm, 212, rfl⟩
abbrev main_v137 : Ref sig .tc := ⟨.hbm, 213, rfl⟩
abbrev main_v138 : Ref sig .tc := ⟨.hbm, 214, rfl⟩
abbrev main_v139 : Ref sig .tc := ⟨.hbm, 215, rfl⟩
abbrev main_v140 : Ref sig .tc := ⟨.hbm, 216, rfl⟩
abbrev main_cst_28 : Ref sig .tc := ⟨.hbm, 217, rfl⟩
abbrev main_call5_cst : Ref sig .tc := ⟨.hbm, 218, rfl⟩
abbrev main_call5_v0 : Ref sig .tc := ⟨.hbm, 219, rfl⟩
abbrev main_call5_v1 : Ref sig .tc := ⟨.hbm, 220, rfl⟩
abbrev main_call5_v2 : Ref sig .tc := ⟨.hbm, 221, rfl⟩
abbrev main_call5_v3 : Ref sig .tc := ⟨.hbm, 222, rfl⟩
abbrev main_call5_v4 : Ref sig .tc := ⟨.hbm, 223, rfl⟩
abbrev main_v141 : Ref sig .tc := ⟨.hbm, 224, rfl⟩
abbrev main_v142 : Ref sig .tc := ⟨.hbm, 225, rfl⟩
abbrev main_v143 : Ref sig .tc := ⟨.hbm, 226, rfl⟩
abbrev main_v144 : Ref sig .tc := ⟨.hbm, 227, rfl⟩
abbrev main_v145 : Ref sig .tc := ⟨.hbm, 228, rfl⟩
abbrev main_v146 : Ref sig .tc := ⟨.hbm, 229, rfl⟩
abbrev main_v147 : Ref sig .tc := ⟨.hbm, 230, rfl⟩
abbrev main_v148 : Ref sig .tc := ⟨.hbm, 231, rfl⟩
abbrev main_v149 : Ref sig .tc := ⟨.hbm, 232, rfl⟩
abbrev main_v150 : Ref sig .tc := ⟨.hbm, 233, rfl⟩
abbrev main_v151 : Ref sig .tc := ⟨.hbm, 234, rfl⟩
abbrev main_v152 : Ref sig .tc := ⟨.hbm, 235, rfl⟩
abbrev main_v153 : Ref sig .tc := ⟨.hbm, 236, rfl⟩
abbrev main_v154 : Ref sig .tc := ⟨.hbm, 237, rfl⟩
abbrev main_v155 : Ref sig .tc := ⟨.hbm, 238, rfl⟩
abbrev main_v156 : Ref sig .tc := ⟨.hbm, 239, rfl⟩
abbrev main_v157 : Ref sig .tc := ⟨.hbm, 240, rfl⟩
abbrev main_v158 : Ref sig .tc := ⟨.hbm, 241, rfl⟩
abbrev main_cst_29 : Ref sig .tc := ⟨.hbm, 242, rfl⟩
abbrev main_v159 : Ref sig .tc := ⟨.hbm, 243, rfl⟩
abbrev main_v160 : Ref sig .tc := ⟨.hbm, 244, rfl⟩
abbrev main_cst_30 : Ref sig .tc := ⟨.hbm, 245, rfl⟩
abbrev main_v161 : Ref sig .tc := ⟨.hbm, 246, rfl⟩
abbrev main_v162 : Ref sig .tc := ⟨.hbm, 247, rfl⟩
abbrev main_v163 : Ref sig .tc := ⟨.hbm, 248, rfl⟩
abbrev main_v164 : Ref sig .tc := ⟨.hbm, 249, rfl⟩
abbrev main_v165 : Ref sig .tc := ⟨.hbm, 250, rfl⟩
abbrev main_cst_31 : Ref sig .tc := ⟨.hbm, 251, rfl⟩
abbrev main_v166 : Ref sig .tc := ⟨.hbm, 252, rfl⟩
abbrev main_v167 : Ref sig .tc := ⟨.hbm, 253, rfl⟩
abbrev main_cst_32 : Ref sig .tc := ⟨.hbm, 254, rfl⟩
abbrev main_v168 : Ref sig .tc := ⟨.hbm, 255, rfl⟩
abbrev main_v169 : Ref sig .tc := ⟨.hbm, 256, rfl⟩
abbrev main_v170 : Ref sig .tc := ⟨.hbm, 257, rfl⟩
abbrev main_v171 : Ref sig .tc := ⟨.hbm, 258, rfl⟩
abbrev main_v172 : Ref sig .tc := ⟨.hbm, 259, rfl⟩
abbrev main_cst_33 : Ref sig .tc := ⟨.hbm, 260, rfl⟩
abbrev main_v173 : Ref sig .tc := ⟨.hbm, 261, rfl⟩
abbrev main_v174 : Ref sig .tc := ⟨.hbm, 262, rfl⟩
abbrev main_v175 : Ref sig .tc := ⟨.hbm, 263, rfl⟩
abbrev main_v176 : Ref sig .tc := ⟨.hbm, 264, rfl⟩
abbrev main_v177 : Ref sig .tc := ⟨.hbm, 265, rfl⟩
abbrev main_v178 : Ref sig .tc := ⟨.hbm, 266, rfl⟩
abbrev main_v179 : Ref sig .tc := ⟨.hbm, 267, rfl⟩
abbrev main_c_34 : Ref sig .tc := ⟨.hbm, 268, rfl⟩
abbrev main_v180 : Ref sig .tc := ⟨.hbm, 269, rfl⟩
abbrev main_v181 : Ref sig .tc := ⟨.hbm, 270, rfl⟩
abbrev main_c_35 : Ref sig .tc := ⟨.hbm, 271, rfl⟩
abbrev main_v182 : Ref sig .tc := ⟨.hbm, 272, rfl⟩
abbrev main_v183 : Ref sig .tc := ⟨.hbm, 273, rfl⟩
abbrev main_v184 : Ref sig .tc := ⟨.hbm, 274, rfl⟩
abbrev main_v185 : Ref sig .tc := ⟨.hbm, 275, rfl⟩
abbrev main_v186 : Ref sig .tc := ⟨.hbm, 276, rfl⟩
abbrev main_v187 : Ref sig .tc := ⟨.hbm, 277, rfl⟩
abbrev main_v188 : Ref sig .tc := ⟨.hbm, 278, rfl⟩
abbrev main_c_36 : Ref sig .tc := ⟨.hbm, 279, rfl⟩
abbrev main_v189 : Ref sig .tc := ⟨.hbm, 280, rfl⟩
abbrev main_v190 : Ref sig .tc := ⟨.hbm, 281, rfl⟩
abbrev main_c_37 : Ref sig .tc := ⟨.hbm, 282, rfl⟩
abbrev main_v191 : Ref sig .tc := ⟨.hbm, 283, rfl⟩
abbrev main_v192 : Ref sig .tc := ⟨.hbm, 284, rfl⟩
abbrev main_v193 : Ref sig .tc := ⟨.hbm, 285, rfl⟩
abbrev main_v194 : Ref sig .tc := ⟨.hbm, 286, rfl⟩
abbrev main_v195 : Ref sig .tc := ⟨.hbm, 287, rfl⟩
abbrev main_v196 : Ref sig .tc := ⟨.hbm, 288, rfl⟩
abbrev main_v197 : Ref sig .tc := ⟨.hbm, 289, rfl⟩
abbrev main_v198 : Ref sig .tc := ⟨.hbm, 290, rfl⟩
abbrev main_v199 : Ref sig .tc := ⟨.hbm, 291, rfl⟩
abbrev main_v200 : Ref sig .tc := ⟨.hbm, 292, rfl⟩
abbrev main_v201 : Ref sig .tc := ⟨.hbm, 293, rfl⟩

abbrev nD : Nat := 1
abbrev τ : Topo := Topo.v7x

variable {F : FTy → Type} [FloatOps F]

class Facts₀ : Prop where
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x256_0_1 : S850000x1.BroadcastsInDim S850000x256 (![0, 1] : Fin 2 → Fin S850000x256.rank)
  bcast_S768_S1x768_1 : S768.BroadcastsInDim S1x768 (![1] : Fin 1 → Fin S1x768.rank)
  bcast_S1x768_S50000x768_0_1 : S1x768.BroadcastsInDim S50000x768 (![0, 1] : Fin 2 → Fin S50000x768.rank)
  slices_S50000x768_S50000x256_0_0 : S50000x768.Slices ![0, 0] S50000x256
  slices_S50000x768_S50000x256_0_256 : S50000x768.Slices ![0, 256] S50000x256
  slices_S50000x768_S50000x256_0_512 : S50000x768.Slices ![0, 512] S50000x256
  bcast_S850000x1_S850000x128_0_1 : S850000x1.BroadcastsInDim S850000x128 (![0, 1] : Fin 2 → Fin S850000x128.rank)
  bcast_S384_S1x384_1 : S384.BroadcastsInDim S1x384 (![1] : Fin 1 → Fin S1x384.rank)
  bcast_S1x384_S50000x384_0_1 : S1x384.BroadcastsInDim S50000x384 (![0, 1] : Fin 2 → Fin S50000x384.rank)
  slices_S50000x384_S50000x128_0_0 : S50000x384.Slices ![0, 0] S50000x128
  slices_S50000x384_S50000x128_0_128 : S50000x384.Slices ![0, 128] S50000x128
  slices_S50000x384_S50000x128_0_256 : S50000x384.Slices ![0, 256] S50000x128
  slices_S2x200000_S1x200000_0_0 : S2x200000.Slices ![0, 0] S1x200000
  shapeCasts_S1x200000_S200000 : S1x200000.ShapeCasts S200000
  bcast_S_S200000 : S_.BroadcastsInDim S200000 (![] : Fin 0 → Fin S200000.rank)
  bcast_S200000_S200000x1_0 : S200000.BroadcastsInDim S200000x1 (![0] : Fin 1 → Fin S200000x1.rank)
  slices_S2x200000_S1x200000_1_0 : S2x200000.Slices ![1, 0] S1x200000
  concatenates_S200000x128_S200000x128_S200000x16_S200000x272_d1 : Shape.Concatenates [S200000x128, S200000x128, S200000x16] S200000x272 1
  bcast_S1_S1x1_1 : S1.BroadcastsInDim S1x1 (![1] : Fin 1 → Fin S1x1.rank)
  bcast_S1x1_S200000x1_0_1 : S1x1.BroadcastsInDim S200000x1 (![0, 1] : Fin 2 → Fin S200000x1.rank)
  shapeCasts_S200000x1_S200000 : S200000x1.ShapeCasts S200000
  dot_S50000x256_S256x256_S50000x256_1_0_0_1_n_n_wf : DotDims.WF S50000x256 S256x256 S50000x256 [1] [0] [0] [1] [] []
  dot_S50000x256_S256x128_S50000x128_1_0_0_1_n_n_wf : DotDims.WF S50000x256 S256x128 S50000x128 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x256_S50000x256_1_0_0_1_n_n_wf : DotDims.WF S50000x128 S128x256 S50000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S50000x256_S256x768_S50000x768_1_0_0_1_n_n_wf : DotDims.WF S50000x256 S256x768 S50000x768 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x384_S50000x384_1_0_0_1_n_n_wf : DotDims.WF S50000x128 S128x384 S50000x384 [1] [0] [0] [1] [] []
  gather_S50000x128_S200000x1_S200000x128_1_0_n_n_0_1_1128_wf : GatherDims.WF S50000x128 S200000x1 S200000x128 [1] [0] [] [0] [] 1 ![1, 128]
  dot_S200000x272_S272x1_S200000x1_1_0_0_1_n_n_wf : DotDims.WF S200000x272 S272x1 S200000x1 [1] [0] [0] [1] [] []

variable [Facts₀]

def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S50000x256_S256x768_S50000x768_1_0_0_1_n_n : DotDims S50000x256 S256x768 S50000x768 where
  lhsContracting := [1]
  rhsContracting := [0]
  lhsNonContracting := [0]
  rhsNonContracting := [1]
  lhsBatch := []
  rhsBatch := []
  wf := dot_S50000x256_S256x768_S50000x768_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x384_S50000x384_1_0_0_1_n_n : DotDims S50000x128 S128x384 S50000x384 where
  lhsContracting := [1]
  rhsContracting := [0]
  lhsNonContracting := [0]
  rhsNonContracting := [1]
  lhsBatch := []
  rhsBatch := []
  wf := dot_S50000x128_S128x384_S50000x384_1_0_0_1_n_n_wf
def gather_S50000x128_S200000x1_S200000x128_1_0_n_n_0_1_1128 : GatherDims S50000x128 S200000x1 S200000x128 where
  offsetDims := [1]
  collapsedSliceDims := [0]
  operandBatchingDims := []
  startIndicesBatchingDims := []
  startIndexMap := [0]
  indexVectorDim := 1
  sliceSizes := ![1, 128]
  wf := gather_S50000x128_S200000x1_S200000x128_1_0_n_n_0_1_1128_wf
def dot_S200000x272_S272x1_S200000x1_1_0_0_1_n_n : DotDims S200000x272 S272x1 S200000x1 where
  lhsContracting := [1]
  rhsContracting := [0]
  lhsNonContracting := [0]
  rhsNonContracting := [1]
  lhsBatch := []
  rhsBatch := []
  wf := dot_S200000x272_S272x1_S200000x1_1_0_0_1_n_n_wf

class Facts : Prop extends Facts₀ where

variable [Facts]
-- ==== Proof.KI.Body0.lean ====
import proofs.«154662_j44117904065163_1_alg».proof.Proof.Gen.KernelIdeal.Launch
import proofs.«154662_j44117904065163_1_alg».proof.Proof.Gen.KernelIdeal.Skeleton
import proofs.«154662_j44117904065163_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

section Region0
variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

def out0_3 (x0 : Vec F S1000x256 .f32) (x1 : Vec F S256x256 .f32) (x2 : Vec F S1x256 .f32) : Vec F S1000x256 .f32 :=
  View.canon [⟨Rect.unit (s := S1000x256) ![0, 0] S1000x256.size inb_S1000x256_S1000x256_0_0, k0_pay1 (View.ld x0 (Rect.unit (s := S1000x256) ![0, 0] S1000x256.size inb_S1000x256_S1000x256_0_0)) (View.ld x1 (Rect.unit (s := S256x256) ![0, 0] S256x256.size inb_S256x256_S256x256_0_0)) (View.ld x2 (Rect.unit (s := S1x256) ![0, 0] S1x256.size inb_S1x256_S1x256_0_0))⟩]

set_option maxHeartbeats 1000000 in
theorem sound_kernel0 (c : Dev nD) (i : grid0.Coords)
    (a0 : Memref sig .tc .vmem S1000x256 .f32) (h0 : a0.IsWhole) (a1 : Memref sig .tc .vmem S256x256 .f32) (h1 : a1.IsWhole) (a2 : Memref sig .tc .vmem S1x256 .f32) (h2 : a2.IsWhole) (a3 : Memref sig .tc .vmem S1000x256 .f32) (h3 : a3.IsWhole)
    (x0 : Vec F S1000x256 .f32) (x1 : Vec F S256x256 .f32) (x2 : Vec F S1x256 .f32) (K : PUnit → sProp 𝕄) :
    iprop(owns (c : Thread nD τ) a0 fullShare x0 ∗ owns (c : Thread nD τ) a1 fullShare x1 ∗ owns (c : Thread nD τ) a2 fullShare x2 ∗ (∃ d, owns (c : Thread nD τ) a3 fullShare d)
        ∗ (iprop(owns (c : Thread nD τ) a0 fullShare x0 ∗ owns (c : Thread nD τ) a1 fullShare x1 ∗ owns (c : Thread nD τ) a2 fullShare x2 ∗ owns (c : Thread nD τ) a3 fullShare (out0_3 x0 x1 x2)) -∗ K ⟨⟩))
      ⊢ wp frame (wpE (defs₀ (F := F)) Variants.none c none) Set.univ (cc0__dense_kernel i a0 h0 a1 h1 a2 h2 a3 h3) K := by
  simp only [cc0__dense_kernel_eq_skeleton]; unfold cc0__dense_kernel_skel owns
  iintro ⟨⟨%f0, %e0, H0⟩, ⟨%f1, %e1, H1⟩, ⟨%f2, %e2, H2⟩, ⟨%d, %f3, -, H3⟩, Hk⟩
  subst e0 e1 e2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (View.cover_of_tiled _ S1000x256.size (by rfl))

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem after0_3 (c : Dev nD) (t : Fin cfg0.N) :
    (dat0 V c).after 3 t = out0_3 (iblk0 V c 0 t) (iblk0 V c 1 t) (iblk0 V c 2 t) := by dsimp only [dat0]

theorem body_obligation0 (c : Dev nD) : BodyObligation (dat0 (F := F) V c) (defs₀ (F := F)) Variants.none () Set.univ := fun t => by
  have b : ∀ w : Fin cfg0.W, w ≠ 3 → ∀ d, (dat0 V c).before w t d = (dat0 V c).after w t := by
    intro w hw
    fin_cases w <;> first
      | exact absurd rfl hw
      | exact fun d => ((dat0 V c).before_in_eq_fetched _ rfl (fun _ => rfl) (fun _ _ _ => rfl) (fun _ => rfl) t d).trans rfl
  have a : (dat0 V c).after 3 t = out0_3 ((dat0 V c).after 0 t) ((dat0 V c).after 1 t) ((dat0 V c).after 2 t) := by dsimp only [dat0]
  rw [bigSep_W0, bigSep_W0]
  simp only [b 0 (by decide), b 1 (by decide), b 2 (by decide)]
  show _ ⊢ wp _ _ _ (bodyAt0 t) _
  rw [show (dat0 V c).Φ t.succ = (dat0 V c).Φ t.castSucc from rfl, show (dat0 V c).owesAt () t.succ = (dat0 V c).owesAt () t.castSucc from rfl, a]
  iintro ⟨HΦ, Ho, ⟨%d0, H0⟩, ⟨%d1, H1⟩, ⟨%d2, H2⟩, ⟨%d3, H3⟩⟩
  iapply (sound_kernel0 c _ _ _ _ _ _ _ _ _ ((dat0 V c).after 0 t) ((dat0 V c).after 1 t) ((dat0 V c).after 2 t) _)
  iframe H0 H1 H2
  isplitl [H3]; · iexists _; iexact H3
  iintro ⟨H0, H1, H2, H3⟩
  iframe

end Region0

end Cert.KernelIdeal.Hand
-- ==== Proof.KI.Body1.lean ====
import proofs.«154662_j44117904065163_1_alg».proof.Proof.Gen.KernelIdeal.Launch
import proofs.«154662_j44117904065163_1_alg».proof.Proof.Gen.KernelIdeal.Skeleton
import proofs.«154662_j44117904065163_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

def out1_3 (x0 : Vec F S1000x256 .f32) (x1 : Vec F S256x128 .f32) (x2 : Vec F S1x128 .f32) : Vec F S1000x128 .f32 :=
  View.canon [⟨Rect.unit (s := S1000x128) ![0, 0] S1000x128.size inb_S1000x128_S1000x128_0_0, k1_pay1 (View.ld x0 (Rect.unit (s := S1000x256) ![0, 0] S1000x256.size inb_S1000x256_S1000x256_0_0)) (View.ld x1 (Rect.unit (s := S256x128) ![0, 0] S256x128.size inb_S256x128_S256x128_0_0)) (View.ld x2 (Rect.unit (s := S1x128) ![0, 0] S1x128.size inb_S1x128_S1x128_0_0))⟩]

set_option maxHeartbeats 1000000 in
theorem sound_kernel1 (c : Dev nD) (i : grid1.Coords)
    (a0 : Memref sig .tc .vmem S1000x256 .f32) (h0 : a0.IsWhole) (a1 : Memref sig .tc .vmem S256x128 .f32) (h1 : a1.IsWhole) (a2 : Memref sig .tc .vmem S1x128 .f32) (h2 : a2.IsWhole) (a3 : Memref sig .tc .vmem S1000x128 .f32) (h3 : a3.IsWhole)
    (x0 : Vec F S1000x256 .f32) (x1 : Vec F S256x128 .f32) (x2 : Vec F S1x128 .f32) (K : PUnit → sProp 𝕄) :
    iprop(owns (c : Thread nD τ) a0 fullShare x0 ∗ owns (c : Thread nD τ) a1 fullShare x1 ∗ owns (c : Thread nD τ) a2 fullShare x2 ∗ (∃ d, owns (c : Thread nD τ) a3 fullShare d)
        ∗ (iprop(owns (c : Thread nD τ) a0 fullShare x0 ∗ owns (c : Thread nD τ) a1 fullShare x1 ∗ owns (c : Thread nD τ) a2 fullShare x2 ∗ owns (c : Thread nD τ) a3 fullShare (out1_3 x0 x1 x2)) -∗ K ⟨⟩))
      ⊢ wp frame (wpE (defs₀ (F := F)) Variants.none c none) Set.univ (cc1__dense_kernel i a0 h0 a1 h1 a2 h2 a3 h3) K := by
  simp only [cc1__dense_kernel_eq_skeleton]; unfold cc1__dense_kernel_skel owns
  iintro ⟨⟨%f0, %e0, H0⟩, ⟨%f1, %e1, H1⟩, ⟨%f2, %e2, H2⟩, ⟨%d, %f3, -, H3⟩, Hk⟩
  subst e0 e1 e2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (View.cover_of_tiled _ S1000x128.size (by rfl))

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem after1_3 (c : Dev nD) (t : Fin cfg1.N) :
    (dat1 V c).after 3 t = out1_3 (iblk1 V c 0 t) (iblk1 V c 1 t) (iblk1 V c 2 t) := by dsimp only [dat1]

theorem body_obligation1 (c : Dev nD) : BodyObligation (dat1 (F := F) V c) (defs₀ (F := F)) Variants.none () Set.univ := fun t => by
  have b : ∀ w : Fin cfg1.W, w ≠ 3 → ∀ d, (dat1 V c).before w t d = (dat1 V c).after w t := by
    intro w hw
    fin_cases w <;> first
      | exact absurd rfl hw
      | exact fun d => ((dat1 V c).before_in_eq_fetched _ rfl (fun _ => rfl) (fun _ _ _ => rfl) (fun _ => rfl) t d).trans rfl
  have a : (dat1 V c).after 3 t = out1_3 ((dat1 V c).after 0 t) ((dat1 V c).after 1 t) ((dat1 V c).after 2 t) := by dsimp only [dat1]
  rw [bigSep_W1, bigSep_W1]
  simp only [b 0 (by decide), b 1 (by decide), b 2 (by decide)]
  show _ ⊢ wp _ _ _ (bodyAt1 t) _
  rw [show (dat1 V c).Φ t.succ = (dat1 V c).Φ t.castSucc from rfl, show (dat1 V c).owesAt () t.succ = (dat1 V c).owesAt () t.castSucc from rfl, a]
  iintro ⟨HΦ, Ho, ⟨%d0, H0⟩, ⟨%d1, H1⟩, ⟨%d2, H2⟩, ⟨%d3, H3⟩⟩
  iapply (sound_kernel1 c _ _ _ _ _ _ _ _ _ ((dat1 V c).after 0 t) ((dat1 V c).after 1 t) ((dat1 V c).after 2 t) _)
  iframe H0 H1 H2
  isplitl [H3]; · iexists _; iexact H3
  iintro ⟨H0, H1, H2, H3⟩
  iframe

end Region1

end Cert.KernelIdeal.Hand
-- ==== Proof.KI.Body2.lean ====
import proofs.«154662_j44117904065163_1_alg».proof.Proof.Gen.KernelIdeal.Launch
import proofs.«154662_j44117904065163_1_alg».proof.Proof.Gen.KernelIdeal.Skeleton
import proofs.«154662_j44117904065163_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

section Region2
variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

def out2_3 (x0 : Vec F S1000x128 .f32) (x1 : Vec F S128x256 .f32) (x2 : Vec F S1x256 .f32) : Vec F S1000x256 .f32 :=
  View.canon [⟨Rect.unit (s := S1000x256) ![0, 0] S1000x256.size inb_S1000x256_S1000x256_0_0, k2_pay1 (View.ld x0 (Rect.unit (s := S1000x128) ![0, 0] S1000x128.size inb_S1000x128_S1000x128_0_0)) (View.ld x1 (Rect.unit (s := S128x256) ![0, 0] S128x256.size inb_S128x256_S128x256_0_0)) (View.ld x2 (Rect.unit (s := S1x256) ![0, 0] S1x256.size inb_S1x256_S1x256_0_0))⟩]

set_option maxHeartbeats 1000000 in
theorem sound_kernel2 (c : Dev nD) (i : grid2.Coords)
    (a0 : Memref sig .tc .vmem S1000x128 .f32) (h0 : a0.IsWhole) (a1 : Memref sig .tc .vmem S128x256 .f32) (h1 : a1.IsWhole) (a2 : Memref sig .tc .vmem S1x256 .f32) (h2 : a2.IsWhole) (a3 : Memref sig .tc .vmem S1000x256 .f32) (h3 : a3.IsWhole)
    (x0 : Vec F S1000x128 .f32) (x1 : Vec F S128x256 .f32) (x2 : Vec F S1x256 .f32) (K : PUnit → sProp 𝕄) :
    iprop(owns (c : Thread nD τ) a0 fullShare x0 ∗ owns (c : Thread nD τ) a1 fullShare x1 ∗ owns (c : Thread nD τ) a2 fullShare x2 ∗ (∃ d, owns (c : Thread nD τ) a3 fullShare d)
        ∗ (iprop(owns (c : Thread nD τ) a0 fullShare x0 ∗ owns (c : Thread nD τ) a1 fullShare x1 ∗ owns (c : Thread nD τ) a2 fullShare x2 ∗ owns (c : Thread nD τ) a3 fullShare (out2_3 x0 x1 x2)) -∗ K ⟨⟩))
      ⊢ wp frame (wpE (defs₀ (F := F)) Variants.none c none) Set.univ (cc2__dense_kernel i a0 h0 a1 h1 a2 h2 a3 h3) K := by
  simp only [cc2__dense_kernel_eq_skeleton]; unfold cc2__dense_kernel_skel owns
  iintro ⟨⟨%f0, %e0, H0⟩, ⟨%f1, %e1, H1⟩, ⟨%f2, %e2, H2⟩, ⟨%d, %f3, -, H3⟩, Hk⟩
  subst e0 e1 e2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (View.cover_of_tiled _ S1000x256.size (by rfl))

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem after2_3 (c : Dev nD) (t : Fin cfg2.N) :
    (dat2 V c).after 3 t = out2_3 (iblk2 V c 0 t) (iblk2 V c 1 t) (iblk2 V c 2 t) := by dsimp only [dat2]

theorem body_obligation2 (c : Dev nD) : BodyObligation (dat2 (F := F) V c) (defs₀ (F := F)) Variants.none () Set.univ := fun t => by
  have b : ∀ w : Fin cfg2.W, w ≠ 3 → ∀ d, (dat2 V c).before w t d = (dat2 V c).after w t := by
    intro w hw
    fin_cases w <;> first
      | exact absurd rfl hw
      | exact fun d => ((dat2 V c).before_in_eq_fetched _ rfl (fun _ => rfl) (fun _ _ _ => rfl) (fun _ => rfl) t d).trans rfl
  have a : (dat2 V c).after 3 t = out2_3 ((dat2 V c).after 0 t) ((dat2 V c).after 1 t) ((dat2 V c).after 2 t) := by dsimp only [dat2]
  rw [bigSep_W2, bigSep_W2]
  simp only [b 0 (by decide), b 1 (by decide), b 2 (by decide)]
  show _ ⊢ wp _ _ _ (bodyAt2 t) _
  rw [show (dat2 V c).Φ t.succ = (dat2 V c).Φ t.castSucc from rfl, show (dat2 V c).owesAt () t.succ = (dat2 V c).owesAt () t.castSucc from rfl, a]
  iintro ⟨HΦ, Ho, ⟨%d0, H0⟩, ⟨%d1, H1⟩, ⟨%d2, H2⟩, ⟨%d3, H3⟩⟩
  iapply (sound_kernel2 c _ _ _ _ _ _ _ _ _ ((dat2 V c).after 0 t) ((dat2 V c).after 1 t) ((dat2 V c).after 2 t) _)
  iframe H0 H1 H2
  isplitl [H3]; · iexists _; iexact H3
  iintro ⟨H0, H1, H2, H3⟩
  iframe

end Region2

end Cert.KernelIdeal.Hand
-- ==== Proof.KI.Body3.lean ====
import proofs.«154662_j44117904065163_1_alg».proof.Proof.Gen.KernelIdeal.Launch
import proofs.«154662_j44117904065163_1_alg».proof.Proof.Gen.KernelIdeal.Skeleton
import proofs.«154662_j44117904065163_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

section Region3
variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

def out3_6 (x0 : Vec F S1000x256 .f32) (x1 : Vec F S1000x256 .f32) (x2 : Vec F S256x768 .f32) (x3 : Vec F S256x768 .f32) (x4 : Vec F S1x768 .f32) (x5 : Vec F S1x768 .f32) : Vec F S1000x256 .f32 :=
  View.canon [⟨Rect.unit (s := S1000x256) ![0, 0] S1000x256.size inb_S1000x256_S1000x256_0_0, k3_pay1 (View.ld x0 (Rect.unit (s := S1000x256) ![0, 0] S1000x256.size inb_S1000x256_S1000x256_0_0)) (View.ld x1 (Rect.unit (s := S1000x256) ![0, 0] S1000x256.size inb_S1000x256_S1000x256_0_0)) (View.ld x2 (Rect.unit (s := S256x768) ![0, 0] S256x768.size inb_S256x768_S256x768_0_0)) (View.ld x3 (Rect.unit (s := S256x768) ![0, 0] S256x768.size inb_S256x768_S256x768_0_0)) (View.ld x4 (Rect.unit (s := S1x768) ![0, 0] S1x768.size inb_S1x768_S1x768_0_0)) (View.ld x5 (Rect.unit (s := S1x768) ![0, 0] S1x768.size inb_S1x768_S1x768_0_0))⟩]

set_option maxHeartbeats 1000000 in
theorem sound_kernel3 (c : Dev nD) (i : grid3.Coords)
    (a0 : Memref sig .tc .vmem S1000x256 .f32) (h0 : a0.IsWhole) (a1 : Memref sig .tc .vmem S1000x256 .f32) (h1 : a1.IsWhole) (a2 : Memref sig .tc .vmem S256x768 .f32) (h2 : a2.IsWhole) (a3 : Memref sig .tc .vmem S256x768 .f32) (h3 : a3.IsWhole) (a4 : Memref sig .tc .vmem S1x768 .f32) (h4 : a4.IsWhole) (a5 : Memref sig .tc .vmem S1x768 .f32) (h5 : a5.IsWhole) (a6 : Memref sig .tc .vmem S1000x256 .f32) (h6 : a6.IsWhole)
    (x0 : Vec F S1000x256 .f32) (x1 : Vec F S1000x256 .f32) (x2 : Vec F S256x768 .f32) (x3 : Vec F S256x768 .f32) (x4 : Vec F S1x768 .f32) (x5 : Vec F S1x768 .f32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ (∃ d, owns (c : Thread nD τ) a6 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare (out3_6 x0 x1 x2 x3 x4 x5)) -∗ K ⟨⟩))
      ⊢ wp frame (wpE (defs₀ (F := F)) Variants.none c none) Set.univ (cc3__gru_kernel i a0 h0 a1 h1 a2 h2 a3 h3 a4 h4 a5 h5 a6 h6) K := by
  simp only [cc3__gru_kernel_eq_skeleton]; unfold cc3__gru_kernel_skel owns
  iintro ⟨⟨%f0, %e0, H0⟩, ⟨%f1, %e1, H1⟩, ⟨%f2, %e2, H2⟩, ⟨%f3, %e3, H3⟩, ⟨%f4, %e4, H4⟩, ⟨%f5, %e5, H5⟩, ⟨%d, %f6, -, H6⟩, Hk⟩
  subst e0 e1 e2 e3 e4 e5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (View.cover_of_tiled _ S1000x256.size (by rfl))

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => out3_6 (iblk3 V c 0 t) (iblk3 V c 1 t) (iblk3 V c 2 t) (iblk3 V c 3 t) (iblk3 V c 4 t) (iblk3 V c 5 t)
  Φ _ := Pipeline.ΦA spec3 c
  q _ := fullShare
  owed _ := 0

theorem after3_6 (c : Dev nD) (t : Fin cfg3.N) :
    (dat3 V c).after 6 t = out3_6 (iblk3 V c 0 t) (iblk3 V c 1 t) (iblk3 V c 2 t) (iblk3 V c 3 t) (iblk3 V c 4 t) (iblk3 V c 5 t) := by dsimp only [dat3]

theorem body_obligation3 (c : Dev nD) : BodyObligation (dat3 (F := F) V c) (defs₀ (F := F)) Variants.none () Set.univ := fun t => by
  have b : ∀ w : Fin cfg3.W, w ≠ 6 → ∀ d, (dat3 V c).before w t d = (dat3 V c).after w t := by
    intro w hw
    fin_cases w <;> first
      | exact absurd rfl hw
      | exact fun d => ((dat3 V c).before_in_eq_fetched _ rfl (fun _ => rfl) (fun _ _ _ => rfl) (fun _ => rfl) t d).trans rfl
  have a : (dat3 V c).after 6 t = out3_6 ((dat3 V c).after 0 t) ((dat3 V c).after 1 t) ((dat3 V c).after 2 t) ((dat3 V c).after 3 t) ((dat3 V c).after 4 t) ((dat3 V c).after 5 t) := by dsimp only [dat3]
  rw [bigSep_W3, bigSep_W3]
  simp only [b 0 (by decide), b 1 (by decide), b 2 (by decide), b 3 (by decide), b 4 (by decide), b 5 (by decide)]
  show _ ⊢ wp _ _ _ (bodyAt3 t) _
  rw [show (dat3 V c).Φ t.succ = (dat3 V c).Φ t.castSucc from rfl, show (dat3 V c).owesAt () t.succ = (dat3 V c).owesAt () t.castSucc from rfl, a]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel3 c _ _ _ _ _ _ _ _ _ _ _ _ _ _ _ ((dat3 V c).after 0 t) ((dat3 V c).after 1 t) ((dat3 V c).after 2 t) ((dat3 V c).after 3 t) ((dat3 V c).after 4 t) ((dat3 V c).after 5 t) _)
  iframe H0 H1 H2 H3 H4 H5
  isplitl [H6]; · iexists _; iexact H6
  iintro ⟨H0, H1, H2, H3, H4, H5, H6⟩
  iframe

end Region3

end Cert.KernelIdeal.Hand
-- ==== Proof.KI.Body4.lean ====
import proofs.«154662_j44117904065163_1_alg».proof.Proof.Gen.KernelIdeal.Launch
import proofs.«154662_j44117904065163_1_alg».proof.Proof.Gen.KernelIdeal.Skeleton
import proofs.«154662_j44117904065163_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

section Region4
variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

def out4_3 (x0 : Vec F S1000x256 .f32) (x1 : Vec F S256x128 .f32) (x2 : Vec F S1x128 .f32) : Vec F S1000x128 .f32 :=
  View.canon [⟨Rect.unit (s := S1000x128) ![0, 0] S1000x128.size inb_S1000x128_S1000x128_0_0, k4_pay1 (View.ld x0 (Rect.unit (s := S1000x256) ![0, 0] S1000x256.size inb_S1000x256_S1000x256_0_0)) (View.ld x1 (Rect.unit (s := S256x128) ![0, 0] S256x128.size inb_S256x128_S256x128_0_0)) (View.ld x2 (Rect.unit (s := S1x128) ![0, 0] S1x128.size inb_S1x128_S1x128_0_0))⟩]

set_option maxHeartbeats 1000000 in
theorem sound_kernel4 (c : Dev nD) (i : grid4.Coords)
    (a0 : Memref sig .tc .vmem S1000x256 .f32) (h0 : a0.IsWhole) (a1 : Memref sig .tc .vmem S256x128 .f32) (h1 : a1.IsWhole) (a2 : Memref sig .tc .vmem S1x128 .f32) (h2 : a2.IsWhole) (a3 : Memref sig .tc .vmem S1000x128 .f32) (h3 : a3.IsWhole)
    (x0 : Vec F S1000x256 .f32) (x1 : Vec F S256x128 .f32) (x2 : Vec F S1x128 .f32) (K : PUnit → sProp 𝕄) :
    iprop(owns (c : Thread nD τ) a0 fullShare x0 ∗ owns (c : Thread nD τ) a1 fullShare x1 ∗ owns (c : Thread nD τ) a2 fullShare x2 ∗ (∃ d, owns (c : Thread nD τ) a3 fullShare d)
        ∗ (iprop(owns (c : Thread nD τ) a0 fullShare x0 ∗ owns (c : Thread nD τ) a1 fullShare x1 ∗ owns (c : Thread nD τ) a2 fullShare x2 ∗ owns (c : Thread nD τ) a3 fullShare (out4_3 x0 x1 x2)) -∗ K ⟨⟩))
      ⊢ wp frame (wpE (defs₀ (F := F)) Variants.none c none) Set.univ (cc4__dense_kernel i a0 h0 a1 h1 a2 h2 a3 h3) K := by
  simp only [cc4__dense_kernel_eq_skeleton]; unfold cc4__dense_kernel_skel owns
  iintro ⟨⟨%f0, %e0, H0⟩, ⟨%f1, %e1, H1⟩, ⟨%f2, %e2, H2⟩, ⟨%d, %f3, -, H3⟩, Hk⟩
  subst e0 e1 e2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (View.cover_of_tiled _ S1000x128.size (by rfl))

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => out4_3 (iblk4 V c 0 t) (iblk4 V c 1 t) (iblk4 V c 2 t)
  Φ _ := Pipeline.ΦA spec4 c
  q _ := fullShare
  owed _ := 0

theorem after4_3 (c : Dev nD) (t : Fin cfg4.N) :
    (dat4 V c).after 3 t = out4_3 (iblk4 V c 0 t) (iblk4 V c 1 t) (iblk4 V c 2 t) := by dsimp only [dat4]

theorem body_obligation4 (c : Dev nD) : BodyObligation (dat4 (F := F) V c) (defs₀ (F := F)) Variants.none () Set.univ := fun t => by
  have b : ∀ w : Fin cfg4.W, w ≠ 3 → ∀ d, (dat4 V c).before w t d = (dat4 V c).after w t := by
    intro w hw
    fin_cases w <;> first
      | exact absurd rfl hw
      | exact fun d => ((dat4 V c).before_in_eq_fetched _ rfl (fun _ => rfl) (fun _ _ _ => rfl) (fun _ => rfl) t d).trans rfl
  have a : (dat4 V c).after 3 t = out4_3 ((dat4 V c).after 0 t) ((dat4 V c).after 1 t) ((dat4 V c).after 2 t) := by dsimp only [dat4]
  rw [bigSep_W4, bigSep_W4]
  simp only [b 0 (by decide), b 1 (by decide), b 2 (by decide)]
  show _ ⊢ wp _ _ _ (bodyAt4 t) _
  rw [show (dat4 V c).Φ t.succ = (dat4 V c).Φ t.castSucc from rfl, show (dat4 V c).owesAt () t.succ = (dat4 V c).owesAt () t.castSucc from rfl, a]
  iintro ⟨HΦ, Ho, ⟨%d0, H0⟩, ⟨%d1, H1⟩, ⟨%d2, H2⟩, ⟨%d3, H3⟩⟩
  iapply (sound_kernel4 c _ _ _ _ _ _ _ _ _ ((dat4 V c).after 0 t) ((dat4 V c).after 1 t) ((dat4 V c).after 2 t) _)
  iframe H0 H1 H2
  isplitl [H3]; · iexists _; iexact H3
  iintro ⟨H0, H1, H2, H3⟩
  iframe

end Region4

end Cert.KernelIdeal.Hand
-- ==== Proof.KI.Body5.lean ====
import proofs.«154662_j44117904065163_1_alg».proof.Proof.Gen.KernelIdeal.Launch
import proofs.«154662_j44117904065163_1_alg».proof.Proof.Gen.KernelIdeal.Skeleton
import proofs.«154662_j44117904065163_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

section Region5
variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

def out5_6 (x0 : Vec F S2000x128 .f32) (x1 : Vec F S2000x128 .f32) (x2 : Vec F S128x384 .f32) (x3 : Vec F S128x384 .f32) (x4 : Vec F S1x384 .f32) (x5 : Vec F S1x384 .f32) : Vec F S2000x128 .f32 :=
  View.canon [⟨Rect.unit (s := S2000x128) ![0, 0] S2000x128.size inb_S2000x128_S2000x128_0_0, k5_pay1 (View.ld x0 (Rect.unit (s := S2000x128) ![0, 0] S2000x128.size inb_S2000x128_S2000x128_0_0)) (View.ld x1 (Rect.unit (s := S2000x128) ![0, 0] S2000x128.size inb_S2000x128_S2000x128_0_0)) (View.ld x2 (Rect.unit (s := S128x384) ![0, 0] S128x384.size inb_S128x384_S128x384_0_0)) (View.ld x3 (Rect.unit (s := S128x384) ![0, 0] S128x384.size inb_S128x384_S128x384_0_0)) (View.ld x4 (Rect.unit (s := S1x384) ![0, 0] S1x384.size inb_S1x384_S1x384_0_0)) (View.ld x5 (Rect.unit (s := S1x384) ![0, 0] S1x384.size inb_S1x384_S1x384_0_0))⟩]

set_option maxHeartbeats 1000000 in
theorem sound_kernel5 (c : Dev nD) (i : grid5.Coords)
    (a0 : Memref sig .tc .vmem S2000x128 .f32) (h0 : a0.IsWhole) (a1 : Memref sig .tc .vmem S2000x128 .f32) (h1 : a1.IsWhole) (a2 : Memref sig .tc .vmem S128x384 .f32) (h2 : a2.IsWhole) (a3 : Memref sig .tc .vmem S128x384 .f32) (h3 : a3.IsWhole) (a4 : Memref sig .tc .vmem S1x384 .f32) (h4 : a4.IsWhole) (a5 : Memref sig .tc .vmem S1x384 .f32) (h5 : a5.IsWhole) (a6 : Memref sig .tc .vmem S2000x128 .f32) (h6 : a6.IsWhole)
    (x0 : Vec F S2000x128 .f32) (x1 : Vec F S2000x128 .f32) (x2 : Vec F S128x384 .f32) (x3 : Vec F S128x384 .f32) (x4 : Vec F S1x384 .f32) (x5 : Vec F S1x384 .f32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ (∃ d, owns (c : Thread nD τ) a6 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare (out5_6 x0 x1 x2 x3 x4 x5)) -∗ K ⟨⟩))
      ⊢ wp frame (wpE (defs₀ (F := F)) Variants.none c none) Set.univ (cc5__gru_kernel i a0 h0 a1 h1 a2 h2 a3 h3 a4 h4 a5 h5 a6 h6) K := by
  simp only [cc5__gru_kernel_eq_skeleton]; unfold cc5__gru_kernel_skel owns
  iintro ⟨⟨%f0, %e0, H0⟩, ⟨%f1, %e1, H1⟩, ⟨%f2, %e2, H2⟩, ⟨%f3, %e3, H3⟩, ⟨%f4, %e4, H4⟩, ⟨%f5, %e5, H5⟩, ⟨%d, %f6, -, H6⟩, Hk⟩
  subst e0 e1 e2 e3 e4 e5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (View.cover_of_tiled _ S2000x128.size (by rfl))

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => out5_6 (iblk5 V c 0 t) (iblk5 V c 1 t) (iblk5 V c 2 t) (iblk5 V c 3 t) (iblk5 V c 4 t) (iblk5 V c 5 t)
  Φ _ := Pipeline.ΦA spec5 c
  q _ := fullShare
  owed _ := 0

theorem after5_6 (c : Dev nD) (t : Fin cfg5.N) :
    (dat5 V c).after 6 t = out5_6 (iblk5 V c 0 t) (iblk5 V c 1 t) (iblk5 V c 2 t) (iblk5 V c 3 t) (iblk5 V c 4 t) (iblk5 V c 5 t) := by dsimp only [dat5]

theorem body_obligation5 (c : Dev nD) : BodyObligation (dat5 (F := F) V c) (defs₀ (F := F)) Variants.none () Set.univ := fun t => by
  have b : ∀ w : Fin cfg5.W, w ≠ 6 → ∀ d, (dat5 V c).before w t d = (dat5 V c).after w t := by
    intro w hw
    fin_cases w <;> first
      | exact absurd rfl hw
      | exact fun d => ((dat5 V c).before_in_eq_fetched _ rfl (fun _ => rfl) (fun _ _ _ => rfl) (fun _ => rfl) t d).trans rfl
  have a : (dat5 V c).after 6 t = out5_6 ((dat5 V c).after 0 t) ((dat5 V c).after 1 t) ((dat5 V c).after 2 t) ((dat5 V c).after 3 t) ((dat5 V c).after 4 t) ((dat5 V c).after 5 t) := by dsimp only [dat5]
  rw [bigSep_W5, bigSep_W5]
  simp only [b 0 (by decide), b 1 (by decide), b 2 (by decide), b 3 (by decide), b 4 (by decide), b 5 (by decide)]
  show _ ⊢ wp _ _ _ (bodyAt5 t) _
  rw [show (dat5 V c).Φ t.succ = (dat5 V c).Φ t.castSucc from rfl, show (dat5 V c).owesAt () t.succ = (dat5 V c).owesAt () t.castSucc from rfl, a]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel5 c _ _ _ _ _ _ _ _ _ _ _ _ _ _ _ ((dat5 V c).after 0 t) ((dat5 V c).after 1 t) ((dat5 V c).after 2 t) ((dat5 V c).after 3 t) ((dat5 V c).after 4 t) ((dat5 V c).after 5 t) _)
  iframe H0 H1 H2 H3 H4 H5
  isplitl [H6]; · iexists _; iexact H6
  iintro ⟨H0, H1, H2, H3, H4, H5, H6⟩
  iframe

end Region5

end Cert.KernelIdeal.Hand
-- ==== Proof.KI.Body6.lean ====
import proofs.«154662_j44117904065163_1_alg».proof.Proof.Gen.KernelIdeal.Launch
import proofs.«154662_j44117904065163_1_alg».proof.Proof.Gen.KernelIdeal.Skeleton
import proofs.«154662_j44117904065163_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

section Region6
variable (V : (c : Dev nD) → (b : Ref sig .tc) → Buf (Elt F) ((c : Thread nD τ).loc b))

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

def out6_3 (x0 : Vec F S2000x272 .f32) (x1 : Vec F S272x1 .f32) (x2 : Vec F S1x1 .f32) : Vec F S2000x1 .f32 :=
  View.canon [⟨Rect.unit (s := S2000x1) ![0, 0] S2000x1.size inb_S2000x1_S2000x1_0_0, k6_pay1 (View.ld x0 (Rect.unit (s := S2000x272) ![0, 0] S2000x272.size inb_S2000x272_S2000x272_0_0)) (View.ld x1 (Rect.unit (s := S272x1) ![0, 0] S272x1.size inb_S272x1_S272x1_0_0)) (View.ld x2 (Rect.unit (s := S1x1) ![0, 0] S1x1.size inb_S1x1_S1x1_0_0))⟩]

set_option maxHeartbeats 1000000 in
theorem sound_kernel6 (c : Dev nD) (i : grid6.Coords)
    (a0 : Memref sig .tc .vmem S2000x272 .f32) (h0 : a0.IsWhole) (a1 : Memref sig .tc .vmem S272x1 .f32) (h1 : a1.IsWhole) (a2 : Memref sig .tc .vmem S1x1 .f32) (h2 : a2.IsWhole) (a3 : Memref sig .tc .vmem S2000x1 .f32) (h3 : a3.IsWhole)
    (x0 : Vec F S2000x272 .f32) (x1 : Vec F S272x1 .f32) (x2 : Vec F S1x1 .f32) (K : PUnit → sProp 𝕄) :
    iprop(owns (c : Thread nD τ) a0 fullShare x0 ∗ owns (c : Thread nD τ) a1 fullShare x1 ∗ owns (c : Thread nD τ) a2 fullShare x2 ∗ (∃ d, owns (c : Thread nD τ) a3 fullShare d)
        ∗ (iprop(owns (c : Thread nD τ) a0 fullShare x0 ∗ owns (c : Thread nD τ) a1 fullShare x1 ∗ owns (c : Thread nD τ) a2 fullShare x2 ∗ owns (c : Thread nD τ) a3 fullShare (out6_3 x0 x1 x2)) -∗ K ⟨⟩))
      ⊢ wp frame (wpE (defs₀ (F := F)) Variants.none c none) Set.univ (cc6__dense_kernel i a0 h0 a1 h1 a2 h2 a3 h3) K := by
  simp only [cc6__dense_kernel_eq_skeleton]; unfold cc6__dense_kernel_skel owns
  iintro ⟨⟨%f0, %e0, H0⟩, ⟨%f1, %e1, H1⟩, ⟨%f2, %e2, H2⟩, ⟨%d, %f3, -, H3⟩, Hk⟩
  subst e0 e1 e2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (View.cover_of_tiled _ S2000x1.size (by rfl))

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => out6_3 (iblk6 V c 0 t) (iblk6 V c 1 t) (iblk6 V c 2 t)
  Φ _ := Pipeline.ΦA spec6 c
  q _ := fullShare
  owed _ := 0

theorem after6_3 (c : Dev nD) (t : Fin cfg6.N) :
    (dat6 V c).after 3 t = out6_3 (iblk6 V c 0 t) (iblk6 V c 1 t) (iblk6 V c 2 t) := by dsimp only [dat6]

theorem body_obligation6 (c : Dev nD) : BodyObligation (dat6 (F := F) V c) (defs₀ (F := F)) Variants.none () Set.univ := fun t => by
  have b : ∀ w : Fin cfg6.W, w ≠ 3 → ∀ d, (dat6 V c).before w t d = (dat6 V c).after w t := by
    intro w hw
    fin_cases w <;> first
      | exact absurd rfl hw
      | exact fun d => ((dat6 V c).before_in_eq_fetched _ rfl (fun _ => rfl) (fun _ _ _ => rfl) (fun _ => rfl) t d).trans rfl
  have a : (dat6 V c).after 3 t = out6_3 ((dat6 V c).after 0 t) ((dat6 V c).after 1 t) ((dat6 V c).after 2 t) := by dsimp only [dat6]
  rw [bigSep_W6, bigSep_W6]
  simp only [b 0 (by decide), b 1 (by decide), b 2 (by decide)]
  show _ ⊢ wp _ _ _ (bodyAt6 t) _
  rw [show (dat6 V c).Φ t.succ = (dat6 V c).Φ t.castSucc from rfl, show (dat6 V c).owesAt () t.succ = (dat6 V c).owesAt () t.castSucc from rfl, a]
  iintro ⟨HΦ, Ho, ⟨%d0, H0⟩, ⟨%d1, H1⟩, ⟨%d2, H2⟩, ⟨%d3, H3⟩⟩
  iapply (sound_kernel6 c _ _ _ _ _ _ _ _ _ ((dat6 V c).after 0 t) ((dat6 V c).after 1 t) ((dat6 V c).after 2 t) _)
  iframe H0 H1 H2
  isplitl [H3]; · iexists _; iexact H3
  iintro ⟨H0, H1, H2, H3⟩
  iframe

end Region6

end Cert.KernelIdeal.Hand
-- ==== Proof.KI.Regs.lean ====
import proofs.«154662_j44117904065163_1_alg».proof.Proof.Gen.KernelIdeal.Regions
import proofs.«154662_j44117904065163_1_alg».proof.Proof.KI.Body0
import proofs.«154662_j44117904065163_1_alg».proof.Proof.KI.Body1
import proofs.«154662_j44117904065163_1_alg».proof.Proof.KI.Body2
import proofs.«154662_j44117904065163_1_alg».proof.Proof.KI.Body3
import proofs.«154662_j44117904065163_1_alg».proof.Proof.KI.Body4
import proofs.«154662_j44117904065163_1_alg».proof.Proof.KI.Body5
import proofs.«154662_j44117904065163_1_alg».proof.Proof.KI.Body6
import Idealize.ShloMosaic.Lib.Pipeline.Frame
import Idealize.ShloMosaic.Lib.Pipeline.Regions
import Idealize.ShloMosaic.Lib.Pipeline.RegionsLoop
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

def pdatsG (E0 E1 E2 E3 E4 E5 E6 : Dev nD → Valuation τ sig (Elt F)) :
    (p : Fin 7) → (c : Dev nD) → Dat τ (Elt F) Unit ℕ (UR sig nD τ) ℕ (Pipeline.pin (pcfgs (F := F)) adm p) c
  | ⟨0, _⟩ => fun c => dat0 (fun c b => E0 c b) c
  | ⟨1, _⟩ => fun c => dat1 (fun c b => E1 c b) c
  | ⟨2, _⟩ => fun c => dat2 (fun c b => E2 c b) c
  | ⟨3, _⟩ => fun c => dat3 (fun c b => E3 c b) c
  | ⟨4, _⟩ => fun c => dat4 (fun c b => E4 c b) c
  | ⟨5, _⟩ => fun c => dat5 (fun c b => E5 c b) c
  | ⟨6, _⟩ => fun c => dat6 (fun c b => E6 c b) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)

section Generic

variable {cfg : Cfg sig Λ₀} {c : Dev nD} (dat : Dat τ (Elt F) Unit ℕ (UR sig nD τ) ℕ cfg c) (t : Fin (cfg.N + 1))

theorem owesAt_intro (h0 : dat.owed t = 0) (hr : dat.recorded t = Set.univ) :
    iprop(∃ W, owes (c : Thread nD τ) (0 : CellTallies nD τ sig Unit) W) ⊢ (dat.owesAt () t : sProp 𝕄) := by
  unfold Pipeline.Dat.owesAt Pipeline.owesWithin Pipeline.Dat.bound; rw [h0, hr]
  iintro ⟨%W, HO⟩; iexists W; isplitr; · ipureintro; exact fun _ _ => Or.inl trivial
  iexact HO
theorem owesAt_elim (h0 : dat.owed t = 0) :
    (dat.owesAt () t : sProp 𝕄) ⊢ iprop(∃ W, owes (c : Thread nD τ) (0 : CellTallies nD τ sig Unit) W) := by
  unfold Pipeline.Dat.owesAt Pipeline.owesWithin; rw [h0]
  iintro ⟨%W, -, HO⟩; iexists W; iexact HO

end Generic

variable {p : Fin 7} (pd : (p : Fin 7) → (c : Dev nD) → Dat τ (Elt F) Unit ℕ (UR sig nD τ) ℕ (Pipeline.pin (pcfgs (F := F)) adm p) c)
  (E Vp : Dev nD → Valuation τ sig (Elt F))

set_option backward.isDefEq.respectTransparency.types false in
-- From every array at E to every array at Vp, when Vp agrees with E off the array of o and holds the final contents there.
def regG (lf : Pipeline.LaunchFacts (nD := nD) (τ := τ) cfgs p)
    (hb : ∀ c, BodyObligation (pd p c) defs₀ 𝒱₀ () Set.univ)
    (hq : ∀ c w, (pd p c).q w = fullShare)
    (ho : ∀ c t, (pd p c).owed t = 0)
    (hr : ∀ c, (pd p c).recorded 0 = Set.univ)
    (hΦ : ∀ c t, (pd p c).Φ t = Pipeline.ΦA (Pipeline.pin (pcfgs (F := F)) adm p).spec c)
    (hA : ∀ c w, (pd p c).A w = E c (Pipeline.arrRef (cfgs p).spec w))
    (hK : IsEmpty (Fin (pcfgs (F := F) p).pre.K))
    (o : Fin (cfgs p).W)
    (hio : ∀ w, w ≠ o → ((cfgs p).win w).isOut = false)
    (hro : ∀ w, w ≠ o → Pipeline.arrRef (cfgs p).spec w ≠ Pipeline.arrRef (cfgs p).spec o)
    (hout : ∀ c, Vp c (Pipeline.arrRef (cfgs p).spec o) = (pd p c).arrAt o (cfgs p).N)
    (hne : ∀ c (b : Ref sig .tc), b ≠ Pipeline.arrRef (cfgs p).spec o → Vp c b = E c b) :
    Pipeline.RegionSeg (pcfgs (F := F)) adm pd () defs₀ 𝒱₀ L lv p where
  win := lf.win.to₀
  block_pos := lf.block_pos
  stage_whole := lf.stage_whole
  K := PEmpty
  osem k := k.elim
  ho := Pipeline.OwnSemFacts.none _
  hbody c := (hb c).loose
  hwaits := Pipeline.hwaits_of_owed_zero _ _ _ _ L lv p ho
  pre c := iprop(StableHlo.held (c : Thread nD τ) (Pipeline.ucRefs τ sig) (E c) ∗ R c)
  post c := iprop(StableHlo.held (c : Thread nD τ) (Pipeline.ucRefs τ sig) (Vp c) ∗ R c)
  X c := iprop(∃ r, prngReg c r)
  Y c := iprop(∃ r, prngReg c r)
  Z c := Pipeline.unscopedRest (Pipeline.pin (pcfgs (F := F)) adm p).spec c (fun b => E c b)
  hentry c := by
    rw [Pipeline.ownSems0_none]
    have hsplit := Pipeline.arrays_of_unscopedBufs (p := p) (pcfgs (F := F)) adm pd lf.win lf.arr_whole c
      ((pd p c).share_full (hq c)) (fun b => E c b) (hA c)
    rw [Pipeline.unscopedBufs_held] at hsplit
    haveI := hK
    iintro ⟨⟨Hub, Hp, HO⟩, -, -⟩
    ihave H := hsplit $$ Hub
    icases H with ⟨Ha, Hrest⟩
    imodintro
    isplitl [Ha]; · iexact Ha
    isplitr; · unfold Pipeline.prefHeld; rw [Finset.univ_eq_empty, BI.bigSep_empty]; iempintro
    isplitl [HO]; · iapply owesAt_intro _ _ (ho c 0) (hr c); iexact HO
    isplitl [Hp]; · iexact Hp
    iexact Hrest
  hin c := by
    rw [hΦ]; unfold Pipeline.ΦA
    iintro ⟨Hp, -, Hr⟩
    isplitl [Hr]; · iexact Hr
    iexact Hp
  hout c := by
    rw [Pipeline.ownSems0_none, hΦ]; unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm
      lf.win lf.arr_whole c pd ((pd p c).share_full (hq c)) (fun b => E c b) (fun b => Vp c b) ((pd p c).arrAt · (cfgs p).N)
      (fun w => if h : w = o then h ▸ (hout c).symm
        else ((pd p c).arrAt_in w (hio w h) _).trans ((hA c w).trans (hne c _ (hro w h)).symm))
      (fun b hb => hne c b fun h => hb (h ▸ Finset.mem_image.mpr ⟨o, Finset.mem_univ _, rfl⟩))
    rw [Pipeline.unscopedBufs_held] at hjoin
    iintro ⟨Ha, HO, HY, Hrest⟩
    imodintro
    isplitl [Ha Hrest]
    · iapply hjoin; isplitl [Ha] <;> iassumption
    isplitl [HY]; · iexact HY
    iapply owesAt_elim _ _ (ho c _); iexact HO

variable (m : (ℓ : Loc nD τ sig) → Buf (Elt F) ℓ) (outs : Outs (F := F))

abbrev pdats : (p : Fin 7) → (c : Dev nD) → Dat τ (Elt F) Unit ℕ (UR sig nD τ) ℕ (Pipeline.pin (pcfgs (F := F)) adm p) c :=
  pdatsG (V1 m) (V3 m outs) (V7 m outs) (V11 m outs) (V13 m outs) (V17 m outs) (V19 m outs)

def reg0 (hout : ∀ c : Dev nD, outs 2 main_v1 c = (dat0 (fun c b => V1 m c b) c).arrAt 3 cfg0.N) :
    Pipeline.RegionSeg (pcfgs (F := F)) adm (pdats m outs) () defs₀ 𝒱₀ L lv 0 :=
  regG (pdats m outs) (V1 m) (V2 m outs) launch0 (fun c => body_obligation0 (fun c b => V1 m c b) c)
    (fun _ _ => rfl) (fun _ _ => rfl) (fun _ => rfl) (fun _ _ => rfl) (fun _ _ => rfl) Fin.isEmpty (3 : Fin 4) (by decide) (by decide)
    (fun c => (Function.update_self _ _ _).trans (hout c)) fun c b h => V2_of m outs c b fun hm => h (List.mem_singleton.mp hm)

def reg1 (hout : ∀ c : Dev nD, outs 4 main_v3 c = (dat1 (fun c b => V3 m outs c b) c).arrAt 3 cfg1.N) :
    Pipeline.RegionSeg (pcfgs (F := F)) adm (pdats m outs) () defs₀ 𝒱₀ L lv 1 :=
  regG (pdats m outs) (V3 m outs) (V4 m outs) launch1 (fun c => body_obligation1 (fun c b => V3 m outs c b) c)
    (fun _ _ => rfl) (fun _ _ => rfl) (fun _ => rfl) (fun _ _ => rfl) (fun _ _ => rfl) Fin.isEmpty (3 : Fin 4) (by decide) (by decide)
    (fun c => (Function.update_self _ _ _).trans (hout c)) fun c b h => V4_of m outs c b fun hm => h (List.mem_singleton.mp hm)

def reg2 (hout : ∀ c : Dev nD, outs 8 main_v36 c = (dat2 (fun c b => V7 m outs c b) c).arrAt 3 cfg2.N) :
    Pipeline.RegionSeg (pcfgs (F := F)) adm (pdats m outs) () defs₀ 𝒱₀ L lv 2 :=
  regG (pdats m outs) (V7 m outs) (V8 m outs) launch2 (fun c => body_obligation2 (fun c b => V7 m outs c b) c)
    (fun _ _ => rfl) (fun _ _ => rfl) (fun _ => rfl) (fun _ _ => rfl) (fun _ _ => rfl) Fin.isEmpty (3 : Fin 4) (by decide) (by decide)
    (fun c => (Function.update_self _ _ _).trans (hout c)) fun c b h => V8_of m outs c b fun hm => h (List.mem_singleton.mp hm)

def reg3 (hout : ∀ c : Dev nD, outs 12 main_v56 c = (dat3 (fun c b => V11 m outs c b) c).arrAt 6 cfg3.N) :
    Pipeline.RegionSeg (pcfgs (F := F)) adm (pdats m outs) () defs₀ 𝒱₀ L lv 3 :=
  regG (pdats m outs) (V11 m outs) (V12 m outs) launch3 (fun c => body_obligation3 (fun c b => V11 m outs c b) c)
    (fun _ _ => rfl) (fun _ _ => rfl) (fun _ => rfl) (fun _ _ => rfl) (fun _ _ => rfl) Fin.isEmpty (6 : Fin 7) (by decide) (by decide)
    (fun c => (Function.update_self _ _ _).trans (hout c)) fun c b h => V12_of m outs c b fun hm => h (List.mem_singleton.mp hm)

def reg4 (hout : ∀ c : Dev nD, outs 14 main_v59 c = (dat4 (fun c b => V13 m outs c b) c).arrAt 3 cfg4.N) :
    Pipeline.RegionSeg (pcfgs (F := F)) adm (pdats m outs) () defs₀ 𝒱₀ L lv 4 :=
  regG (pdats m outs) (V13 m outs) (V14 m outs) launch4 (fun c => body_obligation4 (fun c b => V13 m outs c b) c)
    (fun _ _ => rfl) (fun _ _ => rfl) (fun _ => rfl) (fun _ _ => rfl) (fun _ _ => rfl) Fin.isEmpty (3 : Fin 4) (by decide) (by decide)
    (fun c => (Function.update_self _ _ _).trans (hout c)) fun c b h => V14_of m outs c b fun hm => h (List.mem_singleton.mp hm)

def reg5 (hout : ∀ c : Dev nD, outs 18 main_v79 c = (dat5 (fun c b => V17 m outs c b) c).arrAt 6 cfg5.N) :
    Pipeline.RegionSeg (pcfgs (F := F)) adm (pdats m outs) () defs₀ 𝒱₀ L lv 5 :=
  regG (pdats m outs) (V17 m outs) (V18 m outs) launch5 (fun c => body_obligation5 (fun c b => V17 m outs c b) c)
    (fun _ _ => rfl) (fun _ _ => rfl) (fun _ => rfl) (fun _ _ => rfl) (fun _ _ => rfl) Fin.isEmpty (6 : Fin 7) (by decide) (by decide)
    (fun c => (Function.update_self _ _ _).trans (hout c)) fun c b h => V18_of m outs c b fun hm => h (List.mem_singleton.mp hm)

def reg6 (hout : ∀ c : Dev nD, outs 20 main_v100 c = (dat6 (fun c b => V19 m outs c b) c).arrAt 3 cfg6.N) :
    Pipeline.RegionSeg (pcfgs (F := F)) adm (pdats m outs) () defs₀ 𝒱₀ L lv 6 :=
  regG (pdats m outs) (V19 m outs) (V20 m outs) launch6 (fun c => body_obligation6 (fun c b => V19 m outs c b) c)
    (fun _ _ => rfl) (fun _ _ => rfl) (fun _ => rfl) (fun _ _ => rfl) (fun _ _ => rfl) Fin.isEmpty (3 : Fin 4) (by decide) (by decide)
    (fun c => (Function.update_self _ _ _).trans (hout c)) fun c b h => V20_of m outs c b fun hm => h (List.mem_singleton.mp hm)

end Cert.KernelIdeal.Hand

end
-- ==== Proof.KI.Run.lean ====
import proofs.«154662_j44117904065163_1_alg».proof.Proof.KI.RunCond
import proofs.«154662_j44117904065163_1_alg».proof.Proof.KI.Regs
import Idealize.ShloMosaic.Lib.Pipeline.Frame
import Idealize.ShloMosaic.Lib.Pipeline.Regions
import Idealize.ShloMosaic.Lib.Pipeline.RegionsLoop
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

def W2 (c : Dev nD) : Valuation τ sig (Elt F) := Function.update (V1 m c) main_v1 ((dat0 (fun c b => V1 m c b) c).arrAt 3 cfg0.N)
def W3 (c : Dev nD) : Valuation τ sig (Elt F) := StableHlo.after hostOps1 (W2 m c)
def W4 (c : Dev nD) : Valuation τ sig (Elt F) := Function.update (W3 m c) main_v3 ((dat1 (fun c b => W3 m c b) c).arrAt 3 cfg1.N)
def W7 (c : Dev nD) : Valuation τ sig (Elt F) := StableHlo.after hostOps2_2 (StableHlo.after hostOps2_1 (StableHlo.after hostOps2 (W4 m c)))
def W8 (c : Dev nD) : Valuation τ sig (Elt F) := Function.update (W7 m c) main_v36 ((dat2 (fun c b => W7 m c b) c).arrAt 3 cfg2.N)
def W11 (c : Dev nD) : Valuation τ sig (Elt F) := StableHlo.after hostOps3_2 (StableHlo.after hostOps3_1 (StableHlo.after hostOps3 (W8 m c)))
def W12 (c : Dev nD) : Valuation τ sig (Elt F) := Function.update (W11 m c) main_v56 ((dat3 (fun c b => W11 m c b) c).arrAt 6 cfg3.N)
def W13 (c : Dev nD) : Valuation τ sig (Elt F) := StableHlo.after hostOps4 (W12 m c)
def W14 (c : Dev nD) : Valuation τ sig (Elt F) := Function.update (W13 m c) main_v59 ((dat4 (fun c b => W13 m c b) c).arrAt 3 cfg4.N)
def W17 (c : Dev nD) : Valuation τ sig (Elt F) := StableHlo.after hostOps5_2 (StableHlo.after hostOps5_1 (StableHlo.after hostOps5 (W14 m c)))
def W18 (c : Dev nD) : Valuation τ sig (Elt F) := Function.update (W17 m c) main_v79 ((dat5 (fun c b => W17 m c b) c).arrAt 6 cfg5.N)
def W19 (c : Dev nD) : Valuation τ sig (Elt F) := StableHlo.after hostOps6 (W18 m c)
def W20 (c : Dev nD) : Valuation τ sig (Elt F) := Function.update (W19 m c) main_v100 ((dat6 (fun c b => W19 m c b) c).arrAt 3 cfg6.N)

def outs : Outs (F := F) := fun J r c => match J with
  | 2 => W2 m c r
  | 4 => W4 m c r
  | 8 => W8 m c r
  | 12 => W12 m c r
  | 14 => W14 m c r
  | 18 => W18 m c r
  | 20 => W20 m c r
  | _ => V0 m c r

theorem outs_2 (c : Dev nD) : outs m 2 main_v1 c = (dat0 (fun c b => V1 m c b) c).arrAt 3 cfg0.N := by
  show W2 m c main_v1 = _; unfold W2; exact Function.update_self _ _ _
theorem V3_eq : V3 m (outs m) = W3 m := funext fun c => by
  unfold W3 W2 V3 V2; rw [outs_2]
theorem outs_4 (c : Dev nD) : outs m 4 main_v3 c = (dat1 (fun c b => V3 m (outs m) c b) c).arrAt 3 cfg1.N := by
  rw [V3_eq]; show W4 m c main_v3 = _; unfold W4; exact Function.update_self _ _ _
theorem V7_eq : V7 m (outs m) = W7 m := funext fun c => by
  unfold W7 W4 V7 V6 V5 V4; rw [outs_4, V3_eq]
theorem outs_8 (c : Dev nD) : outs m 8 main_v36 c = (dat2 (fun c b => V7 m (outs m) c b) c).arrAt 3 cfg2.N := by
  rw [V7_eq]; show W8 m c main_v36 = _; unfold W8; exact Function.update_self _ _ _
theorem V11_eq : V11 m (outs m) = W11 m := funext fun c => by
  unfold W11 W8 V11 V10 V9 V8; rw [outs_8, V7_eq]
theorem outs_12 (c : Dev nD) : outs m 12 main_v56 c = (dat3 (fun c b => V11 m (outs m) c b) c).arrAt 6 cfg3.N := by
  rw [V11_eq]; show W12 m c main_v56 = _; unfold W12; exact Function.update_self _ _ _
theorem V13_eq : V13 m (outs m) = W13 m := funext fun c => by
  unfold W13 W12 V13 V12; rw [outs_12, V11_eq]
theorem outs_14 (c : Dev nD) : outs m 14 main_v59 c = (dat4 (fun c b => V13 m (outs m) c b) c).arrAt 3 cfg4.N := by
  rw [V13_eq]; show W14 m c main_v59 = _; unfold W14; exact Function.update_self _ _ _
theorem V17_eq : V17 m (outs m) = W17 m := funext fun c => by
  unfold W17 W14 V17 V16 V15 V14; rw [outs_14, V13_eq]
theorem outs_18 (c : Dev nD) : outs m 18 main_v79 c = (dat5 (fun c b => V17 m (outs m) c b) c).arrAt 6 cfg5.N := by
  rw [V17_eq]; show W18 m c main_v79 = _; unfold W18; exact Function.update_self _ _ _
theorem V19_eq : V19 m (outs m) = W19 m := funext fun c => by
  unfold W19 W18 V19 V18; rw [outs_18, V17_eq]
theorem outs_20 (c : Dev nD) : outs m 20 main_v100 c = (dat6 (fun c b => V19 m (outs m) c b) c).arrAt 3 cfg6.N := by
  rw [V19_eq]; show W20 m c main_v100 = _; unfold W20; exact Function.update_self _ _ _

set_option backward.isDefEq.respectTransparency.types false in

/-- Every weakly fair execution ends with each unscoped buffer at the last valuation. -/
theorem run (ρ : Dev nD → PrngReg) :
    θ_run defs (onTc (τ := τ) (main (F := F))) ⟨m, fun _ => 0, ρ⟩ (fun r => ∀ c : Dev nD, ∀ b : Ref sig .tc,
      ¬ (Proc.devRef .tc b : DevRef τ sig).isScoped → r.2.mem ((c.tc : Thread nD τ).loc b) = V21 m (outs m) c b) :=
  run_cond m (Ix := Unit) (U := UR sig nD τ) (Lvl := ℕ) emb₁ () 𝒱₀ L lv (fun _ _ => rfl) ρ (outs m) (pdats m (outs m))
    0 (fun _ => iprop(emp)) (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (fun _ c => R c)
    (Pipeline.initEach L lv fun c => by
      iintro ⟨⟨-, HO, -, Hp, -⟩, -⟩
      imodintro
      isplitl [Hp]; · iexists _; iexact Hp
      iexists ∅; iexact HO)
    (fun c => by iintro ⟨-, HO⟩; iexact HO)
    (reg0 m (outs m) (outs_2 m)) (fun _ => .rfl) (fun _ => .rfl)
    (reg1 m (outs m) (outs_4 m)) (fun _ => .rfl) (fun _ => .rfl)
    (reg2 m (outs m) (outs_8 m)) (fun _ => .rfl) (fun _ => .rfl)
    (reg3 m (outs m) (outs_12 m)) (fun _ => .rfl) (fun _ => .rfl)
    (reg4 m (outs m) (outs_14 m)) (fun _ => .rfl) (fun _ => .rfl)
    (reg5 m (outs m) (outs_18 m)) (fun _ => .rfl) (fun _ => .rfl)
    (reg6 m (outs m) (outs_20 m)) (fun _ => .rfl) (fun _ => .rfl)

/-- No item writes an argument, so a memory at the last valuation holds every argument as launched. -/
theorem kept (c : Dev nD) (mem : (ℓ : Loc nD τ sig) → Buf (Elt F) ℓ)
    (h : ∀ b : Ref sig .tc, ¬ (Proc.devRef .tc b : DevRef τ sig).isScoped → mem ((c.tc : Thread nD τ).loc b) = V21 m (outs m) c b) :
    mem ((c.tc : Thread nD τ).loc main_arg0) = m ((c.tc : Thread nD τ).loc main_arg0)
    ∧ mem ((c.tc : Thread nD τ).loc main_arg1) = m ((c.tc : Thread nD τ).loc main_arg1)
    ∧ mem ((c.tc : Thread nD τ).loc main_arg2) = m ((c.tc : Thread nD τ).loc main_arg2)
    ∧ mem ((c.tc : Thread nD τ).loc main_arg3) = m ((c.tc : Thread nD τ).loc main_arg3)
    ∧ mem ((c.tc : Thread nD τ).loc main_arg4) = m ((c.tc : Thread nD τ).loc main_arg4)
    ∧ mem ((c.tc : Thread nD τ).loc main_arg5) = m ((c.tc : Thread nD τ).loc main_arg5)
    ∧ mem ((c.tc : Thread nD τ).loc main_arg6) = m ((c.tc : Thread nD τ).loc main_arg6)
    ∧ mem ((c.tc : Thread nD τ).loc main_arg7) = m ((c.tc : Thread nD τ).loc main_arg7)
    ∧ mem ((c.tc : Thread nD τ).loc main_arg8) = m ((c.tc : Thread nD τ).loc main_arg8)
    ∧ mem ((c.tc : Thread nD τ).loc main_arg9) = m ((c.tc : Thread nD τ).loc main_arg9)
    ∧ mem ((c.tc : Thread nD τ).loc main_arg10) = m ((c.tc : Thread nD τ).loc main_arg10)
    ∧ mem ((c.tc : Thread nD τ).loc main_arg11) = m ((c.tc : Thread nD τ).loc main_arg11)
    ∧ mem ((c.tc : Thread nD τ).loc main_arg12) = m ((c.tc : Thread nD τ).loc main_arg12)
    ∧ mem ((c.tc : Thread nD τ).loc main_arg13) = m ((c.tc : Thread nD τ).loc main_arg13)
    ∧ mem ((c.tc : Thread nD τ).loc main_arg14) = m ((c.tc : Thread nD τ).loc main_arg14)
    ∧ mem ((c.tc : Thread nD τ).loc main_arg15) = m ((c.tc : Thread nD τ).loc main_arg15)
    ∧ mem ((c.tc : Thread nD τ).loc main_arg16) = m ((c.tc : Thread nD τ).loc main_arg16)
    ∧ mem ((c.tc : Thread nD τ).loc main_arg17) = m ((c.tc : Thread nD τ).loc main_arg17)
    ∧ mem ((c.tc : Thread nD τ).loc main_arg18) = m ((c.tc : Thread nD τ).loc main_arg18)
    ∧ mem ((c.tc : Thread nD τ).loc main_arg19) = m ((c.tc : Thread nD τ).loc main_arg19)
    ∧ mem ((c.tc : Thread nD τ).loc main_arg20) = m ((c.tc : Thread nD τ).loc main_arg20)
    ∧ mem ((c.tc : Thread nD τ).loc main_arg21) = m ((c.tc : Thread nD τ).loc main_arg21)
    ∧ mem ((c.tc : Thread nD τ).loc main_arg22) = m ((c.tc : Thread nD τ).loc main_arg22)
    ∧ mem ((c.tc : Thread nD τ).loc main_arg23) = m ((c.tc : Thread nD τ).loc main_arg23) :=
  ⟨(h _ (by decide)).trans (V21_main_arg0 m _ c),
    (h _ (by decide)).trans (V21_main_arg1 m _ c),
    (h _ (by decide)).trans (V21_main_arg2 m _ c),
    (h _ (by decide)).trans (V21_main_arg3 m _ c),
    (h _ (by decide)).trans (V21_main_arg4 m _ c),
    (h _ (by decide)).trans (V21_main_arg5 m _ c),
    (h _ (by decide)).trans (V21_main_arg6 m _ c),
    (h _ (by decide)).trans (V21_main_arg7 m _ c),
    (h _ (by decide)).trans (V21_main_arg8 m _ c),
    (h _ (by decide)).trans (V21_main_arg9 m _ c),
    (h _ (by decide)).trans (V21_main_arg10 m _ c),
    (h _ (by decide)).trans (V21_main_arg11 m _ c),
    (h _ (by decide)).trans (V21_main_arg12 m _ c),
    (h _ (by decide)).trans (V21_main_arg13 m _ c),
    (h _ (by decide)).trans (V21_main_arg14 m _ c),
    (h _ (by decide)).trans (V21_main_arg15 m _ c),
    (h _ (by decide)).trans (V21_main_arg16 m _ c),
    (h _ (by decide)).trans (V21_main_arg17 m _ c),
    (h _ (by decide)).trans (V21_main_arg18 m _ c),
    (h _ (by decide)).trans (V21_main_arg19 m _ c),
    (h _ (by decide)).trans (V21_main_arg20 m _ c),
    (h _ (by decide)).trans (V21_main_arg21 m _ c),
    (h _ (by decide)).trans (V21_main_arg22 m _ c),
    (h _ (by decide)).trans (V21_main_arg23 m _ c)⟩

end Cert.KernelIdeal.Hand

end
-- ==== Proof.Stages.lean ====
import proofs.«154662_j44117904065163_1_alg».proof.ReferenceIdeal

noncomputable section

namespace Cert.Stg

open Idealize.ShloMosaic Idealize.SL.Sem
open Cert.ReferenceIdeal

variable {F : FTy → Type} [FloatOps F] [Cert.ReferenceIdeal.Facts]
open Cert.ReferenceIdeal.Facts₀ Cert.ReferenceIdeal.Facts

abbrev T (S : Shape) (e : EltTy) : Type := (⟨S, e⟩ : BufTy).Contents (Elt F)

def lrelu256 (x : T (F := F) S50000x256 .f32) : T (F := F) S50000x256 .f32 :=
  select (cmpf .oge x (broadcastInDim S50000x256 ![] bcast_S_S50000x256 (constant S_ .f32 0x00000000#32))) x
    (mulf (broadcastInDim S50000x256 ![] bcast_S_S50000x256 (constant S_ .f32 0x3C23D70A#32)) x)

def lrelu128 (x : T (F := F) S50000x128 .f32) : T (F := F) S50000x128 .f32 :=
  select (cmpf .oge x (broadcastInDim S50000x128 ![] bcast_S_S50000x128 (constant S_ .f32 0x00000000#32))) x
    (mulf (broadcastInDim S50000x128 ![] bcast_S_S50000x128 (constant S_ .f32 0x3C23D70A#32)) x)

def dense1 (x : T (F := F) S50000x256 .f32) (W : T (F := F) S256x256 .f32) (b2 : T (F := F) S1x256 .f32) : T (F := F) S50000x256 .f32 :=
  lrelu256 (addf (Host.dotGeneral dot_S50000x256_S256x256_S50000x256_1_0_0_1_n_n none x W)
    (broadcastInDim S50000x256 ![0, 1] bcast_S1x256_S50000x256_0_1 b2))

def dense2 (x : T (F := F) S50000x256 .f32) (W : T (F := F) S256x128 .f32) (b2 : T (F := F) S1x128 .f32) : T (F := F) S50000x128 .f32 :=
  lrelu128 (addf (Host.dotGeneral dot_S50000x256_S256x128_S50000x128_1_0_0_1_n_n none x W)
    (broadcastInDim S50000x128 ![0, 1] bcast_S1x128_S50000x128_0_1 b2))

def lin1 (x : T (F := F) S50000x128 .f32) (W : T (F := F) S128x256 .f32) : T (F := F) S50000x256 .f32 :=
  Host.dotGeneral dot_S50000x128_S128x256_S50000x256_1_0_0_1_n_n none x W

def lin2 (x : T (F := F) S50000x256 .f32) (W : T (F := F) S256x128 .f32) : T (F := F) S50000x128 .f32 :=
  Host.dotGeneral dot_S50000x256_S256x128_S50000x128_1_0_0_1_n_n none x W

def gru1 (x h : T (F := F) S50000x256 .f32) (Wih Whh : T (F := F) S256x768 .f32) (bih2 bhh2 : T (F := F) S1x768 .f32) : T (F := F) S50000x256 .f32 :=
  let gi := addf (Host.dotGeneral dot_S50000x256_S256x768_S50000x768_1_0_0_1_n_n none x Wih) (broadcastInDim S50000x768 ![0, 1] bcast_S1x768_S50000x768_0_1 bih2)
  let gh := addf (Host.dotGeneral dot_S50000x256_S256x768_S50000x768_1_0_0_1_n_n none h Whh) (broadcastInDim S50000x768 ![0, 1] bcast_S1x768_S50000x768_0_1 bhh2)
  let one : T (F := F) S50000x256 .f32 := broadcastInDim S50000x256 ![] bcast_S_S50000x256 (constant S_ .f32 0x3F800000#32)
  let r := Host.divf one (addf one (Host.exp (Host.negf (addf (extractStridedSlice S50000x256 ![0, 0] gi slices_S50000x768_S50000x256_0_0) (extractStridedSlice S50000x256 ![0, 0] gh slices_S50000x768_S50000x256_0_0)))))
  let z := Host.divf one (addf one (Host.exp (Host.negf (addf (extractStridedSlice S50000x256 ![0, 256] gi slices_S50000x768_S50000x256_0_256) (extractStridedSlice S50000x256 ![0, 256] gh slices_S50000x768_S50000x256_0_256)))))
  let n := Host.tanh (addf (extractStridedSlice S50000x256 ![0, 512] gi slices_S50000x768_S50000x256_0_512) (mulf r (extractStridedSlice S50000x256 ![0, 512] gh slices_S50000x768_S50000x256_0_512)))
  addf (mulf (subf one z) n) (mulf z h)

def gru2 (x h : T (F := F) S50000x128 .f32) (Wih Whh : T (F := F) S128x384 .f32) (bih2 bhh2 : T (F := F) S1x384 .f32) : T (F := F) S50000x128 .f32 :=
  let gi := addf (Host.dotGeneral dot_S50000x128_S128x384_S50000x384_1_0_0_1_n_n none x Wih) (broadcastInDim S50000x384 ![0, 1] bcast_S1x384_S50000x384_0_1 bih2)
  let gh := addf (Host.dotGeneral dot_S50000x128_S128x384_S50000x384_1_0_0_1_n_n none h Whh) (broadcastInDim S50000x384 ![0, 1] bcast_S1x384_S50000x384_0_1 bhh2)
  let one : T (F := F) S50000x128 .f32 := broadcastInDim S50000x128 ![] bcast_S_S50000x128 (constant S_ .f32 0x3F800000#32)
  let r := Host.divf one (addf one (Host.exp (Host.negf (addf (extractStridedSlice S50000x128 ![0, 0] gi slices_S50000x384_S50000x128_0_0) (extractStridedSlice S50000x128 ![0, 0] gh slices_S50000x384_S50000x128_0_0)))))
  let z := Host.divf one (addf one (Host.exp (Host.negf (addf (extractStridedSlice S50000x128 ![0, 128] gi slices_S50000x384_S50000x128_0_128) (extractStridedSlice S50000x128 ![0, 128] gh slices_S50000x384_S50000x128_0_128)))))
  let n := Host.tanh (addf (extractStridedSlice S50000x128 ![0, 256] gi slices_S50000x384_S50000x128_0_256) (mulf r (extractStridedSlice S50000x128 ![0, 256] gh slices_S50000x384_S50000x128_0_256)))
  addf (mulf (subf one z) n) (mulf z h)

def score (cat : T (F := F) S200000x272 .f32) (W : T (F := F) S272x1 .f32) (b2 : T (F := F) S1x1 .f32) : T (F := F) S200000x1 .f32 :=
  addf (Host.dotGeneral dot_S200000x272_S272x1_S200000x1_1_0_0_1_n_n none cat W)
    (broadcastInDim S200000x1 ![0, 1] bcast_S1x1_S200000x1_0_1 b2)

end Cert.Stg

end
-- ==== Proof.LibDot.lean ====
import Idealize.ShloMosaic.PureOps.Ideal
import Idealize.ShloMosaic.PureOps.Ideal.Laws
import Idealize.ShloMosaic.Lib.ValueIdx

noncomputable section

open scoped BigOperators

namespace Cert.LibDot

open Idealize.ShloMosaic Idealize.ShloMosaic.ValueIdx

section Axes

variable {R K C : Nat} (d : DotDims ⟨2, ![R, K]⟩ ⟨2, ![K, C]⟩ ⟨2, ![R, C]⟩)

theorem rank_contr_one (hl : d.lhsContracting = [1]) : d.contr.rank = 1 := by
  rw [d.rank_contr, hl]; rfl

theorem size_contr_zero (hl : d.lhsContracting = [1]) :
    d.contr.size ⟨0, by rw [rank_contr_one d hl]; exact Nat.one_pos⟩ = K := by
  have h := d.size_contr 0 (by rw [hl]; exact Nat.one_pos)
  rw [h]
  have h1 : d.lhsContracting[0]'(by rw [hl]; exact Nat.one_pos) = (1 : Fin 2) := by simp [hl]
  rw [h1]; rfl

theorem lhs_axis0 (hln : d.lhsNonContracting = [0]) (hlb : d.lhsBatch = [])
    (j : (⟨2, ![R, C]⟩ : Shape).Idx) (k : d.contr.Idx) : (d.lhsIdx j k 0 : ℕ) = (j 0 : ℕ) := by
  unfold DotDims.lhsIdx
  rw [dif_neg (by rw [hlb]; exact List.not_mem_nil), dif_pos (by rw [hln]; exact List.mem_singleton.mpr rfl)]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln])

theorem lhs_axis1 (hl : d.lhsContracting = [1]) (j : (⟨2, ![R, C]⟩ : Shape).Idx) (k : d.contr.Idx) :
    (d.lhsIdx j k 1 : ℕ) = (k ⟨0, by rw [rank_contr_one d hl]; exact Nat.one_pos⟩ : ℕ) :=
  d.lhsIdx_val_of_single hl j k

theorem rhs_axis0 (hl : d.lhsContracting = [1]) (hr : d.rhsContracting = [0]) (j : (⟨2, ![R, C]⟩ : Shape).Idx)
    (k : d.contr.Idx) : (d.rhsIdx j k 0 : ℕ) = (k ⟨0, by rw [rank_contr_one d hl]; exact Nat.one_pos⟩ : ℕ) :=
  d.rhsIdx_val_of_single hr j k

theorem rhs_axis1 (hln : d.lhsNonContracting = [0]) (hrn : d.rhsNonContracting = [1]) (hlb : d.lhsBatch = [])
    (hrb : d.rhsBatch = []) (j : (⟨2, ![R, C]⟩ : Shape).Idx) (k : d.contr.Idx) : (d.rhsIdx j k 1 : ℕ) = (j 1 : ℕ) := by
  unfold DotDims.rhsIdx
  rw [dif_neg (by rw [hrb]; exact List.not_mem_nil), dif_pos (by rw [hrn]; exact List.mem_singleton.mpr rfl)]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln, hrn])

end Axes

theorem contr_sum_plain {R K C : Nat} {φ₁ φ₂ : FTy} (d : DotDims ⟨2, ![R, K]⟩ ⟨2, ![K, C]⟩ ⟨2, ![R, C]⟩)
    (hl : d.lhsContracting = [1]) (hr : d.rhsContracting = [0]) (hln : d.lhsNonContracting = [0])
    (hrn : d.rhsNonContracting = [1]) (hlb : d.lhsBatch = []) (hrb : d.rhsBatch = [])
    (x : FVec Ideal ⟨2, ![R, K]⟩ φ₁) (w : FVec Ideal ⟨2, ![K, C]⟩ φ₂) (r : Fin R) (c : Fin C) :
    (∑ k : d.contr.Idx, x (d.lhsIdx (ix2 r c) k) * w (d.rhsIdx (ix2 r c) k)) = ∑ k : Fin K, x (ix2 r k) * w (ix2 k c) := by
  rw [← Equiv.sum_comp (contrEquiv1 d K (rank_contr_one d hl) (size_contr_zero d hl)).symm]
  refine Finset.sum_congr rfl fun k _ => ?_
  have hk := contrEquiv1_symm_val d K (rank_contr_one d hl) (size_contr_zero d hl) k
  have hx : d.lhsIdx (ix2 r c) ((contrEquiv1 d K (rank_contr_one d hl) (size_contr_zero d hl)).symm k) = ix2 r k := by
    funext a
    match a with
    | ⟨0, _⟩ => exact Fin.ext (lhs_axis0 d hln hlb _ _)
    | ⟨1, _⟩ => exact Fin.ext ((lhs_axis1 d hl _ _).trans hk)
  have hw : d.rhsIdx (ix2 r c) ((contrEquiv1 d K (rank_contr_one d hl) (size_contr_zero d hl)).symm k) = ix2 k c := by
    funext a
    match a with
    | ⟨0, _⟩ => exact Fin.ext ((rhs_axis0 d hl hr _ _).trans hk)
    | ⟨1, _⟩ => exact Fin.ext (rhs_axis1 d hln hrn hlb hrb _ _)
  rw [hx, hw]

theorem matmul_zero_at {R K C : Nat} {φ₁ φ₂ : FTy} (d : DotDims ⟨2, ![R, K]⟩ ⟨2, ![K, C]⟩ ⟨2, ![R, C]⟩)
    (hl : d.lhsContracting = [1]) (hr : d.rhsContracting = [0]) (hln : d.lhsNonContracting = [0])
    (hrn : d.rhsNonContracting = [1]) (hlb : d.lhsBatch = []) (hrb : d.rhsBatch = [])
    (prec : Option ContractPrecision) (x : FVec Ideal ⟨2, ![R, K]⟩ φ₁) (w : FVec Ideal ⟨2, ![K, C]⟩ φ₂) (r : Fin R) (c : Fin C) :
    FloatOps.matmul d prec x w (constant ⟨2, ![R, C]⟩ .f32 0x00000000#32) (ix2 r c) = ∑ k : Fin K, x (ix2 r k) * w (ix2 k c) := by
  rw [Ideal.matmul_constant_zero_apply]
  exact contr_sum_plain d hl hr hln hrn hlb hrb x w r c

theorem dotGeneral_at {R K C : Nat} {φ₁ φ₂ : FTy} (d : DotDims ⟨2, ![R, K]⟩ ⟨2, ![K, C]⟩ ⟨2, ![R, C]⟩)
    (hl : d.lhsContracting = [1]) (hr : d.rhsContracting = [0]) (hln : d.lhsNonContracting = [0])
    (hrn : d.rhsNonContracting = [1]) (hlb : d.lhsBatch = []) (hrb : d.rhsBatch = [])
    (prec : Option ContractPrecision) (sched : HostSchedule) (x : FVec Ideal ⟨2, ![R, K]⟩ φ₁) (w : FVec Ideal ⟨2, ![K, C]⟩ φ₂)
    (r : Fin R) (c : Fin C) :
    FloatOps.dotGeneral d prec sched x w (ix2 r c) = ∑ k : Fin K, x (ix2 r k) * w (ix2 k c) := by
  rw [Ideal.dotGeneral_apply]
  exact contr_sum_plain d hl hr hln hrn hlb hrb x w r c

end Cert.LibDot

end
-- ==== Proof.KI.ValLib.lean ====
import proofs.«154662_j44117904065163_1_alg».proof.Proof.LibDot
import Idealize.ShloMosaic.PureOps.Ideal
import Idealize.ShloMosaic.Lib.ValueIdx
import Idealize.ShloMosaic.Lib.ValueLayout
import Idealize.ShloMosaic.Lib.Pipeline.Value

noncomputable section

open scoped BigOperators

namespace Cert.KernelIdeal.Hand

open Idealize.ShloMosaic Idealize.ShloMosaic.ValueIdx

-- Leaky-relu of an extended real: s where s ≥ 0, else the f32 nearest 0.01 times s.
def lrelu (s : Ideal .f32) : Ideal .f32 :=
  Scalar.select (FloatOps.cmpf .oge s (Ideal.ofBits .f32 0x00000000#32)) s (Ideal.ofBits .f32 0x3C23D70A#32 * s)

-- A [1, C] row broadcast down R rows reads, at (i, q), the row's entry q.
theorem bcast_row_apply {α : Type} {R C : Nat} (h : (⟨2, ![1, C]⟩ : Shape).BroadcastsInDim (⟨2, ![R, C]⟩ : Shape) ![0, 1])
    (v : (⟨2, ![1, C]⟩ : Shape).Idx → α) (i : Fin R) (q : Fin C) :
    broadcastInDim (⟨2, ![R, C]⟩ : Shape) ![0, 1] h v (ix2 i q) = v (ix2 (0 : Fin 1) q) := by
  refine broadcastInDim_apply _ h v _ (ix2 (0 : Fin 1) q) fun a => ?_
  match a with
  | ⟨0, _⟩ => rfl
  | ⟨1, _⟩ =>
    show q.val = if C = 1 then 0 else q.val
    split
    · have := q.isLt; omega
    · rfl

theorem zero_off2 : (![0, 0] : Fin 2 → Nat) = fun _ => 0 := funext fun a => by fin_cases a <;> rfl

section Dense

variable {R K C : Nat} {φ₁ φ₂ : FTy} (d : DotDims ⟨2, ![R, K]⟩ ⟨2, ![K, C]⟩ ⟨2, ![R, C]⟩)
  (hl : d.lhsContracting = [1]) (hr : d.rhsContracting = [0]) (hln : d.lhsNonContracting = [0])
  (hrn : d.rhsNonContracting = [1]) (hlb : d.lhsBatch = []) (hrb : d.rhsBatch = [])
  (x : FVec Ideal ⟨2, ![R, K]⟩ φ₁) (w : FVec Ideal ⟨2, ![K, C]⟩ φ₂) (b : FVec Ideal ⟨2, ![1, C]⟩ .f32) (p : Fin R) (q : Fin C)

include hl hr hln hrn hlb hrb

-- x · w into a zero accumulator plus a bias row repeated down the rows, at (p, q): row p of x against column q of w, plus b(0, q).
theorem dense_apply (hb : (⟨2, ![1, C]⟩ : Shape).Broadcasts ⟨2, ![R, C]⟩) :
    addf (FloatOps.matmul d none x w (constant ⟨2, ![R, C]⟩ .f32 0x00000000#32)) (broadcastTo ⟨2, ![R, C]⟩ b hb) (ix2 p q)
      = (∑ k : Fin K, x (ix2 p k) * w (ix2 k q)) + b (ix2 (0 : Fin 1) q) :=
  congrArg₂ (· + ·) (Cert.LibDot.matmul_zero_at d hl hr hln hrn hlb hrb none x w p q) (broadcastTo_1b_ab_apply b hb p q)

-- The same entry of the reference's product plus its bias row.
theorem hostDense_apply (hb : (⟨2, ![1, C]⟩ : Shape).BroadcastsInDim (⟨2, ![R, C]⟩ : Shape) ![0, 1]) :
    addf (F := Ideal) (Host.dotGeneral (F := Ideal) d none x w) (broadcastInDim ⟨2, ![R, C]⟩ ![0, 1] hb b) (ix2 p q)
      = (∑ k : Fin K, x (ix2 p k) * w (ix2 k q)) + b (ix2 (0 : Fin 1) q) :=
  congrArg₂ (· + ·) (Cert.LibDot.dotGeneral_at d hl hr hln hrn hlb hrb none _ x w p q) (bcast_row_apply hb b p q)

end Dense

-- N blocks of tm rows, block t placed at rows t·tm …, cover an array of N·tm rows: row r lies in block r / tm at row r % tm.
theorem rows_cover {N tm R C : Nat} (hR : R = N * tm) (S : Fin N → Finset (⟨2, ![R, C]⟩ : Shape).Idx)
    (emb : Fin N → (⟨2, ![tm, C]⟩ : Shape).Idx → (⟨2, ![R, C]⟩ : Shape).Idx) (hmem : ∀ t y, emb t y ∈ S t)
    (hemb : ∀ t (p : Fin tm) (q : Fin C) (h : t.val * tm + p.val < R), emb t (ix2 p q) = ix2 ⟨t.val * tm + p.val, h⟩ q)
    (i : (⟨2, ![R, C]⟩ : Shape).Idx) : ∃ t, i ∈ S t := by
  have hi : (i 0).val < N * tm := hR ▸ (i 0).isLt
  have htm : 0 < tm := Nat.pos_of_ne_zero fun h => by rw [h] at hi; exact Nat.not_lt_zero _ hi
  obtain ⟨t, ht⟩ : ∃ t : Fin N, t.val = (i 0).val / tm := ⟨⟨_, (Nat.div_lt_iff_lt_mul htm).mpr hi⟩, rfl⟩
  obtain ⟨p, hp⟩ : ∃ p : Fin tm, p.val = (i 0).val % tm := ⟨⟨_, Nat.mod_lt _ htm⟩, rfl⟩
  have e : t.val * tm + p.val = (i 0).val := by rw [ht, hp, Nat.div_add_mod']
  have := hmem t (ix2 p (i 1))
  rw [hemb t p (i 1) (e ▸ (i 0).isLt)] at this
  exact ⟨t, (Shape.idx_ext₂ e rfl : ix2 (⟨t.val * tm + p.val, e ▸ (i 0).isLt⟩ : Fin R) (i 1) = i) ▸ this⟩

end Cert.KernelIdeal.Hand

end
-- ==== Proof.KI.Val0Idx.lean ====
import proofs.«154662_j44117904065163_1_alg».proof.Proof.Gen.KernelIdeal.Skeleton
import proofs.«154662_j44117904065163_1_alg».proof.Proof.Stages
import proofs.«154662_j44117904065163_1_alg».proof.Proof.KI.ValLib

noncomputable section

open scoped BigOperators

namespace Cert.KernelIdeal.Hand

open Idealize.ShloMosaic Idealize.ShloMosaic.ValueIdx Idealize.SL.Sem

section Kernel
open Cert.KernelIdeal Cert.KernelIdeal.Facts₀ Cert.KernelIdeal.Facts

-- Entry (p, q) of the block the body computes from a block of rows x, the weights w and the bias row b.
theorem pay0_apply (x : Vec Ideal S1000x256 .f32) (w : Vec Ideal S256x256 .f32) (b : Vec Ideal S1x256 .f32)
    (p : Fin 1000) (q : Fin 256) :
    Gen.k0_pay1 x w b (ix2 p q) = lrelu ((∑ k : Fin 256, x (ix2 p k) * w (ix2 k q)) + b (ix2 (0 : Fin 1) q)) := by
  unfold Gen.k0_pay1
  rw [shapeCast_self b]
  exact congrArg lrelu (dense_apply dot_S1000x256_S256x256_S1000x256_1_0_0_1_n_n rfl rfl rfl rfl rfl rfl _ _ b p q _)

end Kernel

section Reference
variable [Cert.ReferenceIdeal.Facts]
open Cert.ReferenceIdeal Cert.ReferenceIdeal.Facts₀ Cert.ReferenceIdeal.Facts

-- The same expression of row i of the whole arrays is entry (i, q) of the reference's stage.
theorem dense1_apply (x : FVec Ideal S50000x256 .f32) (W : FVec Ideal S256x256 .f32) (b2 : FVec Ideal S1x256 .f32)
    (i : Fin 50000) (q : Fin 256) :
    Cert.Stg.dense1 (F := Ideal) x W b2 (ix2 i q) = lrelu ((∑ k : Fin 256, x (ix2 i k) * W (ix2 k q)) + b2 (ix2 (0 : Fin 1) q)) :=
  congrArg lrelu (hostDense_apply dot_S50000x256_S256x256_S50000x256_1_0_0_1_n_n rfl rfl rfl rfl rfl rfl x W b2 i q _)

end Reference

end Cert.KernelIdeal.Hand

end
-- ==== Proof.KI.Val0.lean ====
import proofs.«154662_j44117904065163_1_alg».proof.Proof.KI.Body0
import proofs.«154662_j44117904065163_1_alg».proof.Proof.KI.Val0Idx

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

variable [Cert.ReferenceIdeal.Facts]
variable (V : (c : Dev nD) → (b : Ref sig .tc) → Buf (Elt Ideal) ((c : Thread nD τ).loc b))

theorem idx_facts0 : ∀ t : Fin cfg0.N, win0_0.index t 0 = t.val ∧ win0_0.index t 1 = 0
    ∧ win0_1.index t 0 = 0 ∧ win0_1.index t 1 = 0 ∧ win0_2.index t 0 = 0 ∧ win0_2.index t 1 = 0
    ∧ win0_3.index t 0 = t.val ∧ win0_3.index t 1 = 0 :=
  (by decide +kernel : ∀ t : Fin grid0.N, _)

theorem emb0_3 (t : Fin cfg0.N) (p : Fin 1000) (q : Fin 256) (h : t.val * 1000 + p.val < 50000) :
    (((cfg0.win 3).blk t).view.emb (ix2 p q) : S50000x256.Idx) = ix2 ⟨t.val * 1000 + p.val, h⟩ q := by
  obtain ⟨-, -, -, -, -, -, e0, e1⟩ := idx_facts0 t
  exact Shape.idx_ext₂ (by show win0_3.index t 0 * 1000 + 1 * p.val = t.val * 1000 + p.val; omega)
    (by show win0_3.index t 1 * 256 + 1 * q.val = q.val; omega)

-- Reduces what point t writes back to the body's entries: entry (p, q) of its block is G at row t·tm + p.
theorem flushed0_eq_of (c : Dev nD) (t : Fin cfg0.N) (G : S50000x256.Idx → Ideal .f32)
    (hG : ∀ (p : Fin 1000) (q : Fin 256) (h : t.val * 1000 + p.val < 50000),
      Gen.k0_pay1 (iblk0 V c 0 t) (iblk0 V c 1 t) (iblk0 V c 2 t) (ix2 p q) = G (ix2 ⟨t.val * 1000 + p.val, h⟩ q)) :
    (dat0 V c).flushed 3 t = ((cfg0.win 3).blk t).view.read (Elt Ideal) G := by
  show (cfg0.win 3).cut (grid0.coords t) ((dat0 V c).after 3 t) = _
  rw [after0_3]
  unfold out0_3
  rw [View.canon_unit_zero zero_off2]
  simp only [View.ld_unit_zero (S := S1000x256) zero_off2, View.ld_unit_zero (S := S256x256) zero_off2,
    View.ld_unit_zero (S := S1x256) zero_off2]
  funext j
  obtain ⟨p, q, rfl⟩ : ∃ (p : Fin 1000) (q : Fin 256), j = ix2 p q := ⟨j 0, j 1, eq_ix2 j⟩
  have ht : t.val < 50 := t.isLt
  have h : t.val * 1000 + p.val < 50000 := by omega
  show Gen.k0_pay1 (iblk0 V c 0 t) (iblk0 V c 1 t) (iblk0 V c 2 t) (ix2 p q) = G (((cfg0.win 3).blk t).view.emb (ix2 p q))
  rw [emb0_3 t p q h]
  exact hG p q h

-- Entry (p, q) of block t reads row t·tm + p of x only, as the reference's stage does at that row; row r lies in block r / tm.
theorem val0 (c : Dev nD) :
    (dat0 V c).arrAt 3 cfg0.N = Cert.Stg.dense1 (F := Ideal) (V c main_arg0) (V c main_arg6) (V c main_v0) :=
  (dat0 V c).arrAt_eq_of_cover 3 _ (fun t _ => flushed0_eq_of V c t _ fun p q h => by
    obtain ⟨a0, a1, b0, b1, c0, c1, -⟩ := idx_facts0 t
    refine (pay0_apply _ _ _ p q).trans (.trans ?_ (dense1_apply _ _ _ ⟨_, h⟩ q).symm)
    refine congrArg lrelu (congrArg₂ (· + ·) (Finset.sum_congr rfl fun k _ => congrArg₂ (· * ·) ?_ ?_) ?_)
    · show V c main_arg0 (((cfg0.win 0).blk t).view.emb (ix2 p k)) = _
      refine congrArg _ (Shape.idx_ext₂ ?_ ?_)
      · show win0_0.index t 0 * 1000 + 1 * p.val = t.val * 1000 + p.val; omega
      · show win0_0.index t 1 * 256 + 1 * k.val = k.val; omega
    · exact congrArg (V c main_arg6) (Shape.idx_ext₂ (win0_1.rect_emb_val_of_index_zero t 0 b0 (ix2 k q))
        (win0_1.rect_emb_val_of_index_zero t 1 b1 (ix2 k q)))
    · exact congrArg (V c main_v0) (Shape.idx_ext₂ (win0_2.rect_emb_val_of_index_zero t 0 c0 (ix2 0 q))
        (win0_2.rect_emb_val_of_index_zero t 1 c1 (ix2 0 q)))) fun i =>
    (rows_cover (N := cfg0.N) (tm := 1000) (R := 50000) (C := 256) (by rw [show cfg0.N = 50 from N_0])
      (fun t => ((cfg0.win 3).blk t).view.set) (fun t y => ((cfg0.win 3).blk t).view.emb y)
      (fun t y => ((cfg0.win 3).blk t).view.emb_mem_set y) emb0_3 i).imp
      fun t ht => ⟨flush0_3 t, ht⟩

end Cert.KernelIdeal.Hand

end
-- ==== Proof.KI.Val1Idx.lean ====
import proofs.«154662_j44117904065163_1_alg».proof.Proof.Gen.KernelIdeal.Skeleton
import proofs.«154662_j44117904065163_1_alg».proof.Proof.Stages
import proofs.«154662_j44117904065163_1_alg».proof.Proof.KI.ValLib

noncomputable section

open scoped BigOperators

namespace Cert.KernelIdeal.Hand

open Idealize.ShloMosaic Idealize.ShloMosaic.ValueIdx Idealize.SL.Sem

section Kernel
open Cert.KernelIdeal Cert.KernelIdeal.Facts₀ Cert.KernelIdeal.Facts

-- Entry (p, q) of the block the body computes from a block of rows x, the weights w and the bias row b.
theorem pay1_apply (x : Vec Ideal S1000x256 .f32) (w : Vec Ideal S256x128 .f32) (b : Vec Ideal S1x128 .f32)
    (p : Fin 1000) (q : Fin 128) :
    Gen.k1_pay1 x w b (ix2 p q) = lrelu ((∑ k : Fin 256, x (ix2 p k) * w (ix2 k q)) + b (ix2 (0 : Fin 1) q)) := by
  unfold Gen.k1_pay1
  rw [shapeCast_self x, shapeCast_self b]
  exact congrArg lrelu (dense_apply dot_S1000x256_S256x128_S1000x128_1_0_0_1_n_n rfl rfl rfl rfl rfl rfl _ _ b p q _)

end Kernel

section Reference
variable [Cert.ReferenceIdeal.Facts]
open Cert.ReferenceIdeal Cert.ReferenceIdeal.Facts₀ Cert.ReferenceIdeal.Facts

-- The same expression of row i of the whole arrays is entry (i, q) of the reference's stage.
theorem dense2_apply (x : FVec Ideal S50000x256 .f32) (W : FVec Ideal S256x128 .f32) (b2 : FVec Ideal S1x128 .f32)
    (i : Fin 50000) (q : Fin 128) :
    Cert.Stg.dense2 (F := Ideal) x W b2 (ix2 i q) = lrelu ((∑ k : Fin 256, x (ix2 i k) * W (ix2 k q)) + b2 (ix2 (0 : Fin 1) q)) :=
  congrArg lrelu (hostDense_apply dot_S50000x256_S256x128_S50000x128_1_0_0_1_n_n rfl rfl rfl rfl rfl rfl x W b2 i q _)

end Reference

end Cert.KernelIdeal.Hand

end
-- ==== Proof.KI.Val1.lean ====
import proofs.«154662_j44117904065163_1_alg».proof.Proof.KI.Body1
import proofs.«154662_j44117904065163_1_alg».proof.Proof.KI.Val1Idx

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

variable [Cert.ReferenceIdeal.Facts]
variable (V : (c : Dev nD) → (b : Ref sig .tc) → Buf (Elt Ideal) ((c : Thread nD τ).loc b))

theorem idx_facts1 : ∀ t : Fin cfg1.N, win1_0.index t 0 = t.val ∧ win1_0.index t 1 = 0
    ∧ win1_1.index t 0 = 0 ∧ win1_1.index t 1 = 0 ∧ win1_2.index t 0 = 0 ∧ win1_2.index t 1 = 0
    ∧ win1_3.index t 0 = t.val ∧ win1_3.index t 1 = 0 :=
  (by decide +kernel : ∀ t : Fin grid1.N, _)

theorem emb1_3 (t : Fin cfg1.N) (p : Fin 1000) (q : Fin 128) (h : t.val * 1000 + p.val < 50000) :
    (((cfg1.win 3).blk t).view.emb (ix2 p q) : S50000x128.Idx) = ix2 ⟨t.val * 1000 + p.val, h⟩ q := by
  obtain ⟨-, -, -, -, -, -, e0, e1⟩ := idx_facts1 t
  exact Shape.idx_ext₂ (by show win1_3.index t 0 * 1000 + 1 * p.val = t.val * 1000 + p.val; omega)
    (by show win1_3.index t 1 * 128 + 1 * q.val = q.val; omega)

-- Reduces what point t writes back to the body's entries: entry (p, q) of its block is G at row t·tm + p.
theorem flushed1_eq_of (c : Dev nD) (t : Fin cfg1.N) (G : S50000x128.Idx → Ideal .f32)
    (hG : ∀ (p : Fin 1000) (q : Fin 128) (h : t.val * 1000 + p.val < 50000),
      Gen.k1_pay1 (iblk1 V c 0 t) (iblk1 V c 1 t) (iblk1 V c 2 t) (ix2 p q) = G (ix2 ⟨t.val * 1000 + p.val, h⟩ q)) :
    (dat1 V c).flushed 3 t = ((cfg1.win 3).blk t).view.read (Elt Ideal) G := by
  show (cfg1.win 3).cut (grid1.coords t) ((dat1 V c).after 3 t) = _
  rw [after1_3]
  unfold out1_3
  rw [View.canon_unit_zero zero_off2]
  simp only [View.ld_unit_zero (S := S1000x256) zero_off2, View.ld_unit_zero (S := S256x128) zero_off2,
    View.ld_unit_zero (S := S1x128) zero_off2]
  funext j
  obtain ⟨p, q, rfl⟩ : ∃ (p : Fin 1000) (q : Fin 128), j = ix2 p q := ⟨j 0, j 1, eq_ix2 j⟩
  have ht : t.val < 50 := t.isLt
  have h : t.val * 1000 + p.val < 50000 := by omega
  show Gen.k1_pay1 (iblk1 V c 0 t) (iblk1 V c 1 t) (iblk1 V c 2 t) (ix2 p q) = G (((cfg1.win 3).blk t).view.emb (ix2 p q))
  rw [emb1_3 t p q h]
  exact hG p q h

-- Entry (p, q) of block t reads row t·tm + p of x only, as the reference's stage does at that row; row r lies in block r / tm.
theorem val1 (c : Dev nD) :
    (dat1 V c).arrAt 3 cfg1.N = Cert.Stg.dense2 (F := Ideal) (V c main_v1) (V c main_arg8) (V c main_v2) :=
  (dat1 V c).arrAt_eq_of_cover 3 _ (fun t _ => flushed1_eq_of V c t _ fun p q h => by
    obtain ⟨a0, a1, b0, b1, c0, c1, -⟩ := idx_facts1 t
    refine (pay1_apply _ _ _ p q).trans (.trans ?_ (dense2_apply _ _ _ ⟨_, h⟩ q).symm)
    refine congrArg lrelu (congrArg₂ (· + ·) (Finset.sum_congr rfl fun k _ => congrArg₂ (· * ·) ?_ ?_) ?_)
    · show V c main_v1 (((cfg1.win 0).blk t).view.emb (ix2 p k)) = _
      refine congrArg _ (Shape.idx_ext₂ ?_ ?_)
      · show win1_0.index t 0 * 1000 + 1 * p.val = t.val * 1000 + p.val; omega
      · show win1_0.index t 1 * 256 + 1 * k.val = k.val; omega
    · exact congrArg (V c main_arg8) (Shape.idx_ext₂ (win1_1.rect_emb_val_of_index_zero t 0 b0 (ix2 k q))
        (win1_1.rect_emb_val_of_index_zero t 1 b1 (ix2 k q)))
    · exact congrArg (V c main_v2) (Shape.idx_ext₂ (win1_2.rect_emb_val_of_index_zero t 0 c0 (ix2 0 q))
        (win1_2.rect_emb_val_of_index_zero t 1 c1 (ix2 0 q)))) fun i =>
    (rows_cover (N := cfg1.N) (tm := 1000) (R := 50000) (C := 128) (by rw [show cfg1.N = 50 from N_1])
      (fun t => ((cfg1.win 3).blk t).view.set) (fun t y => ((cfg1.win 3).blk t).view.emb y)
      (fun t y => ((cfg1.win 3).blk t).view.emb_mem_set y) emb1_3 i).imp
      fun t ht => ⟨flush1_3 t, ht⟩

end Cert.KernelIdeal.Hand

end
-- ==== Proof.KI.Val2Idx.lean ====
import proofs.«154662_j44117904065163_1_alg».proof.Proof.Gen.KernelIdeal.Skeleton
import proofs.«154662_j44117904065163_1_alg».proof.Proof.Stages
import proofs.«154662_j44117904065163_1_alg».proof.Proof.KI.ValLib

noncomputable section

open scoped BigOperators

namespace Cert.KernelIdeal.Hand

open Idealize.ShloMosaic Idealize.ShloMosaic.ValueIdx Idealize.SL.Sem

section Kernel
open Cert.KernelIdeal Cert.KernelIdeal.Facts₀ Cert.KernelIdeal.Facts

-- Entry (p, q) of the block the body computes from a block of rows x, the weights w and the bias row b.
theorem pay2_apply (x : Vec Ideal S1000x128 .f32) (w : Vec Ideal S128x256 .f32) (b : Vec Ideal S1x256 .f32)
    (p : Fin 1000) (q : Fin 256) :
    Gen.k2_pay1 x w b (ix2 p q) = (∑ k : Fin 128, x (ix2 p k) * w (ix2 k q)) + b (ix2 (0 : Fin 1) q) := by
  unfold Gen.k2_pay1
  rw [shapeCast_self x, shapeCast_self b]
  exact dense_apply dot_S1000x128_S128x256_S1000x256_1_0_0_1_n_n rfl rfl rfl rfl rfl rfl _ _ b p q _

end Kernel

section Reference
variable [Cert.ReferenceIdeal.Facts]
open Cert.ReferenceIdeal Cert.ReferenceIdeal.Facts₀ Cert.ReferenceIdeal.Facts

-- Entry (i, q) of the reference's product: row i of x against column q of W.
theorem lin1_apply (x : FVec Ideal S50000x128 .f32) (W : FVec Ideal S128x256 .f32) (i : Fin 50000) (q : Fin 256) :
    Cert.Stg.lin1 (F := Ideal) x W (ix2 i q) = ∑ k : Fin 128, x (ix2 i k) * W (ix2 k q) :=
  Cert.LibDot.dotGeneral_at dot_S50000x128_S128x256_S50000x256_1_0_0_1_n_n rfl rfl rfl rfl rfl rfl none _ x W i q

end Reference

end Cert.KernelIdeal.Hand

end
-- ==== Proof.KI.Val2.lean ====
import proofs.«154662_j44117904065163_1_alg».proof.Proof.KI.Body2
import proofs.«154662_j44117904065163_1_alg».proof.Proof.KI.Val2Idx

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

variable [Cert.ReferenceIdeal.Facts]
variable (V : (c : Dev nD) → (b : Ref sig .tc) → Buf (Elt Ideal) ((c : Thread nD τ).loc b))

theorem idx_facts2 : ∀ t : Fin cfg2.N, win2_0.index t 0 = t.val ∧ win2_0.index t 1 = 0
    ∧ win2_1.index t 0 = 0 ∧ win2_1.index t 1 = 0 ∧ win2_2.index t 0 = 0 ∧ win2_2.index t 1 = 0
    ∧ win2_3.index t 0 = t.val ∧ win2_3.index t 1 = 0 :=
  (by decide +kernel : ∀ t : Fin grid2.N, _)

theorem emb2_3 (t : Fin cfg2.N) (p : Fin 1000) (q : Fin 256) (h : t.val * 1000 + p.val < 50000) :
    (((cfg2.win 3).blk t).view.emb (ix2 p q) : S50000x256.Idx) = ix2 ⟨t.val * 1000 + p.val, h⟩ q := by
  obtain ⟨-, -, -, -, -, -, e0, e1⟩ := idx_facts2 t
  exact Shape.idx_ext₂ (by show win2_3.index t 0 * 1000 + 1 * p.val = t.val * 1000 + p.val; omega)
    (by show win2_3.index t 1 * 256 + 1 * q.val = q.val; omega)

-- Reduces what point t writes back to the body's entries: entry (p, q) of its block is G at row t·tm + p.
theorem flushed2_eq_of (c : Dev nD) (t : Fin cfg2.N) (G : S50000x256.Idx → Ideal .f32)
    (hG : ∀ (p : Fin 1000) (q : Fin 256) (h : t.val * 1000 + p.val < 50000),
      Gen.k2_pay1 (iblk2 V c 0 t) (iblk2 V c 1 t) (iblk2 V c 2 t) (ix2 p q) = G (ix2 ⟨t.val * 1000 + p.val, h⟩ q)) :
    (dat2 V c).flushed 3 t = ((cfg2.win 3).blk t).view.read (Elt Ideal) G := by
  show (cfg2.win 3).cut (grid2.coords t) ((dat2 V c).after 3 t) = _
  rw [after2_3]
  unfold out2_3
  rw [View.canon_unit_zero zero_off2]
  simp only [View.ld_unit_zero (S := S1000x128) zero_off2, View.ld_unit_zero (S := S128x256) zero_off2,
    View.ld_unit_zero (S := S1x256) zero_off2]
  funext j
  obtain ⟨p, q, rfl⟩ : ∃ (p : Fin 1000) (q : Fin 256), j = ix2 p q := ⟨j 0, j 1, eq_ix2 j⟩
  have ht : t.val < 50 := t.isLt
  have h : t.val * 1000 + p.val < 50000 := by omega
  show Gen.k2_pay1 (iblk2 V c 0 t) (iblk2 V c 1 t) (iblk2 V c 2 t) (ix2 p q) = G (((cfg2.win 3).blk t).view.emb (ix2 p q))
  rw [emb2_3 t p q h]
  exact hG p q h

-- Entry (p, q) of block t reads row t·tm + p of x only, as the reference's stage does at that row; row r lies in block r / tm.
theorem val2 (c : Dev nD) (hz : ∀ j : S1x256.Idx, (V c main_v35 : S1x256.Idx → Ideal .f32) j = (0 : Ideal .f32)) :
    (dat2 V c).arrAt 3 cfg2.N = Cert.Stg.lin1 (F := Ideal) (V c main_v3) (V c main_arg10) :=
  (dat2 V c).arrAt_eq_of_cover 3 _ (fun t _ => flushed2_eq_of V c t _ fun p q h => by
    obtain ⟨a0, a1, b0, b1, -⟩ := idx_facts2 t
    refine (pay2_apply _ _ _ p q).trans (.trans ?_ (lin1_apply _ _ ⟨_, h⟩ q).symm)
    refine .trans (congrArg (_ + ·) (hz _)) (.trans (add_zero _) (Finset.sum_congr rfl fun k _ => congrArg₂ (· * ·) ?_ ?_))
    · show V c main_v3 (((cfg2.win 0).blk t).view.emb (ix2 p k)) = _
      refine congrArg _ (Shape.idx_ext₂ ?_ ?_)
      · show win2_0.index t 0 * 1000 + 1 * p.val = t.val * 1000 + p.val; omega
      · show win2_0.index t 1 * 128 + 1 * k.val = k.val; omega
    · exact congrArg (V c main_arg10) (Shape.idx_ext₂ (win2_1.rect_emb_val_of_index_zero t 0 b0 (ix2 k q))
        (win2_1.rect_emb_val_of_index_zero t 1 b1 (ix2 k q)))) fun i =>
    (rows_cover (N := cfg2.N) (tm := 1000) (R := 50000) (C := 256) (by rw [show cfg2.N = 50 from N_2])
      (fun t => ((cfg2.win 3).blk t).view.set) (fun t y => ((cfg2.win 3).blk t).view.emb y)
      (fun t y => ((cfg2.win 3).blk t).view.emb_mem_set y) emb2_3 i).imp
      fun t ht => ⟨flush2_3 t, ht⟩

end Cert.KernelIdeal.Hand

end
-- ==== Proof.KI.GruCell.lean ====
import Idealize.ShloMosaic.PureOps.Ideal.Laws
import Idealize.ShloMosaic.PureOps.IdealRules
import Idealize.ShloMosaic.Lib.ValueIdx

noncomputable section

open scoped BigOperators

namespace Cert.KernelIdeal.Hand

open Idealize.ShloMosaic Idealize.ShloMosaic.ValueIdx

theorem one_word : Ideal.ofBits .f32 0x3F800000#32 = 1 := IdealRules.sign_bit.ideal_onePat .f32

theorem scalar_one_word : (Scalar.ofBits .f32 0x3F800000#32 : Ideal .f32) = 1 := one_word

theorem logistic_apply {s : Shape} (a : FVec Ideal s .f32) (i : s.Idx) : logistic a i = Ideal.logistic (a i) := rfl
theorem tanh_apply {s : Shape} (a : FVec Ideal s .f32) (i : s.Idx) : tanh a i = Ideal.tanh (a i) := rfl

theorem hostDivf_apply {s : Shape} (a b : FVec Ideal s .f32) (i : s.Idx) : Host.divf a b i = Ideal.div (a i) (b i) := rfl
theorem hostExp_apply {s : Shape} (a : FVec Ideal s .f32) (i : s.Idx) : Host.exp a i = Ideal.exp (a i) := rfl
theorem hostNegf_apply {s : Shape} (a : FVec Ideal s .f32) (i : s.Idx) : Host.negf a i = -(a i) := rfl
theorem hostTanh_apply {s : Shape} (a : FVec Ideal s .f32) (i : s.Idx) : Host.tanh a i = Ideal.tanh (a i) := rfl

theorem one_splat_apply {s t : Shape} (dims : Fin s.rank → Fin t.rank) (hb : s.BroadcastsInDim t dims) (j : t.Idx) :
    broadcastInDim t dims hb (constant (F := Ideal) s .f32 0x3F800000#32) j = 1 := one_word

theorem div_one_exp (s : EReal) : Ideal.div 1 (1 + Ideal.exp (-s)) = Ideal.logistic s := rfl

def projAt {R K C : Nat} (x : FVec Ideal ⟨2, ![R, K]⟩ .f32) (w : FVec Ideal ⟨2, ![K, C]⟩ .f32)
    (b : FVec Ideal ⟨2, ![1, C]⟩ .f32) (p : Fin R) (q : Fin C) : EReal :=
  (∑ k : Fin K, x (ix2 p k) * w (ix2 k q)) + b (ix2 (0 : Fin 1) q)

def gruCell (ir iz inn hr hz hn h : EReal) : EReal :=
  (1 - Ideal.logistic (iz + hz)) * Ideal.tanh (inn + Ideal.logistic (ir + hr) * hn) + Ideal.logistic (iz + hz) * h

end Cert.KernelIdeal.Hand

end
-- ==== Proof.KI.Val3Idx.lean ====
import proofs.«154662_j44117904065163_1_alg».proof.Proof.Gen.KernelIdeal.Skeleton
import proofs.«154662_j44117904065163_1_alg».proof.Proof.Stages
import proofs.«154662_j44117904065163_1_alg».proof.Proof.LibDot
import proofs.«154662_j44117904065163_1_alg».proof.Proof.KI.GruCell
import proofs.«154662_j44117904065163_1_alg».proof.Proof.KI.ValLib
import Idealize.ShloMosaic.PureOps.Ideal.Laws
import Idealize.ShloMosaic.PureOps.IdealRules
import Idealize.ShloMosaic.Lib.ValueIdx
import Idealize.ShloMosaic.Lib.ValueLayout
import Idealize.ShloMosaic.Lib.Pipeline.Value

noncomputable section

open scoped BigOperators

namespace Cert.KernelIdeal.Hand

open Idealize.ShloMosaic Idealize.ShloMosaic.ValueIdx Idealize.SL.Sem
open Cert.KernelIdeal Cert.KernelIdeal.Gen

def gru256At {R : Nat} (x h : FVec Ideal ⟨2, ![R, 256]⟩ .f32) (Wih Whh : FVec Ideal ⟨2, ![256, 768]⟩ .f32)
    (bih bhh : FVec Ideal ⟨2, ![1, 768]⟩ .f32) (p : Fin R) (q : Fin 256) : EReal :=
  gruCell
    (projAt x Wih bih p ⟨0 + q.val, by omega⟩) (projAt x Wih bih p ⟨256 + q.val, by omega⟩) (projAt x Wih bih p ⟨512 + q.val, by omega⟩)
    (projAt h Whh bhh p ⟨0 + q.val, by omega⟩) (projAt h Whh bhh p ⟨256 + q.val, by omega⟩) (projAt h Whh bhh p ⟨512 + q.val, by omega⟩)
    (h (ix2 p q))

theorem gru256At_congr {R R' : Nat} (x h : FVec Ideal ⟨2, ![R, 256]⟩ .f32) (x' h' : FVec Ideal ⟨2, ![R', 256]⟩ .f32)
    (Wih Whh : FVec Ideal ⟨2, ![256, 768]⟩ .f32) (bih bhh : FVec Ideal ⟨2, ![1, 768]⟩ .f32) (p : Fin R) (p' : Fin R')
    (hx : ∀ k : Fin 256, x (ix2 p k) = x' (ix2 p' k)) (hh : ∀ k : Fin 256, h (ix2 p k) = h' (ix2 p' k)) (q : Fin 256) :
    gru256At x h Wih Whh bih bhh p q = gru256At x' h' Wih Whh bih bhh p' q := by
  unfold gru256At projAt
  simp only [hx, hh]

theorem kproj3_apply (x : FVec Ideal S1000x256 .f32) (w : FVec Ideal S256x768 .f32) (b : FVec Ideal S1x768 .f32)
    (p : Fin 1000) (c : Fin 768) :
    matmul dot_S1000x256_S256x768_S1000x768_1_0_0_1_n_n none
        (truncf .bf16 x bitsLt_bf16_f32 : FVec Ideal S1000x256 .bf16) (truncf .bf16 w bitsLt_bf16_f32 : FVec Ideal S256x768 .bf16)
        (constant S1000x768 .f32 0x00000000#32) (ix2 p c)
      + broadcastTo S1000x768 b broadcasts_S1x768_S1000x768 (ix2 p c)
      = projAt x w b p c :=
  dense_apply dot_S1000x256_S256x768_S1000x768_1_0_0_1_n_n rfl rfl rfl rfl rfl rfl _ _ b p c _

set_option maxRecDepth 65536 in
theorem pay3_apply (x h : Vec Ideal S1000x256 .f32) (Wih Whh : Vec Ideal S256x768 .f32) (bih bhh : Vec Ideal S1x768 .f32)
    (p : Fin 1000) (q : Fin 256) :
    k3_pay1 (F := Ideal) x h Wih Whh bih bhh (ix2 p q) = gru256At x h Wih Whh bih bhh p q := by
  unfold k3_pay1 gru256At gruCell
  simp only [addf_apply, mulf_apply, subf_apply, broadcast_apply, logistic_apply, tanh_apply, shapeCast_self,
    slice2_axis1_eq, kproj3_apply, scalar_one_word]

section Reference
variable [Cert.ReferenceIdeal.Facts]

theorem hproj1_apply (x : FVec Ideal Cert.ReferenceIdeal.S50000x256 .f32) (w : FVec Ideal Cert.ReferenceIdeal.S256x768 .f32)
    (b : FVec Ideal Cert.ReferenceIdeal.S1x768 .f32) (p : Fin 50000) (c : Fin 768) :
    Host.dotGeneral Cert.ReferenceIdeal.dot_S50000x256_S256x768_S50000x768_1_0_0_1_n_n none x w (ix2 p c)
      + broadcastInDim Cert.ReferenceIdeal.S50000x768 ![0, 1] Cert.ReferenceIdeal.Facts₀.bcast_S1x768_S50000x768_0_1 b (ix2 p c)
      = projAt x w b p c :=
  hostDense_apply Cert.ReferenceIdeal.dot_S50000x256_S256x768_S50000x768_1_0_0_1_n_n rfl rfl rfl rfl rfl rfl x w b p c _

set_option maxRecDepth 65536 in
theorem gru1_apply (x h : FVec Ideal Cert.ReferenceIdeal.S50000x256 .f32) (Wih Whh : FVec Ideal Cert.ReferenceIdeal.S256x768 .f32)
    (bih bhh : FVec Ideal Cert.ReferenceIdeal.S1x768 .f32) (i : Fin 50000) (q : Fin 256) :
    Cert.Stg.gru1 (F := Ideal) x h Wih Whh bih bhh (ix2 i q) = gru256At x h Wih Whh bih bhh i q := by
  unfold Cert.Stg.gru1 gru256At gruCell
  simp only [addf_apply, mulf_apply, subf_apply, hostDivf_apply, hostExp_apply, hostNegf_apply, hostTanh_apply,
    slice2_axis1_eq]
  rw [one_splat_apply, hproj1_apply, hproj1_apply, hproj1_apply, hproj1_apply, hproj1_apply, hproj1_apply]
  simp only [div_one_exp]

theorem point3 (X H : FVec Ideal Cert.ReferenceIdeal.S50000x256 .f32) (Wih Whh : FVec Ideal Cert.ReferenceIdeal.S256x768 .f32)
    (bih bhh : FVec Ideal Cert.ReferenceIdeal.S1x768 .f32) (x h : Vec Ideal S1000x256 .f32) (wih whh : Vec Ideal S256x768 .f32)
    (bi bh : Vec Ideal S1x768 .f32) (p : Fin 1000) (q : Fin 256) (i : Fin 50000)
    (hx : ∀ k : Fin 256, x (ix2 p k) = X (ix2 i k)) (hh : ∀ k : Fin 256, h (ix2 p k) = H (ix2 i k))
    (hwih : wih = Wih) (hwhh : whh = Whh) (hbi : bi = bih) (hbh : bh = bhh) :
    k3_pay1 (F := Ideal) x h wih whh bi bh (ix2 p q) = Cert.Stg.gru1 (F := Ideal) X H Wih Whh bih bhh (ix2 i q) := by
  subst hwih hwhh hbi hbh
  rw [pay3_apply, gru1_apply]
  exact gru256At_congr x h X H wih whh bi bh p i hx hh q

end Reference

end Cert.KernelIdeal.Hand

end
-- ==== Proof.KI.Val3.lean ====
import proofs.«154662_j44117904065163_1_alg».proof.Proof.KI.Body3
import proofs.«154662_j44117904065163_1_alg».proof.Proof.KI.Val3Idx

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

variable [Cert.ReferenceIdeal.Facts]
variable (V : (c : Dev nD) → (b : Ref sig .tc) → Buf (Elt Ideal) ((c : Thread nD τ).loc b))

theorem idx_facts3 : ∀ t : Fin cfg3.N, win3_0.index t 0 = t.val ∧ win3_0.index t 1 = 0
    ∧ win3_1.index t 0 = t.val ∧ win3_1.index t 1 = 0 ∧ win3_2.index t 0 = 0 ∧ win3_2.index t 1 = 0
    ∧ win3_3.index t 0 = 0 ∧ win3_3.index t 1 = 0 ∧ win3_4.index t 0 = 0 ∧ win3_4.index t 1 = 0
    ∧ win3_5.index t 0 = 0 ∧ win3_5.index t 1 = 0 ∧ win3_6.index t 0 = t.val ∧ win3_6.index t 1 = 0 :=
  (by decide +kernel : ∀ t : Fin grid3.N, _)

theorem emb3_6 (t : Fin cfg3.N) (p : Fin 1000) (q : Fin 256) (h : t.val * 1000 + p.val < 50000) :
    (((cfg3.win 6).blk t).view.emb (ix2 p q) : S50000x256.Idx) = ix2 ⟨t.val * 1000 + p.val, h⟩ q := by
  obtain ⟨-, -, -, -, -, -, -, -, -, -, -, -, e0, e1⟩ := idx_facts3 t
  exact Shape.idx_ext₂ (by show win3_6.index t 0 * 1000 + 1 * p.val = t.val * 1000 + p.val; omega)
    (by show win3_6.index t 1 * 256 + 1 * q.val = q.val; omega)

-- Reduces what point t writes back to the body's entries: entry (p, q) of its block is G at row t·tm + p.
theorem flushed3_eq_of (c : Dev nD) (t : Fin cfg3.N) (G : S50000x256.Idx → Ideal .f32)
    (hG : ∀ (p : Fin 1000) (q : Fin 256) (h : t.val * 1000 + p.val < 50000),
      k3_pay1 (F := Ideal) (iblk3 V c 0 t) (iblk3 V c 1 t) (iblk3 V c 2 t) (iblk3 V c 3 t) (iblk3 V c 4 t) (iblk3 V c 5 t) (ix2 p q) = G (ix2 ⟨t.val * 1000 + p.val, h⟩ q)) :
    (dat3 V c).flushed 6 t = ((cfg3.win 6).blk t).view.read (Elt Ideal) G := by
  show (cfg3.win 6).cut (grid3.coords t) ((dat3 V c).after 6 t) = _
  rw [after3_6]
  unfold out3_6
  rw [View.canon_unit_zero zero_off2]
  simp only [View.ld_unit_zero (S := S1000x256) zero_off2, View.ld_unit_zero (S := S256x768) zero_off2,
    View.ld_unit_zero (S := S1x768) zero_off2]
  funext j
  obtain ⟨p, q, rfl⟩ : ∃ (p : Fin 1000) (q : Fin 256), j = ix2 p q := ⟨j 0, j 1, eq_ix2 j⟩
  have ht : t.val < 50 := t.isLt
  have h : t.val * 1000 + p.val < 50000 := by omega
  show k3_pay1 (F := Ideal) (iblk3 V c 0 t) (iblk3 V c 1 t) (iblk3 V c 2 t) (iblk3 V c 3 t) (iblk3 V c 4 t) (iblk3 V c 5 t) (ix2 p q) = G (((cfg3.win 6).blk t).view.emb (ix2 p q))
  rw [emb3_6 t p q h]
  exact hG p q h

-- Entry (p, q) of block t reads row t·tm + p of x and h only, as the reference's cell does at that row; row r lies in block r / tm.
theorem val3 (c : Dev nD) : (dat3 V c).arrAt 6 cfg3.N
    = Cert.Stg.gru1 (F := Ideal) (V c main_v53) (V c main_arg4) (V c main_arg14) (V c main_arg15) (V c main_v54) (V c main_v55) :=
  (dat3 V c).arrAt_eq_of_cover 6 _ (fun t _ => flushed3_eq_of V c t _ fun p q h => by
    obtain ⟨a0, a1, b0, b1, c0, c1, d0, d1, e0, e1, f0, f1, -⟩ := idx_facts3 t
    refine point3 _ _ _ _ _ _ _ _ _ _ _ _ p q ⟨_, h⟩ (fun k => ?_) (fun k => ?_) (funext fun y => ?_) (funext fun y => ?_)
      (funext fun y => ?_) (funext fun y => ?_)
    · show V c main_v53 (((cfg3.win 0).blk t).view.emb (ix2 p k)) = _
      refine congrArg _ (Shape.idx_ext₂ ?_ ?_)
      · show win3_0.index t 0 * 1000 + 1 * p.val = t.val * 1000 + p.val; omega
      · show win3_0.index t 1 * 256 + 1 * k.val = k.val; omega
    · show V c main_arg4 (((cfg3.win 1).blk t).view.emb (ix2 p k)) = _
      refine congrArg _ (Shape.idx_ext₂ ?_ ?_)
      · show win3_1.index t 0 * 1000 + 1 * p.val = t.val * 1000 + p.val; omega
      · show win3_1.index t 1 * 256 + 1 * k.val = k.val; omega
    · exact congrArg (V c main_arg14) (Shape.idx_ext₂ (win3_2.rect_emb_val_of_index_zero t 0 c0 y)
        (win3_2.rect_emb_val_of_index_zero t 1 c1 y))
    · exact congrArg (V c main_arg15) (Shape.idx_ext₂ (win3_3.rect_emb_val_of_index_zero t 0 d0 y)
        (win3_3.rect_emb_val_of_index_zero t 1 d1 y))
    · exact congrArg (V c main_v54) (Shape.idx_ext₂ (win3_4.rect_emb_val_of_index_zero t 0 e0 y)
        (win3_4.rect_emb_val_of_index_zero t 1 e1 y))
    · exact congrArg (V c main_v55) (Shape.idx_ext₂ (win3_5.rect_emb_val_of_index_zero t 0 f0 y)
        (win3_5.rect_emb_val_of_index_zero t 1 f1 y))) fun i =>
    (rows_cover (N := cfg3.N) (tm := 1000) (R := 50000) (C := 256) (by rw [show cfg3.N = 50 from N_3])
      (fun t => ((cfg3.win 6).blk t).view.set) (fun t y => ((cfg3.win 6).blk t).view.emb y)
      (fun t y => ((cfg3.win 6).blk t).view.emb_mem_set y) emb3_6 i).imp
      fun t ht => ⟨flush3_6 t, ht⟩

end Cert.KernelIdeal.Hand

end
-- ==== Proof.KI.Val4Idx.lean ====
import proofs.«154662_j44117904065163_1_alg».proof.Proof.Gen.KernelIdeal.Skeleton
import proofs.«154662_j44117904065163_1_alg».proof.Proof.Stages
import proofs.«154662_j44117904065163_1_alg».proof.Proof.KI.ValLib

noncomputable section

open scoped BigOperators

namespace Cert.KernelIdeal.Hand

open Idealize.ShloMosaic Idealize.ShloMosaic.ValueIdx Idealize.SL.Sem

section Kernel
open Cert.KernelIdeal Cert.KernelIdeal.Facts₀ Cert.KernelIdeal.Facts

-- Entry (p, q) of the block the body computes from a block of rows x, the weights w and the bias row b.
theorem pay4_apply (x : Vec Ideal S1000x256 .f32) (w : Vec Ideal S256x128 .f32) (b : Vec Ideal S1x128 .f32)
    (p : Fin 1000) (q : Fin 128) :
    Gen.k4_pay1 x w b (ix2 p q) = (∑ k : Fin 256, x (ix2 p k) * w (ix2 k q)) + b (ix2 (0 : Fin 1) q) := by
  unfold Gen.k4_pay1
  rw [shapeCast_self x, shapeCast_self b]
  exact dense_apply dot_S1000x256_S256x128_S1000x128_1_0_0_1_n_n rfl rfl rfl rfl rfl rfl _ _ b p q _

end Kernel

section Reference
variable [Cert.ReferenceIdeal.Facts]
open Cert.ReferenceIdeal Cert.ReferenceIdeal.Facts₀ Cert.ReferenceIdeal.Facts

-- Entry (i, q) of the reference's product: row i of x against column q of W.
theorem lin2_apply (x : FVec Ideal S50000x256 .f32) (W : FVec Ideal S256x128 .f32) (i : Fin 50000) (q : Fin 128) :
    Cert.Stg.lin2 (F := Ideal) x W (ix2 i q) = ∑ k : Fin 256, x (ix2 i k) * W (ix2 k q) :=
  Cert.LibDot.dotGeneral_at dot_S50000x256_S256x128_S50000x128_1_0_0_1_n_n rfl rfl rfl rfl rfl rfl none _ x W i q

end Reference

end Cert.KernelIdeal.Hand

end
-- ==== Proof.KI.Val4.lean ====
import proofs.«154662_j44117904065163_1_alg».proof.Proof.KI.Body4
import proofs.«154662_j44117904065163_1_alg».proof.Proof.KI.Val4Idx

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

variable [Cert.ReferenceIdeal.Facts]
variable (V : (c : Dev nD) → (b : Ref sig .tc) → Buf (Elt Ideal) ((c : Thread nD τ).loc b))

theorem idx_facts4 : ∀ t : Fin cfg4.N, win4_0.index t 0 = t.val ∧ win4_0.index t 1 = 0
    ∧ win4_1.index t 0 = 0 ∧ win4_1.index t 1 = 0 ∧ win4_2.index t 0 = 0 ∧ win4_2.index t 1 = 0
    ∧ win4_3.index t 0 = t.val ∧ win4_3.index t 1 = 0 :=
  (by decide +kernel : ∀ t : Fin grid4.N, _)

theorem emb4_3 (t : Fin cfg4.N) (p : Fin 1000) (q : Fin 128) (h : t.val * 1000 + p.val < 50000) :
    (((cfg4.win 3).blk t).view.emb (ix2 p q) : S50000x128.Idx) = ix2 ⟨t.val * 1000 + p.val, h⟩ q := by
  obtain ⟨-, -, -, -, -, -, e0, e1⟩ := idx_facts4 t
  exact Shape.idx_ext₂ (by show win4_3.index t 0 * 1000 + 1 * p.val = t.val * 1000 + p.val; omega)
    (by show win4_3.index t 1 * 128 + 1 * q.val = q.val; omega)

-- Reduces what point t writes back to the body's entries: entry (p, q) of its block is G at row t·tm + p.
theorem flushed4_eq_of (c : Dev nD) (t : Fin cfg4.N) (G : S50000x128.Idx → Ideal .f32)
    (hG : ∀ (p : Fin 1000) (q : Fin 128) (h : t.val * 1000 + p.val < 50000),
      Gen.k4_pay1 (iblk4 V c 0 t) (iblk4 V c 1 t) (iblk4 V c 2 t) (ix2 p q) = G (ix2 ⟨t.val * 1000 + p.val, h⟩ q)) :
    (dat4 V c).flushed 3 t = ((cfg4.win 3).blk t).view.read (Elt Ideal) G := by
  show (cfg4.win 3).cut (grid4.coords t) ((dat4 V c).after 3 t) = _
  rw [after4_3]
  unfold out4_3
  rw [View.canon_unit_zero zero_off2]
  simp only [View.ld_unit_zero (S := S1000x256) zero_off2, View.ld_unit_zero (S := S256x128) zero_off2,
    View.ld_unit_zero (S := S1x128) zero_off2]
  funext j
  obtain ⟨p, q, rfl⟩ : ∃ (p : Fin 1000) (q : Fin 128), j = ix2 p q := ⟨j 0, j 1, eq_ix2 j⟩
  have ht : t.val < 50 := t.isLt
  have h : t.val * 1000 + p.val < 50000 := by omega
  show Gen.k4_pay1 (iblk4 V c 0 t) (iblk4 V c 1 t) (iblk4 V c 2 t) (ix2 p q) = G (((cfg4.win 3).blk t).view.emb (ix2 p q))
  rw [emb4_3 t p q h]
  exact hG p q h

-- Entry (p, q) of block t reads row t·tm + p of x only, as the reference's stage does at that row; row r lies in block r / tm.
theorem val4 (c : Dev nD) (hz : ∀ j : S1x128.Idx, (V c main_v58 : S1x128.Idx → Ideal .f32) j = (0 : Ideal .f32)) :
    (dat4 V c).arrAt 3 cfg4.N = Cert.Stg.lin2 (F := Ideal) (V c main_v56) (V c main_arg12) :=
  (dat4 V c).arrAt_eq_of_cover 3 _ (fun t _ => flushed4_eq_of V c t _ fun p q h => by
    obtain ⟨a0, a1, b0, b1, -⟩ := idx_facts4 t
    refine (pay4_apply _ _ _ p q).trans (.trans ?_ (lin2_apply _ _ ⟨_, h⟩ q).symm)
    refine .trans (congrArg (_ + ·) (hz _)) (.trans (add_zero _) (Finset.sum_congr rfl fun k _ => congrArg₂ (· * ·) ?_ ?_))
    · show V c main_v56 (((cfg4.win 0).blk t).view.emb (ix2 p k)) = _
      refine congrArg _ (Shape.idx_ext₂ ?_ ?_)
      · show win4_0.index t 0 * 1000 + 1 * p.val = t.val * 1000 + p.val; omega
      · show win4_0.index t 1 * 256 + 1 * k.val = k.val; omega
    · exact congrArg (V c main_arg12) (Shape.idx_ext₂ (win4_1.rect_emb_val_of_index_zero t 0 b0 (ix2 k q))
        (win4_1.rect_emb_val_of_index_zero t 1 b1 (ix2 k q)))) fun i =>
    (rows_cover (N := cfg4.N) (tm := 1000) (R := 50000) (C := 128) (by rw [show cfg4.N = 50 from N_4])
      (fun t => ((cfg4.win 3).blk t).view.set) (fun t y => ((cfg4.win 3).blk t).view.emb y)
      (fun t y => ((cfg4.win 3).blk t).view.emb_mem_set y) emb4_3 i).imp
      fun t ht => ⟨flush4_3 t, ht⟩

end Cert.KernelIdeal.Hand

end
-- ==== Proof.KI.Val5Idx.lean ====
import proofs.«154662_j44117904065163_1_alg».proof.Proof.Gen.KernelIdeal.Skeleton
import proofs.«154662_j44117904065163_1_alg».proof.Proof.Stages
import proofs.«154662_j44117904065163_1_alg».proof.Proof.LibDot
import proofs.«154662_j44117904065163_1_alg».proof.Proof.KI.GruCell
import proofs.«154662_j44117904065163_1_alg».proof.Proof.KI.ValLib
import Idealize.ShloMosaic.PureOps.Ideal.Laws
import Idealize.ShloMosaic.PureOps.IdealRules
import Idealize.ShloMosaic.Lib.ValueIdx
import Idealize.ShloMosaic.Lib.ValueLayout
import Idealize.ShloMosaic.Lib.Pipeline.Value

noncomputable section

open scoped BigOperators

namespace Cert.KernelIdeal.Hand

open Idealize.ShloMosaic Idealize.ShloMosaic.ValueIdx Idealize.SL.Sem
open Cert.KernelIdeal Cert.KernelIdeal.Gen

def gru128At {R : Nat} (x h : FVec Ideal ⟨2, ![R, 128]⟩ .f32) (Wih Whh : FVec Ideal ⟨2, ![128, 384]⟩ .f32)
    (bih bhh : FVec Ideal ⟨2, ![1, 384]⟩ .f32) (p : Fin R) (q : Fin 128) : EReal :=
  gruCell
    (projAt x Wih bih p ⟨0 + q.val, by omega⟩) (projAt x Wih bih p ⟨128 + q.val, by omega⟩) (projAt x Wih bih p ⟨256 + q.val, by omega⟩)
    (projAt h Whh bhh p ⟨0 + q.val, by omega⟩) (projAt h Whh bhh p ⟨128 + q.val, by omega⟩) (projAt h Whh bhh p ⟨256 + q.val, by omega⟩)
    (h (ix2 p q))

theorem gru128At_congr {R R' : Nat} (x h : FVec Ideal ⟨2, ![R, 128]⟩ .f32) (x' h' : FVec Ideal ⟨2, ![R', 128]⟩ .f32)
    (Wih Whh : FVec Ideal ⟨2, ![128, 384]⟩ .f32) (bih bhh : FVec Ideal ⟨2, ![1, 384]⟩ .f32) (p : Fin R) (p' : Fin R')
    (hx : ∀ k : Fin 128, x (ix2 p k) = x' (ix2 p' k)) (hh : ∀ k : Fin 128, h (ix2 p k) = h' (ix2 p' k)) (q : Fin 128) :
    gru128At x h Wih Whh bih bhh p q = gru128At x' h' Wih Whh bih bhh p' q := by
  unfold gru128At projAt
  simp only [hx, hh]

theorem kproj5_apply (x : FVec Ideal S2000x128 .f32) (w : FVec Ideal S128x384 .f32) (b : FVec Ideal S1x384 .f32)
    (p : Fin 2000) (c : Fin 384) :
    matmul dot_S2000x128_S128x384_S2000x384_1_0_0_1_n_n none
        (truncf .bf16 x bitsLt_bf16_f32 : FVec Ideal S2000x128 .bf16) (truncf .bf16 w bitsLt_bf16_f32 : FVec Ideal S128x384 .bf16)
        (constant S2000x384 .f32 0x00000000#32) (ix2 p c)
      + broadcastTo S2000x384 b broadcasts_S1x384_S2000x384 (ix2 p c)
      = projAt x w b p c :=
  dense_apply dot_S2000x128_S128x384_S2000x384_1_0_0_1_n_n rfl rfl rfl rfl rfl rfl _ _ b p c _

set_option maxRecDepth 65536 in
theorem pay5_apply (x h : Vec Ideal S2000x128 .f32) (Wih Whh : Vec Ideal S128x384 .f32) (bih bhh : Vec Ideal S1x384 .f32)
    (p : Fin 2000) (q : Fin 128) :
    k5_pay1 (F := Ideal) x h Wih Whh bih bhh (ix2 p q) = gru128At x h Wih Whh bih bhh p q := by
  unfold k5_pay1 gru128At gruCell
  simp only [addf_apply, mulf_apply, subf_apply, broadcast_apply, logistic_apply, tanh_apply, shapeCast_self,
    slice2_axis1_eq, kproj5_apply, scalar_one_word]

section Reference
variable [Cert.ReferenceIdeal.Facts]

theorem hproj2_apply (x : FVec Ideal Cert.ReferenceIdeal.S50000x128 .f32) (w : FVec Ideal Cert.ReferenceIdeal.S128x384 .f32)
    (b : FVec Ideal Cert.ReferenceIdeal.S1x384 .f32) (p : Fin 50000) (c : Fin 384) :
    Host.dotGeneral Cert.ReferenceIdeal.dot_S50000x128_S128x384_S50000x384_1_0_0_1_n_n none x w (ix2 p c)
      + broadcastInDim Cert.ReferenceIdeal.S50000x384 ![0, 1] Cert.ReferenceIdeal.Facts₀.bcast_S1x384_S50000x384_0_1 b (ix2 p c)
      = projAt x w b p c :=
  hostDense_apply Cert.ReferenceIdeal.dot_S50000x128_S128x384_S50000x384_1_0_0_1_n_n rfl rfl rfl rfl rfl rfl x w b p c _

set_option maxRecDepth 65536 in
theorem gru2_apply (x h : FVec Ideal Cert.ReferenceIdeal.S50000x128 .f32) (Wih Whh : FVec Ideal Cert.ReferenceIdeal.S128x384 .f32)
    (bih bhh : FVec Ideal Cert.ReferenceIdeal.S1x384 .f32) (i : Fin 50000) (q : Fin 128) :
    Cert.Stg.gru2 (F := Ideal) x h Wih Whh bih bhh (ix2 i q) = gru128At x h Wih Whh bih bhh i q := by
  unfold Cert.Stg.gru2 gru128At gruCell
  simp only [addf_apply, mulf_apply, subf_apply, hostDivf_apply, hostExp_apply, hostNegf_apply, hostTanh_apply,
    slice2_axis1_eq]
  rw [one_splat_apply, hproj2_apply, hproj2_apply, hproj2_apply, hproj2_apply, hproj2_apply, hproj2_apply]
  simp only [div_one_exp]

theorem point5 (X H : FVec Ideal Cert.ReferenceIdeal.S50000x128 .f32) (Wih Whh : FVec Ideal Cert.ReferenceIdeal.S128x384 .f32)
    (bih bhh : FVec Ideal Cert.ReferenceIdeal.S1x384 .f32) (x h : Vec Ideal S2000x128 .f32) (wih whh : Vec Ideal S128x384 .f32)
    (bi bh : Vec Ideal S1x384 .f32) (p : Fin 2000) (q : Fin 128) (i : Fin 50000)
    (hx : ∀ k : Fin 128, x (ix2 p k) = X (ix2 i k)) (hh : ∀ k : Fin 128, h (ix2 p k) = H (ix2 i k))
    (hwih : wih = Wih) (hwhh : whh = Whh) (hbi : bi = bih) (hbh : bh = bhh) :
    k5_pay1 (F := Ideal) x h wih whh bi bh (ix2 p q) = Cert.Stg.gru2 (F := Ideal) X H Wih Whh bih bhh (ix2 i q) := by
  subst hwih hwhh hbi hbh
  rw [pay5_apply, gru2_apply]
  exact gru128At_congr x h X H wih whh bi bh p i hx hh q

end Reference

end Cert.KernelIdeal.Hand

end
-- ==== Proof.KI.Val5.lean ====
import proofs.«154662_j44117904065163_1_alg».proof.Proof.KI.Body5
import proofs.«154662_j44117904065163_1_alg».proof.Proof.KI.Val5Idx

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

variable [Cert.ReferenceIdeal.Facts]
variable (V : (c : Dev nD) → (b : Ref sig .tc) → Buf (Elt Ideal) ((c : Thread nD τ).loc b))

theorem idx_facts5 : ∀ t : Fin cfg5.N, win5_0.index t 0 = t.val ∧ win5_0.index t 1 = 0
    ∧ win5_1.index t 0 = t.val ∧ win5_1.index t 1 = 0 ∧ win5_2.index t 0 = 0 ∧ win5_2.index t 1 = 0
    ∧ win5_3.index t 0 = 0 ∧ win5_3.index t 1 = 0 ∧ win5_4.index t 0 = 0 ∧ win5_4.index t 1 = 0
    ∧ win5_5.index t 0 = 0 ∧ win5_5.index t 1 = 0 ∧ win5_6.index t 0 = t.val ∧ win5_6.index t 1 = 0 :=
  (by decide +kernel : ∀ t : Fin grid5.N, _)

theorem emb5_6 (t : Fin cfg5.N) (p : Fin 2000) (q : Fin 128) (h : t.val * 2000 + p.val < 50000) :
    (((cfg5.win 6).blk t).view.emb (ix2 p q) : S50000x128.Idx) = ix2 ⟨t.val * 2000 + p.val, h⟩ q := by
  obtain ⟨-, -, -, -, -, -, -, -, -, -, -, -, e0, e1⟩ := idx_facts5 t
  exact Shape.idx_ext₂ (by show win5_6.index t 0 * 2000 + 1 * p.val = t.val * 2000 + p.val; omega)
    (by show win5_6.index t 1 * 128 + 1 * q.val = q.val; omega)

-- Reduces what point t writes back to the body's entries: entry (p, q) of its block is G at row t·tm + p.
theorem flushed5_eq_of (c : Dev nD) (t : Fin cfg5.N) (G : S50000x128.Idx → Ideal .f32)
    (hG : ∀ (p : Fin 2000) (q : Fin 128) (h : t.val * 2000 + p.val < 50000),
      k5_pay1 (F := Ideal) (iblk5 V c 0 t) (iblk5 V c 1 t) (iblk5 V c 2 t) (iblk5 V c 3 t) (iblk5 V c 4 t) (iblk5 V c 5 t) (ix2 p q) = G (ix2 ⟨t.val * 2000 + p.val, h⟩ q)) :
    (dat5 V c).flushed 6 t = ((cfg5.win 6).blk t).view.read (Elt Ideal) G := by
  show (cfg5.win 6).cut (grid5.coords t) ((dat5 V c).after 6 t) = _
  rw [after5_6]
  unfold out5_6
  rw [View.canon_unit_zero zero_off2]
  simp only [View.ld_unit_zero (S := S2000x128) zero_off2, View.ld_unit_zero (S := S128x384) zero_off2,
    View.ld_unit_zero (S := S1x384) zero_off2]
  funext j
  obtain ⟨p, q, rfl⟩ : ∃ (p : Fin 2000) (q : Fin 128), j = ix2 p q := ⟨j 0, j 1, eq_ix2 j⟩
  have ht : t.val < 25 := t.isLt
  have h : t.val * 2000 + p.val < 50000 := by omega
  show k5_pay1 (F := Ideal) (iblk5 V c 0 t) (iblk5 V c 1 t) (iblk5 V c 2 t) (iblk5 V c 3 t) (iblk5 V c 4 t) (iblk5 V c 5 t) (ix2 p q) = G (((cfg5.win 6).blk t).view.emb (ix2 p q))
  rw [emb5_6 t p q h]
  exact hG p q h

-- Entry (p, q) of block t reads row t·tm + p of x and h only, as the reference's cell does at that row; row r lies in block r / tm.
theorem val5 (c : Dev nD) : (dat5 V c).arrAt 6 cfg5.N
    = Cert.Stg.gru2 (F := Ideal) (V c main_v76) (V c main_arg5) (V c main_arg18) (V c main_arg19) (V c main_v77) (V c main_v78) :=
  (dat5 V c).arrAt_eq_of_cover 6 _ (fun t _ => flushed5_eq_of V c t _ fun p q h => by
    obtain ⟨a0, a1, b0, b1, c0, c1, d0, d1, e0, e1, f0, f1, -⟩ := idx_facts5 t
    refine point5 _ _ _ _ _ _ _ _ _ _ _ _ p q ⟨_, h⟩ (fun k => ?_) (fun k => ?_) (funext fun y => ?_) (funext fun y => ?_)
      (funext fun y => ?_) (funext fun y => ?_)
    · show V c main_v76 (((cfg5.win 0).blk t).view.emb (ix2 p k)) = _
      refine congrArg _ (Shape.idx_ext₂ ?_ ?_)
      · show win5_0.index t 0 * 2000 + 1 * p.val = t.val * 2000 + p.val; omega
      · show win5_0.index t 1 * 128 + 1 * k.val = k.val; omega
    · show V c main_arg5 (((cfg5.win 1).blk t).view.emb (ix2 p k)) = _
      refine congrArg _ (Shape.idx_ext₂ ?_ ?_)
      · show win5_1.index t 0 * 2000 + 1 * p.val = t.val * 2000 + p.val; omega
      · show win5_1.index t 1 * 128 + 1 * k.val = k.val; omega
    · exact congrArg (V c main_arg18) (Shape.idx_ext₂ (win5_2.rect_emb_val_of_index_zero t 0 c0 y)
        (win5_2.rect_emb_val_of_index_zero t 1 c1 y))
    · exact congrArg (V c main_arg19) (Shape.idx_ext₂ (win5_3.rect_emb_val_of_index_zero t 0 d0 y)
        (win5_3.rect_emb_val_of_index_zero t 1 d1 y))
    · exact congrArg (V c main_v77) (Shape.idx_ext₂ (win5_4.rect_emb_val_of_index_zero t 0 e0 y)
        (win5_4.rect_emb_val_of_index_zero t 1 e1 y))
    · exact congrArg (V c main_v78) (Shape.idx_ext₂ (win5_5.rect_emb_val_of_index_zero t 0 f0 y)
        (win5_5.rect_emb_val_of_index_zero t 1 f1 y))) fun i =>
    (rows_cover (N := cfg5.N) (tm := 2000) (R := 50000) (C := 128) (by rw [show cfg5.N = 25 from N_5])
      (fun t => ((cfg5.win 6).blk t).view.set) (fun t y => ((cfg5.win 6).blk t).view.emb y)
      (fun t y => ((cfg5.win 6).blk t).view.emb_mem_set y) emb5_6 i).imp
      fun t ht => ⟨flush5_6 t, ht⟩

end Cert.KernelIdeal.Hand

end
-- ==== Proof.KI.Val6Idx.lean ====
import proofs.«154662_j44117904065163_1_alg».proof.Proof.Gen.KernelIdeal.Skeleton
import proofs.«154662_j44117904065163_1_alg».proof.Proof.Stages
import proofs.«154662_j44117904065163_1_alg».proof.Proof.KI.ValLib

noncomputable section

open scoped BigOperators

namespace Cert.KernelIdeal.Hand

open Idealize.ShloMosaic Idealize.ShloMosaic.ValueIdx Idealize.SL.Sem

section Kernel
open Cert.KernelIdeal Cert.KernelIdeal.Facts₀ Cert.KernelIdeal.Facts

-- Entry (p, q) of the block the body computes from a block of rows x, the weights w and the bias row b.
theorem pay6_apply (x : Vec Ideal S2000x272 .f32) (w : Vec Ideal S272x1 .f32) (b : Vec Ideal S1x1 .f32)
    (p : Fin 2000) (q : Fin 1) :
    Gen.k6_pay1 x w b (ix2 p q) = (∑ k : Fin 272, x (ix2 p k) * w (ix2 k q)) + b (ix2 (0 : Fin 1) q) := by
  unfold Gen.k6_pay1
  rw [shapeCast_self x, shapeCast_self b]
  exact dense_apply dot_S2000x272_S272x1_S2000x1_1_0_0_1_n_n rfl rfl rfl rfl rfl rfl _ _ b p q _

end Kernel

section Reference
variable [Cert.ReferenceIdeal.Facts]
open Cert.ReferenceIdeal Cert.ReferenceIdeal.Facts₀ Cert.ReferenceIdeal.Facts

-- The same expression of row i of the whole arrays is entry (i, q) of the reference's stage.
theorem score_apply (x : FVec Ideal S200000x272 .f32) (W : FVec Ideal S272x1 .f32) (b2 : FVec Ideal S1x1 .f32)
    (i : Fin 200000) (q : Fin 1) :
    Cert.Stg.score (F := Ideal) x W b2 (ix2 i q) = (∑ k : Fin 272, x (ix2 i k) * W (ix2 k q)) + b2 (ix2 (0 : Fin 1) q) :=
  hostDense_apply dot_S200000x272_S272x1_S200000x1_1_0_0_1_n_n rfl rfl rfl rfl rfl rfl x W b2 i q _

end Reference

end Cert.KernelIdeal.Hand

end
-- ==== Proof.KI.Val6.lean ====
import proofs.«154662_j44117904065163_1_alg».proof.Proof.KI.Body6
import proofs.«154662_j44117904065163_1_alg».proof.Proof.KI.Val6Idx

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

variable [Cert.ReferenceIdeal.Facts]
variable (V : (c : Dev nD) → (b : Ref sig .tc) → Buf (Elt Ideal) ((c : Thread nD τ).loc b))

theorem idx_facts6 : ∀ t : Fin cfg6.N, win6_0.index t 0 = t.val ∧ win6_0.index t 1 = 0
    ∧ win6_1.index t 0 = 0 ∧ win6_1.index t 1 = 0 ∧ win6_2.index t 0 = 0 ∧ win6_2.index t 1 = 0
    ∧ win6_3.index t 0 = t.val ∧ win6_3.index t 1 = 0 :=
  (by decide +kernel : ∀ t : Fin grid6.N, _)

theorem emb6_3 (t : Fin cfg6.N) (p : Fin 2000) (q : Fin 1) (h : t.val * 2000 + p.val < 200000) :
    (((cfg6.win 3).blk t).view.emb (ix2 p q) : S200000x1.Idx) = ix2 ⟨t.val * 2000 + p.val, h⟩ q := by
  obtain ⟨-, -, -, -, -, -, e0, e1⟩ := idx_facts6 t
  exact Shape.idx_ext₂ (by show win6_3.index t 0 * 2000 + 1 * p.val = t.val * 2000 + p.val; omega)
    (by show win6_3.index t 1 * 1 + 1 * q.val = q.val; omega)

-- Reduces what point t writes back to the body's entries: entry (p, q) of its block is G at row t·tm + p.
theorem flushed6_eq_of (c : Dev nD) (t : Fin cfg6.N) (G : S200000x1.Idx → Ideal .f32)
    (hG : ∀ (p : Fin 2000) (q : Fin 1) (h : t.val * 2000 + p.val < 200000),
      Gen.k6_pay1 (iblk6 V c 0 t) (iblk6 V c 1 t) (iblk6 V c 2 t) (ix2 p q) = G (ix2 ⟨t.val * 2000 + p.val, h⟩ q)) :
    (dat6 V c).flushed 3 t = ((cfg6.win 3).blk t).view.read (Elt Ideal) G := by
  show (cfg6.win 3).cut (grid6.coords t) ((dat6 V c).after 3 t) = _
  rw [after6_3]
  unfold out6_3
  rw [View.canon_unit_zero zero_off2]
  simp only [View.ld_unit_zero (S := S2000x272) zero_off2, View.ld_unit_zero (S := S272x1) zero_off2,
    View.ld_unit_zero (S := S1x1) zero_off2]
  funext j
  obtain ⟨p, q, rfl⟩ : ∃ (p : Fin 2000) (q : Fin 1), j = ix2 p q := ⟨j 0, j 1, eq_ix2 j⟩
  have ht : t.val < 100 := t.isLt
  have h : t.val * 2000 + p.val < 200000 := by omega
  show Gen.k6_pay1 (iblk6 V c 0 t) (iblk6 V c 1 t) (iblk6 V c 2 t) (ix2 p q) = G (((cfg6.win 3).blk t).view.emb (ix2 p q))
  rw [emb6_3 t p q h]
  exact hG p q h

-- Entry (p, q) of block t reads row t·tm + p of x only, as the reference's stage does at that row; row r lies in block r / tm.
theorem val6 (c : Dev nD) :
    (dat6 V c).arrAt 3 cfg6.N = Cert.Stg.score (F := Ideal) (V c main_v98) (V c main_arg22) (V c main_v99) :=
  (dat6 V c).arrAt_eq_of_cover 3 _ (fun t _ => flushed6_eq_of V c t _ fun p q h => by
    obtain ⟨a0, a1, b0, b1, c0, c1, -⟩ := idx_facts6 t
    refine (pay6_apply _ _ _ p q).trans (.trans ?_ (score_apply _ _ _ ⟨_, h⟩ q).symm)
    refine congrArg₂ (· + ·) (Finset.sum_congr rfl fun k _ => congrArg₂ (· * ·) ?_ ?_) ?_
    · show V c main_v98 (((cfg6.win 0).blk t).view.emb (ix2 p k)) = _
      refine congrArg _ (Shape.idx_ext₂ ?_ ?_)
      · show win6_0.index t 0 * 2000 + 1 * p.val = t.val * 2000 + p.val; omega
      · show win6_0.index t 1 * 272 + 1 * k.val = k.val; omega
    · exact congrArg (V c main_arg22) (Shape.idx_ext₂ (win6_1.rect_emb_val_of_index_zero t 0 b0 (ix2 k q))
        (win6_1.rect_emb_val_of_index_zero t 1 b1 (ix2 k q)))
    · exact congrArg (V c main_v99) (Shape.idx_ext₂ (win6_2.rect_emb_val_of_index_zero t 0 c0 (ix2 0 q))
        (win6_2.rect_emb_val_of_index_zero t 1 c1 (ix2 0 q)))) fun i =>
    (rows_cover (N := cfg6.N) (tm := 2000) (R := 200000) (C := 1) (by rw [show cfg6.N = 100 from N_6])
      (fun t => ((cfg6.win 3).blk t).view.set) (fun t y => ((cfg6.win 3).blk t).view.emb y)
      (fun t y => ((cfg6.win 3).blk t).view.emb_mem_set y) emb6_3 i).imp
      fun t ht => ⟨flush6_3 t, ht⟩

end Cert.KernelIdeal.Hand

end
-- ==== Proof.GlueR.lean ====
import proofs.«154662_j44117904065163_1_alg».proof.Proof.Stages

noncomputable section

namespace Cert.Stg

open Idealize.ShloMosaic Idealize.SL.Sem
open Cert.ReferenceIdeal

variable {F : FTy → Type} [FloatOps F] [Cert.ReferenceIdeal.Facts]
open Cert.ReferenceIdeal.Facts₀ Cert.ReferenceIdeal.Facts

def row256 (b : T (F := F) S256 .f32) : T (F := F) S1x256 .f32 := broadcastInDim S1x256 ![1] bcast_S256_S1x256_1 b
def row128 (b : T (F := F) S128 .f32) : T (F := F) S1x128 .f32 := broadcastInDim S1x128 ![1] bcast_S128_S1x128_1 b
def row768 (b : T (F := F) S768 .f32) : T (F := F) S1x768 .f32 := broadcastInDim S1x768 ![1] bcast_S768_S1x768_1 b
def row384 (b : T (F := F) S384 .f32) : T (F := F) S1x384 .f32 := broadcastInDim S1x384 ![1] bcast_S384_S1x384_1 b
def row1 (b : T (F := F) S1 .f32) : T (F := F) S1x1 .f32 := broadcastInDim S1x1 ![1] bcast_S1_S1x1_1 b

def eRow (ei : T (F := F) S2x800000 .i32) : T (F := F) S850000 .i32 :=
  ((fun a b => concatenate S850000 0 [⟨S800000, a⟩, ⟨S50000, b⟩] concatenates_S800000_S50000_S850000_d0) : T (F := F) S800000 .i32 → T (F := F) S50000 .i32 → T (F := F) S850000 .i32)
    ((shapeCast S800000 ((extractStridedSlice S1x800000 ![0, 0] ei slices_S2x800000_S1x800000_0_0 : T (F := F) S1x800000 .i32)) shapeCasts_S1x800000_S800000 : T (F := F) S800000 .i32))
    (iotaInDim S50000 32 0 : T (F := F) S50000 .i32)

def eCol (ei : T (F := F) S2x800000 .i32) : T (F := F) S850000 .i32 :=
  ((fun a b => concatenate S850000 0 [⟨S800000, a⟩, ⟨S50000, b⟩] concatenates_S800000_S50000_S850000_d0) : T (F := F) S800000 .i32 → T (F := F) S50000 .i32 → T (F := F) S850000 .i32)
    ((shapeCast S800000 ((extractStridedSlice S1x800000 ![1, 0] ei slices_S2x800000_S1x800000_1_0 : T (F := F) S1x800000 .i32)) shapeCasts_S1x800000_S800000 : T (F := F) S800000 .i32))
    (iotaInDim S50000 32 0 : T (F := F) S50000 .i32)

def wrapIx (r : T (F := F) S850000 .i32) : T (F := F) S850000x1 .i32 :=
  broadcastInDim S850000x1 ![0] bcast_S850000_S850000x1_0
    (select (cmpi .slt r (broadcastInDim S850000 ![] bcast_S_S850000 (constantI S_ 32 0#32)))
      (addi r (broadcastInDim S850000 ![] bcast_S_S850000 (constantI S_ 32 50000#32))) r)

def dinv (ei : T (F := F) S2x800000 .i32) : T (F := F) S50000 .f32 :=
  select
    (cmpf .ogt
      (Host.scatterAdd scatter_S50000_S850000x1_S850000_n_0_0_1 (broadcastInDim S50000 ![] bcast_S_S50000 (constant (F := F) S_ .f32 0x00000000#32))
        (broadcastInDim S850000x1 ![0] bcast_S850000_S850000x1_0 (eCol ei)) (broadcastInDim S850000 ![] bcast_S_S850000 (constant (F := F) S_ .f32 0x3F800000#32)))
      (broadcastInDim S50000 ![] bcast_S_S50000 (constant (F := F) S_ .f32 0x00000000#32)))
    (Host.rsqrt
      (Host.scatterAdd scatter_S50000_S850000x1_S850000_n_0_0_1 (broadcastInDim S50000 ![] bcast_S_S50000 (constant (F := F) S_ .f32 0x00000000#32))
        (broadcastInDim S850000x1 ![0] bcast_S850000_S850000x1_0 (eCol ei)) (broadcastInDim S850000 ![] bcast_S_S850000 (constant (F := F) S_ .f32 0x3F800000#32))))
    (broadcastInDim S50000 ![] bcast_S_S50000 (constant (F := F) S_ .f32 0x00000000#32))

def nrm (ei : T (F := F) S2x800000 .i32) : T (F := F) S850000 .f32 :=
  mulf (Host.gather gather_S50000_S850000x1_S850000_n_0_n_n_0_1_1 (dinv ei) (wrapIx (eRow ei)))
    (Host.gather gather_S50000_S850000x1_S850000_n_0_n_n_0_1_1 (dinv ei) (wrapIx (eCol ei)))

def agg256 (hw : T (F := F) S50000x256 .f32) (nm : T (F := F) S850000 .f32) (row col : T (F := F) S850000 .i32) (b : T (F := F) S256 .f32) : T (F := F) S50000x256 .f32 :=
  addf
    (Host.scatterAdd scatter_S50000x256_S850000x1_S850000x256_1_0_0_1 (broadcastInDim S50000x256 ![] bcast_S_S50000x256 (constant (F := F) S_ .f32 0x00000000#32))
      (broadcastInDim S850000x1 ![0] bcast_S850000_S850000x1_0 col)
      (mulf (Host.gather gather_S50000x256_S850000x1_S850000x256_1_0_n_n_0_1_1256 hw (wrapIx row))
        (broadcastInDim S850000x256 ![0, 1] bcast_S850000x1_S850000x256_0_1 (broadcastInDim S850000x1 ![0] bcast_S850000_S850000x1_0 nm))))
    (broadcastInDim S50000x256 ![0, 1] bcast_S1x256_S50000x256_0_1 (broadcastInDim S1x256 ![1] bcast_S256_S1x256_1 b))

def agg128 (hw : T (F := F) S50000x128 .f32) (nm : T (F := F) S850000 .f32) (row col : T (F := F) S850000 .i32) (b : T (F := F) S128 .f32) : T (F := F) S50000x128 .f32 :=
  addf
    (Host.scatterAdd scatter_S50000x128_S850000x1_S850000x128_1_0_0_1 (broadcastInDim S50000x128 ![] bcast_S_S50000x128 (constant (F := F) S_ .f32 0x00000000#32))
      (broadcastInDim S850000x1 ![0] bcast_S850000_S850000x1_0 col)
      (mulf (Host.gather gather_S50000x128_S850000x1_S850000x128_1_0_n_n_0_1_1128 hw (wrapIx row))
        (broadcastInDim S850000x128 ![0, 1] bcast_S850000x1_S850000x128_0_1 (broadcastInDim S850000x1 ![0] bcast_S850000_S850000x1_0 nm))))
    (broadcastInDim S50000x128 ![0, 1] bcast_S1x128_S50000x128_0_1 (broadcastInDim S1x128 ![1] bcast_S128_S1x128_1 b))

def wrapIxQ (r : T (F := F) S200000 .i32) : T (F := F) S200000x1 .i32 :=
  broadcastInDim S200000x1 ![0] bcast_S200000_S200000x1_0
    (select (cmpi .slt r (broadcastInDim S200000 ![] bcast_S_S200000 (constantI S_ 32 0#32)))
      (addi r (broadcastInDim S200000 ![] bcast_S_S200000 (constantI S_ 32 50000#32))) r)

def cat (e2 : T (F := F) S50000x128 .f32) (eli : T (F := F) S2x200000 .i32) (ea : T (F := F) S200000x16 .f32) : T (F := F) S200000x272 .f32 :=
  ((fun a b d => concatenate S200000x272 1 [⟨S200000x128, a⟩, ⟨S200000x128, b⟩, ⟨S200000x16, d⟩] concatenates_S200000x128_S200000x128_S200000x16_S200000x272_d1) : T (F := F) S200000x128 .f32 → T (F := F) S200000x128 .f32 → T (F := F) S200000x16 .f32 → T (F := F) S200000x272 .f32)
    (Host.gather gather_S50000x128_S200000x1_S200000x128_1_0_n_n_0_1_1128 e2
        (wrapIxQ ((shapeCast S200000 ((extractStridedSlice S1x200000 ![0, 0] eli slices_S2x200000_S1x200000_0_0 : T (F := F) S1x200000 .i32)) shapeCasts_S1x200000_S200000 : T (F := F) S200000 .i32))))
    (Host.gather gather_S50000x128_S200000x1_S200000x128_1_0_n_n_0_1_1128 e2
        (wrapIxQ ((shapeCast S200000 ((extractStridedSlice S1x200000 ![1, 0] eli slices_S2x200000_S1x200000_1_0 : T (F := F) S1x200000 .i32)) shapeCasts_S1x200000_S200000 : T (F := F) S200000 .i32))))
    ea

def flat (s : T (F := F) S200000x1 .f32) : T (F := F) S200000 .f32 := shapeCast S200000 s shapeCasts_S200000x1_S200000

end Cert.Stg

end
-- ==== Proof.LibCastBcast.lean ====
import Idealize.ShloMosaic.Lib.Pipeline.Value
import Idealize.ShloMosaic.Lib.ValueIdx

namespace Cert.LibCastBcast

open Idealize.ShloMosaic Idealize.ShloMosaic.ValueIdx

variable {α : Type}

/-- A vector recast as one row is that vector broadcast along the row. -/
theorem row_cast_eq_bcast {b : ℕ} (x : (⟨1, ![b]⟩ : Shape).Idx → α)
    (h : (⟨1, ![b]⟩ : Shape).ShapeCasts ⟨2, ![1, b]⟩)
    (h' : (⟨1, ![b]⟩ : Shape).BroadcastsInDim (⟨2, ![1, b]⟩ : Shape) ![1]) :
    shapeCast ⟨2, ![1, b]⟩ x h = broadcastInDim (⟨2, ![1, b]⟩ : Shape) ![1] h' x := by
  funext j
  obtain ⟨u, q, rfl⟩ : ∃ (u : Fin 1) (q : Fin b), j = ix2 u q := ⟨j 0, j 1, eq_ix2 j⟩
  have hu : u.val = 0 := by omega
  refine (shapeCast_apply x h _ (ix1 q) ?_).trans (broadcastInDim_apply _ h' x _ (ix1 q) fun ax => ?_).symm
  · rw [Shape.rowMajor_val_two, Shape.rowMajor_val_one]
    show q.val = u.val * b + q.val
    rw [hu, Nat.zero_mul, Nat.zero_add]
  · match ax with
    | ⟨0, _⟩ =>
      show q.val = if b = 1 then 0 else q.val
      split
      · have := q.isLt; omega
      · rfl

end Cert.LibCastBcast
-- ==== Proof.KI.Walk1.lean ====
import proofs.«154662_j44117904065163_1_alg».proof.Proof.Gen.KernelIdeal.Regions
import proofs.«154662_j44117904065163_1_alg».proof.Proof.GlueR
import proofs.«154662_j44117904065163_1_alg».proof.Proof.LibCastBcast
import Idealize.ShloMosaic.Lib.StableHlo.Run

noncomputable section

namespace Cert.KernelIdeal.Hand

open Cert.KernelIdeal Cert.KernelIdeal.Gen
open Idealize.ShloMosaic Idealize.ShloMosaic.TcCoe Idealize.SL.Sem Idealize.ShloMosaic.StableHlo

variable {F : FTy → Type} [FloatOps F] [Cert.ReferenceIdeal.Facts]

theorem walk_nary3_result {τ : Topo} {sig : RefSig} {Val : EltTy → Type} {x a b y : Ref sig .tc}
    (f : ((k : Fin 3) → ((![x, a, b] : Fin 3 → Ref sig .tc) k).ty.Contents Val) → y.ty.Contents Val) (hxs hy)
    (G : Valuation τ sig Val) :
    (nary (τ := τ) ![x, a, b] y f hxs hy).result G (Proc.devRef .tc y)
      = f (Fin.cons (G (Proc.devRef .tc x)) (Fin.cons (G (Proc.devRef .tc a)) (Fin.cons (G (Proc.devRef .tc b)) (fun i => i.elim0)))) := by
  rw [nary_result]; congr 1; funext k; fin_cases k <;> rfl

theorem walk_nary3_result' {τ : Topo} {sig : RefSig} {Val : EltTy → Type} {x a b y : Ref sig .tc}
    (f : ((k : Fin 3) → ((![x, a, b] : Fin 3 → Ref sig .tc) k).ty.Contents Val) → y.ty.Contents Val) (hxs hy)
    (G : Valuation τ sig Val) :
    (nary (τ := τ) ![x, a, b] y f hxs hy).result G (no_index (Proc.devRef .tc y))
      = f (Fin.cons (G (Proc.devRef .tc x)) (Fin.cons (G (Proc.devRef .tc a)) (Fin.cons (G (Proc.devRef .tc b)) (fun i => i.elim0)))) :=
  walk_nary3_result f hxs hy G

section Stretches
variable (W : Valuation τ sig (Elt F))

theorem segA_v0 : after hostOps0 W (Proc.devRef .tc main_v0) = Cert.Stg.row256 (W (Proc.devRef .tc main_arg7)) := by
  after_results_simp
  exact Cert.LibCastBcast.row_cast_eq_bcast _ _ _

theorem segB_v2 : after hostOps1 W (Proc.devRef .tc main_v2) = Cert.Stg.row128 (W (Proc.devRef .tc main_arg9)) := by
  after_results_simp
  exact Cert.LibCastBcast.row_cast_eq_bcast _ _ _

set_option maxHeartbeats 1000000 in
theorem segC_v9 : after hostOps2_2 (after hostOps2_1 (after hostOps2 W)) (Proc.devRef .tc main_v9) = Cert.Stg.eRow (W (Proc.devRef .tc main_arg1)) := by
  after_results_simp <;> (try simp only [TRef.ofBuf, TRef.toBuf, cast_eq]) <;> rfl

set_option maxHeartbeats 1000000 in
theorem segC_v10 : after hostOps2_2 (after hostOps2_1 (after hostOps2 W)) (Proc.devRef .tc main_v10) = Cert.Stg.eCol (W (Proc.devRef .tc main_arg1)) := by
  after_results_simp <;> (try simp only [TRef.ofBuf, TRef.toBuf, cast_eq]) <;> rfl

set_option maxHeartbeats 1000000 in
theorem segC_v33 : after hostOps2_2 (after hostOps2_1 (after hostOps2 W)) (Proc.devRef .tc main_v33) = Cert.Stg.nrm (W (Proc.devRef .tc main_arg1)) := by
  after_results_simp <;> (try simp only [TRef.ofBuf, TRef.toBuf, cast_eq]) <;> rfl

set_option maxHeartbeats 1000000 in
theorem segC_v35 : after hostOps2_2 (after hostOps2_1 (after hostOps2 W)) (Proc.devRef .tc main_v35)
    = (shapeCast S1x256 (broadcastInDim S256 ![] bcast_S_S256 (constant (F := F) S_ .f32 0x00000000#32)) shapeCasts_S256_S1x256 : Cert.Stg.T (F := F) S1x256 .f32) := by
  after_results_simp <;> (try simp only [TRef.ofBuf, TRef.toBuf, cast_eq]) <;> rfl

set_option maxHeartbeats 1000000 in
theorem segD_v53 : after hostOps3_2 (after hostOps3_1 (after hostOps3 W)) (Proc.devRef .tc main_v53)
    = Cert.Stg.lrelu256 (Cert.Stg.agg256 (W (Proc.devRef .tc main_v36)) (W (Proc.devRef .tc main_v33)) (W (Proc.devRef .tc main_v9)) (W (Proc.devRef .tc main_v10)) (W (Proc.devRef .tc main_arg11))) := by
  after_results_simp <;> (try simp only [TRef.ofBuf, TRef.toBuf, cast_eq]) <;> rfl

set_option maxHeartbeats 1000000 in
theorem segD_v54 : after hostOps3_2 (after hostOps3_1 (after hostOps3 W)) (Proc.devRef .tc main_v54) = Cert.Stg.row768 (W (Proc.devRef .tc main_arg16)) := by
  after_results_simp <;> (try simp only [TRef.ofBuf, TRef.toBuf, cast_eq]) <;> exact Cert.LibCastBcast.row_cast_eq_bcast _ _ _

set_option maxHeartbeats 1000000 in
theorem segD_v55 : after hostOps3_2 (after hostOps3_1 (after hostOps3 W)) (Proc.devRef .tc main_v55) = Cert.Stg.row768 (W (Proc.devRef .tc main_arg17)) := by
  after_results_simp <;> (try simp only [TRef.ofBuf, TRef.toBuf, cast_eq]) <;> exact Cert.LibCastBcast.row_cast_eq_bcast _ _ _

theorem segE_v58 : after hostOps4 W (Proc.devRef .tc main_v58)
    = (shapeCast S1x128 (broadcastInDim S128 ![] bcast_S_S128 (constant (F := F) S_ .f32 0x00000000#32)) shapeCasts_S128_S1x128 : Cert.Stg.T (F := F) S1x128 .f32) := by
  after_results_simp
  rfl

set_option maxHeartbeats 1000000 in
theorem segF_v76 : after hostOps5_2 (after hostOps5_1 (after hostOps5 W)) (Proc.devRef .tc main_v76)
    = Cert.Stg.lrelu128 (Cert.Stg.agg128 (W (Proc.devRef .tc main_v59)) (W (Proc.devRef .tc main_v33)) (W (Proc.devRef .tc main_v9)) (W (Proc.devRef .tc main_v10)) (W (Proc.devRef .tc main_arg13))) := by
  after_results_simp <;> (try simp only [TRef.ofBuf, TRef.toBuf, cast_eq]) <;> rfl

set_option maxHeartbeats 1000000 in
theorem segF_v77 : after hostOps5_2 (after hostOps5_1 (after hostOps5 W)) (Proc.devRef .tc main_v77) = Cert.Stg.row384 (W (Proc.devRef .tc main_arg20)) := by
  after_results_simp <;> (try simp only [TRef.ofBuf, TRef.toBuf, cast_eq]) <;> exact Cert.LibCastBcast.row_cast_eq_bcast _ _ _

set_option maxHeartbeats 1000000 in
theorem segF_v78 : after hostOps5_2 (after hostOps5_1 (after hostOps5 W)) (Proc.devRef .tc main_v78) = Cert.Stg.row384 (W (Proc.devRef .tc main_arg21)) := by
  after_results_simp <;> (try simp only [TRef.ofBuf, TRef.toBuf, cast_eq]) <;> exact Cert.LibCastBcast.row_cast_eq_bcast _ _ _

set_option maxHeartbeats 1000000 in
theorem segG_v98 : after hostOps6 W (Proc.devRef .tc main_v98) = Cert.Stg.cat (W (Proc.devRef .tc main_v79)) (W (Proc.devRef .tc main_arg2)) (W (Proc.devRef .tc main_arg3)) := by
  simp (disch := decide) only [after_cons, after_nil,
      nullary_result', unary_result', binary_result', ternary_result', quaternary_result', reshape_result', walk_nary3_result', nary_result',
      unaryIndexed_result', binaryIndexed_result',
      nullary_result_ne', unary_result_ne', binary_result_ne', ternary_result_ne', quaternary_result_ne', reshape_result_ne',
      nary_result_ne', unaryIndexed_result_ne', binaryIndexed_result_ne']
  rfl

set_option maxHeartbeats 1000000 in
theorem segG_v99 : after hostOps6 W (Proc.devRef .tc main_v99) = Cert.Stg.row1 (W (Proc.devRef .tc main_arg23)) := by
  after_results_simp
  exact Cert.LibCastBcast.row_cast_eq_bcast _ _ _

theorem segH_v101 : after hostOps7 W (Proc.devRef .tc main_v101) = Cert.Stg.flat (W (Proc.devRef .tc main_v100)) := by
  after_results_simp
  rfl

end Stretches

end Cert.KernelIdeal.Hand
-- ==== Proof.KI.Walk2.lean ====
import proofs.«154662_j44117904065163_1_alg».proof.Proof.KI.Walk1

set_option maxRecDepth 1360

noncomputable section

namespace Cert.KernelIdeal.Hand

open Cert.KernelIdeal Cert.KernelIdeal.Gen
open Idealize.ShloMosaic Idealize.ShloMosaic.TcCoe Idealize.SL.Sem Idealize.ShloMosaic.StableHlo

variable {F : FTy → Type} [FloatOps F] [Cert.ReferenceIdeal.Facts]
variable (m : (ℓ : Loc nD τ sig) → Buf (Elt F) ℓ) (outs : Gen.Outs (F := F)) (c : Dev nD)

/-- A buffer that none of the items 1 … J writes holds at the valuation after item J what the launch memory holds. -/
abbrev K1 (r : Ref sig .tc) : Prop := r ∉ hostOps0_W
theorem keep1 (r : Ref sig .tc) (h : K1 r) : V1 m c r = m ((c : Thread nD τ).loc r) := (V1_of m c r h).trans rfl
abbrev K2 (r : Ref sig .tc) : Prop := r ∉ ([main_v1] : List (Ref sig .tc)) ∧ K1 r
theorem keep2 (r : Ref sig .tc) (h : K2 r) : V2 m outs c r = m ((c : Thread nD τ).loc r) :=
  (V2_of m outs c r h.1).trans (keep1 m c r h.2)
abbrev K3 (r : Ref sig .tc) : Prop := r ∉ hostOps1_W ∧ K2 r
theorem keep3 (r : Ref sig .tc) (h : K3 r) : V3 m outs c r = m ((c : Thread nD τ).loc r) :=
  (V3_of m outs c r h.1).trans (keep2 m outs c r h.2)
abbrev K4 (r : Ref sig .tc) : Prop := r ∉ ([main_v3] : List (Ref sig .tc)) ∧ K3 r
theorem keep4 (r : Ref sig .tc) (h : K4 r) : V4 m outs c r = m ((c : Thread nD τ).loc r) :=
  (V4_of m outs c r h.1).trans (keep3 m outs c r h.2)
abbrev K5 (r : Ref sig .tc) : Prop := r ∉ hostOps2_W ∧ K4 r
theorem keep5 (r : Ref sig .tc) (h : K5 r) : V5 m outs c r = m ((c : Thread nD τ).loc r) :=
  (V5_of m outs c r h.1).trans (keep4 m outs c r h.2)
abbrev K6 (r : Ref sig .tc) : Prop := r ∉ hostOps2_1_W ∧ K5 r
theorem keep6 (r : Ref sig .tc) (h : K6 r) : V6 m outs c r = m ((c : Thread nD τ).loc r) :=
  (V6_of m outs c r h.1).trans (keep5 m outs c r h.2)
abbrev K7 (r : Ref sig .tc) : Prop := r ∉ hostOps2_2_W ∧ K6 r
theorem keep7 (r : Ref sig .tc) (h : K7 r) : V7 m outs c r = m ((c : Thread nD τ).loc r) :=
  (V7_of m outs c r h.1).trans (keep6 m outs c r h.2)
abbrev K8 (r : Ref sig .tc) : Prop := r ∉ ([main_v36] : List (Ref sig .tc)) ∧ K7 r
theorem keep8 (r : Ref sig .tc) (h : K8 r) : V8 m outs c r = m ((c : Thread nD τ).loc r) :=
  (V8_of m outs c r h.1).trans (keep7 m outs c r h.2)
abbrev K9 (r : Ref sig .tc) : Prop := r ∉ hostOps3_W ∧ K8 r
theorem keep9 (r : Ref sig .tc) (h : K9 r) : V9 m outs c r = m ((c : Thread nD τ).loc r) :=
  (V9_of m outs c r h.1).trans (keep8 m outs c r h.2)
abbrev K10 (r : Ref sig .tc) : Prop := r ∉ hostOps3_1_W ∧ K9 r
theorem keep10 (r : Ref sig .tc) (h : K10 r) : V10 m outs c r = m ((c : Thread nD τ).loc r) :=
  (V10_of m outs c r h.1).trans (keep9 m outs c r h.2)
abbrev K11 (r : Ref sig .tc) : Prop := r ∉ hostOps3_2_W ∧ K10 r
theorem keep11 (r : Ref sig .tc) (h : K11 r) : V11 m outs c r = m ((c : Thread nD τ).loc r) :=
  (V11_of m outs c r h.1).trans (keep10 m outs c r h.2)
abbrev K12 (r : Ref sig .tc) : Prop := r ∉ ([main_v56] : List (Ref sig .tc)) ∧ K11 r
theorem keep12 (r : Ref sig .tc) (h : K12 r) : V12 m outs c r = m ((c : Thread nD τ).loc r) :=
  (V12_of m outs c r h.1).trans (keep11 m outs c r h.2)
abbrev K13 (r : Ref sig .tc) : Prop := r ∉ hostOps4_W ∧ K12 r
theorem keep13 (r : Ref sig .tc) (h : K13 r) : V13 m outs c r = m ((c : Thread nD τ).loc r) :=
  (V13_of m outs c r h.1).trans (keep12 m outs c r h.2)
abbrev K14 (r : Ref sig .tc) : Prop := r ∉ ([main_v59] : List (Ref sig .tc)) ∧ K13 r
theorem keep14 (r : Ref sig .tc) (h : K14 r) : V14 m outs c r = m ((c : Thread nD τ).loc r) :=
  (V14_of m outs c r h.1).trans (keep13 m outs c r h.2)
abbrev K15 (r : Ref sig .tc) : Prop := r ∉ hostOps5_W ∧ K14 r
theorem keep15 (r : Ref sig .tc) (h : K15 r) : V15 m outs c r = m ((c : Thread nD τ).loc r) :=
  (V15_of m outs c r h.1).trans (keep14 m outs c r h.2)
abbrev K16 (r : Ref sig .tc) : Prop := r ∉ hostOps5_1_W ∧ K15 r
theorem keep16 (r : Ref sig .tc) (h : K16 r) : V16 m outs c r = m ((c : Thread nD τ).loc r) :=
  (V16_of m outs c r h.1).trans (keep15 m outs c r h.2)
abbrev K17 (r : Ref sig .tc) : Prop := r ∉ hostOps5_2_W ∧ K16 r
theorem keep17 (r : Ref sig .tc) (h : K17 r) : V17 m outs c r = m ((c : Thread nD τ).loc r) :=
  (V17_of m outs c r h.1).trans (keep16 m outs c r h.2)
abbrev K18 (r : Ref sig .tc) : Prop := r ∉ ([main_v79] : List (Ref sig .tc)) ∧ K17 r
theorem keep18 (r : Ref sig .tc) (h : K18 r) : V18 m outs c r = m ((c : Thread nD τ).loc r) :=
  (V18_of m outs c r h.1).trans (keep17 m outs c r h.2)
abbrev K19 (r : Ref sig .tc) : Prop := r ∉ hostOps6_W ∧ K18 r
theorem keep19 (r : Ref sig .tc) (h : K19 r) : V19 m outs c r = m ((c : Thread nD τ).loc r) :=
  (V19_of m outs c r h.1).trans (keep18 m outs c r h.2)
/-- Items 9 … 14 write none of the edge lists' buffers. -/
theorem keep8_14 (r : Ref sig .tc) (h : r ∉ ([main_v59] : List (Ref sig .tc)) ∧ r ∉ hostOps4_W ∧ r ∉ ([main_v56] : List (Ref sig .tc)) ∧ r ∉ hostOps3_2_W ∧ r ∉ hostOps3_1_W ∧ r ∉ hostOps3_W) :
    V14 m outs c r = V8 m outs c r :=
  (V14_of m outs c r h.1).trans <| (V13_of m outs c r h.2.1).trans <| (V12_of m outs c r h.2.2.1).trans <|
    (V11_of m outs c r h.2.2.2.1).trans <| (V10_of m outs c r h.2.2.2.2.1).trans (V9_of m outs c r h.2.2.2.2.2)

theorem val8_v36 : V8 m outs c main_v36 = outs 8 main_v36 c :=
  (Function.update_self (β := fun b : DevRef τ sig => b.ty.Contents (Elt F)) (Proc.devRef .tc main_v36) (outs 8 main_v36 c) (V7 m outs c))
theorem val14_v59 : V14 m outs c main_v59 = outs 14 main_v59 c :=
  (Function.update_self (β := fun b : DevRef τ sig => b.ty.Contents (Elt F)) (Proc.devRef .tc main_v59) (outs 14 main_v59 c) (V13 m outs c))
theorem val18_v79 : V18 m outs c main_v79 = outs 18 main_v79 c :=
  (Function.update_self (β := fun b : DevRef τ sig => b.ty.Contents (Elt F)) (Proc.devRef .tc main_v79) (outs 18 main_v79 c) (V17 m outs c))
theorem val20_v100 : V20 m outs c main_v100 = outs 20 main_v100 c :=
  (Function.update_self (β := fun b : DevRef τ sig => b.ty.Contents (Elt F)) (Proc.devRef .tc main_v100) (outs 20 main_v100 c) (V19 m outs c))
theorem val7_v9 : V7 m outs c main_v9 = Cert.Stg.eRow (m ((c : Thread nD τ).loc main_arg1)) := by
  have h := segC_v9 (V4 m outs c); rw [keep4 m outs c main_arg1 (by decide)] at h; exact h
theorem val7_v10 : V7 m outs c main_v10 = Cert.Stg.eCol (m ((c : Thread nD τ).loc main_arg1)) := by
  have h := segC_v10 (V4 m outs c); rw [keep4 m outs c main_arg1 (by decide)] at h; exact h
theorem val7_v33 : V7 m outs c main_v33 = Cert.Stg.nrm (m ((c : Thread nD τ).loc main_arg1)) := by
  have h := segC_v33 (V4 m outs c); rw [keep4 m outs c main_arg1 (by decide)] at h; exact h
theorem val8_v9 : V8 m outs c main_v9 = Cert.Stg.eRow (m ((c : Thread nD τ).loc main_arg1)) :=
  (V8_of m outs c main_v9 (by decide)).trans (val7_v9 m outs c)
theorem val8_v10 : V8 m outs c main_v10 = Cert.Stg.eCol (m ((c : Thread nD τ).loc main_arg1)) :=
  (V8_of m outs c main_v10 (by decide)).trans (val7_v10 m outs c)
theorem val8_v33 : V8 m outs c main_v33 = Cert.Stg.nrm (m ((c : Thread nD τ).loc main_arg1)) :=
  (V8_of m outs c main_v33 (by decide)).trans (val7_v33 m outs c)
theorem val14_v9 : V14 m outs c main_v9 = Cert.Stg.eRow (m ((c : Thread nD τ).loc main_arg1)) :=
  (keep8_14 m outs c main_v9 (by decide)).trans (val8_v9 m outs c)
theorem val14_v10 : V14 m outs c main_v10 = Cert.Stg.eCol (m ((c : Thread nD τ).loc main_arg1)) :=
  (keep8_14 m outs c main_v10 (by decide)).trans (val8_v10 m outs c)
theorem val14_v33 : V14 m outs c main_v33 = Cert.Stg.nrm (m ((c : Thread nD τ).loc main_arg1)) :=
  (keep8_14 m outs c main_v33 (by decide)).trans (val8_v33 m outs c)
theorem read1_v0 : V1 m c main_v0 = Cert.Stg.row256 (m ((c : Thread nD τ).loc main_arg7)) :=
  segA_v0 (V0 m c)
theorem read3_v1 : V3 m outs c main_v1 = outs 2 main_v1 c :=
  (V3_of m outs c main_v1 (by decide)).trans (Function.update_self (β := fun b : DevRef τ sig => b.ty.Contents (Elt F)) (Proc.devRef .tc main_v1) (outs 2 main_v1 c) (V1 m c))
theorem read3_v2 : V3 m outs c main_v2 = Cert.Stg.row128 (m ((c : Thread nD τ).loc main_arg9)) := by
  have h := segB_v2 (V2 m outs c); rw [keep2 m outs c main_arg9 (by decide)] at h; exact h
theorem read7_v3 : V7 m outs c main_v3 = outs 4 main_v3 c :=
  (V7_of m outs c main_v3 (by decide)).trans <| (V6_of m outs c main_v3 (by decide)).trans <| (V5_of m outs c main_v3 (by decide)).trans (Function.update_self (β := fun b : DevRef τ sig => b.ty.Contents (Elt F)) (Proc.devRef .tc main_v3) (outs 4 main_v3 c) (V3 m outs c))
theorem read7_v35 : V7 m outs c main_v35 = (shapeCast S1x256 (broadcastInDim S256 ![] bcast_S_S256 (constant (F := F) S_ .f32 0x00000000#32)) shapeCasts_S256_S1x256 : Cert.Stg.T (F := F) S1x256 .f32) :=
  segC_v35 (V4 m outs c)
theorem read11_v53 : V11 m outs c main_v53 = Cert.Stg.lrelu256 (Cert.Stg.agg256 (outs 8 main_v36 c) (Cert.Stg.nrm (m ((c : Thread nD τ).loc main_arg1))) (Cert.Stg.eRow (m ((c : Thread nD τ).loc main_arg1))) (Cert.Stg.eCol (m ((c : Thread nD τ).loc main_arg1))) (m ((c : Thread nD τ).loc main_arg11))) := by
  have h := segD_v53 (V8 m outs c); rw [val8_v36 m outs c, val8_v33 m outs c, val8_v9 m outs c, val8_v10 m outs c, keep8 m outs c main_arg11 (by decide)] at h; exact h
theorem read11_v54 : V11 m outs c main_v54 = Cert.Stg.row768 (m ((c : Thread nD τ).loc main_arg16)) := by
  have h := segD_v54 (V8 m outs c); rw [keep8 m outs c main_arg16 (by decide)] at h; exact h
theorem read11_v55 : V11 m outs c main_v55 = Cert.Stg.row768 (m ((c : Thread nD τ).loc main_arg17)) := by
  have h := segD_v55 (V8 m outs c); rw [keep8 m outs c main_arg17 (by decide)] at h; exact h
theorem read13_v56 : V13 m outs c main_v56 = outs 12 main_v56 c :=
  (V13_of m outs c main_v56 (by decide)).trans (Function.update_self (β := fun b : DevRef τ sig => b.ty.Contents (Elt F)) (Proc.devRef .tc main_v56) (outs 12 main_v56 c) (V11 m outs c))
theorem read13_v58 : V13 m outs c main_v58 = (shapeCast S1x128 (broadcastInDim S128 ![] bcast_S_S128 (constant (F := F) S_ .f32 0x00000000#32)) shapeCasts_S128_S1x128 : Cert.Stg.T (F := F) S1x128 .f32) :=
  segE_v58 (V12 m outs c)
theorem read17_v76 : V17 m outs c main_v76 = Cert.Stg.lrelu128 (Cert.Stg.agg128 (outs 14 main_v59 c) (Cert.Stg.nrm (m ((c : Thread nD τ).loc main_arg1))) (Cert.Stg.eRow (m ((c : Thread nD τ).loc main_arg1))) (Cert.Stg.eCol (m ((c : Thread nD τ).loc main_arg1))) (m ((c : Thread nD τ).loc main_arg13))) := by
  have h := segF_v76 (V14 m outs c); rw [val14_v59 m outs c, val14_v33 m outs c, val14_v9 m outs c, val14_v10 m outs c, keep14 m outs c main_arg13 (by decide)] at h; exact h
theorem read17_v77 : V17 m outs c main_v77 = Cert.Stg.row384 (m ((c : Thread nD τ).loc main_arg20)) := by
  have h := segF_v77 (V14 m outs c); rw [keep14 m outs c main_arg20 (by decide)] at h; exact h
theorem read17_v78 : V17 m outs c main_v78 = Cert.Stg.row384 (m ((c : Thread nD τ).loc main_arg21)) := by
  have h := segF_v78 (V14 m outs c); rw [keep14 m outs c main_arg21 (by decide)] at h; exact h
theorem read19_v98 : V19 m outs c main_v98 = Cert.Stg.cat (outs 18 main_v79 c) (m ((c : Thread nD τ).loc main_arg2)) (m ((c : Thread nD τ).loc main_arg3)) := by
  have h := segG_v98 (V18 m outs c); rw [val18_v79 m outs c, keep18 m outs c main_arg2 (by decide), keep18 m outs c main_arg3 (by decide)] at h; exact h
theorem read19_v99 : V19 m outs c main_v99 = Cert.Stg.row1 (m ((c : Thread nD τ).loc main_arg23)) := by
  have h := segG_v99 (V18 m outs c); rw [keep18 m outs c main_arg23 (by decide)] at h; exact h
theorem read21_v101 : V21 m outs c main_v101 = Cert.Stg.flat (outs 20 main_v100 c) := by
  have h := segH_v101 (V20 m outs c); rw [val20_v100 m outs c] at h; exact h
theorem read21_v56 : V21 m outs c main_v56 = outs 12 main_v56 c :=
  (V21_of m outs c main_v56 (by decide)).trans <| (V20_of m outs c main_v56 (by decide)).trans <| (V19_of m outs c main_v56 (by decide)).trans <| (V18_of m outs c main_v56 (by decide)).trans <| (V17_of m outs c main_v56 (by decide)).trans <| (V16_of m outs c main_v56 (by decide)).trans <| (V15_of m outs c main_v56 (by decide)).trans <| (V14_of m outs c main_v56 (by decide)).trans <| (V13_of m outs c main_v56 (by decide)).trans (Function.update_self (β := fun b : DevRef τ sig => b.ty.Contents (Elt F)) (Proc.devRef .tc main_v56) (outs 12 main_v56 c) (V11 m outs c))
theorem read21_v79 : V21 m outs c main_v79 = outs 18 main_v79 c :=
  (V21_of m outs c main_v79 (by decide)).trans <| (V20_of m outs c main_v79 (by decide)).trans <| (V19_of m outs c main_v79 (by decide)).trans (Function.update_self (β := fun b : DevRef τ sig => b.ty.Contents (Elt F)) (Proc.devRef .tc main_v79) (outs 18 main_v79 c) (V17 m outs c))

end Cert.KernelIdeal.Hand

end
-- ==== Proof.Whole.lean ====
import proofs.«154662_j44117904065163_1_alg».proof.Proof.GlueR

noncomputable section

namespace Cert.Stg

open Idealize.ShloMosaic Idealize.SL.Sem
open Cert.ReferenceIdeal

variable {F : FTy → Type} [FloatOps F] [Cert.ReferenceIdeal.Facts]
open Cert.ReferenceIdeal.Facts₀ Cert.ReferenceIdeal.Facts

def pre (x : T (F := F) S50000x256 .f32) (w1 : T (F := F) S256x256 .f32) (b1 : T (F := F) S256 .f32)
    (w2 : T (F := F) S256x128 .f32) (b2 : T (F := F) S128 .f32) : T (F := F) S50000x128 .f32 :=
  dense2 (dense1 x w1 (row256 b1)) w2 (row128 b2)

def emb1 (x : T (F := F) S50000x256 .f32) (ei : T (F := F) S2x800000 .i32) (prev1 : T (F := F) S50000x256 .f32)
    (w1 : T (F := F) S256x256 .f32) (b1 : T (F := F) S256 .f32) (w2 : T (F := F) S256x128 .f32) (b2 : T (F := F) S128 .f32)
    (cw1 : T (F := F) S128x256 .f32) (cb1 : T (F := F) S256 .f32)
    (wih1 whh1 : T (F := F) S256x768 .f32) (bih1 bhh1 : T (F := F) S768 .f32) : T (F := F) S50000x256 .f32 :=
  gru1 (lrelu256 (agg256 (lin1 (pre x w1 b1 w2 b2) cw1) (nrm ei) (eRow ei) (eCol ei) cb1)) prev1 wih1 whh1 (row768 bih1) (row768 bhh1)

def emb2 (e1 : T (F := F) S50000x256 .f32) (ei : T (F := F) S2x800000 .i32) (prev2 : T (F := F) S50000x128 .f32)
    (cw2 : T (F := F) S256x128 .f32) (cb2 : T (F := F) S128 .f32)
    (wih2 whh2 : T (F := F) S128x384 .f32) (bih2 bhh2 : T (F := F) S384 .f32) : T (F := F) S50000x128 .f32 :=
  gru2 (lrelu128 (agg128 (lin2 e1 cw2) (nrm ei) (eRow ei) (eCol ei) cb2)) prev2 wih2 whh2 (row384 bih2) (row384 bhh2)

def scores (e2 : T (F := F) S50000x128 .f32) (eli : T (F := F) S2x200000 .i32) (ea : T (F := F) S200000x16 .f32)
    (pw : T (F := F) S272x1 .f32) (pb : T (F := F) S1 .f32) : T (F := F) S200000 .f32 :=
  flat (score (cat e2 eli ea) pw (row1 pb))

end Cert.Stg

end
-- ==== Proof.KI.Vals.lean ====
import proofs.«154662_j44117904065163_1_alg».proof.Proof.KI.Run
import proofs.«154662_j44117904065163_1_alg».proof.Proof.KI.Val0
import proofs.«154662_j44117904065163_1_alg».proof.Proof.KI.Val1
import proofs.«154662_j44117904065163_1_alg».proof.Proof.KI.Val2
import proofs.«154662_j44117904065163_1_alg».proof.Proof.KI.Val3
import proofs.«154662_j44117904065163_1_alg».proof.Proof.KI.Val4
import proofs.«154662_j44117904065163_1_alg».proof.Proof.KI.Val5
import proofs.«154662_j44117904065163_1_alg».proof.Proof.KI.Val6
import proofs.«154662_j44117904065163_1_alg».proof.Proof.KI.Walk2
import Idealize.ShloMosaic.PureOps.Ideal.Laws
import proofs.«154662_j44117904065163_1_alg».proof.Proof.Whole

noncomputable section

namespace Cert.KernelIdeal.Hand

open Cert.KernelIdeal Cert.KernelIdeal.Gen
open Idealize.ShloMosaic Idealize.ShloMosaic.TcCoe Idealize.SL.Sem
open Idealize.ShloMosaic.Pipeline (Dat)

variable [Cert.ReferenceIdeal.Facts]
variable (m : (ℓ : Loc nD τ sig) → Buf (Elt Ideal) ℓ) (c : Dev nD)

/-- Argument array `b` of core `c` at launch. -/
abbrev arg (b : Ref sig .tc) : Buf (Elt Ideal) ((c : Thread nD τ).loc b) := m ((c : Thread nD τ).loc b)

/-- The dense features, the two embeddings and the scores as the reference's functions of the launch arguments. -/
abbrev pre : Cert.Stg.T (F := Ideal) Cert.ReferenceIdeal.S50000x128 .f32 :=
  Cert.Stg.pre (F := Ideal) (arg m c main_arg0) (arg m c main_arg6) (arg m c main_arg7) (arg m c main_arg8) (arg m c main_arg9)
abbrev e1 : Cert.Stg.T (F := Ideal) Cert.ReferenceIdeal.S50000x256 .f32 :=
  Cert.Stg.emb1 (F := Ideal) (arg m c main_arg0) (arg m c main_arg1) (arg m c main_arg4) (arg m c main_arg6) (arg m c main_arg7)
    (arg m c main_arg8) (arg m c main_arg9) (arg m c main_arg10) (arg m c main_arg11) (arg m c main_arg14) (arg m c main_arg15)
    (arg m c main_arg16) (arg m c main_arg17)
abbrev e2 : Cert.Stg.T (F := Ideal) Cert.ReferenceIdeal.S50000x128 .f32 :=
  Cert.Stg.emb2 (F := Ideal) (e1 m c) (arg m c main_arg1) (arg m c main_arg5) (arg m c main_arg12) (arg m c main_arg13)
    (arg m c main_arg18) (arg m c main_arg19) (arg m c main_arg20) (arg m c main_arg21)
abbrev sc : Cert.Stg.T (F := Ideal) Cert.ReferenceIdeal.S200000 .f32 :=
  Cert.Stg.scores (F := Ideal) (e2 m c) (arg m c main_arg2) (arg m c main_arg3) (arg m c main_arg22) (arg m c main_arg23)

theorem kout2 : outs m 2 main_v1 c = Cert.Stg.dense1 (F := Ideal) (arg m c main_arg0) (arg m c main_arg6) (Cert.Stg.row256 (arg m c main_arg7)) := by
  refine (outs_2 m c).trans ((val0 _ c).trans ?_)
  show Cert.Stg.dense1 (F := Ideal) (V1 m c main_arg0) (V1 m c main_arg6) (V1 m c main_v0) = _
  rw [keep1 m c main_arg0 (by decide), keep1 m c main_arg6 (by decide), read1_v0]

theorem kout4 : outs m 4 main_v3 c = pre m c := by
  unfold pre Cert.Stg.pre
  refine (outs_4 m c).trans ((val1 _ c).trans ?_)
  show Cert.Stg.dense2 (F := Ideal) (V3 m (outs m) c main_v1) (V3 m (outs m) c main_arg8) (V3 m (outs m) c main_v2) = _
  rw [read3_v1, keep3 m (outs m) c main_arg8 (by decide), read3_v2, kout2]

/-- The projection's bias row is zero. -/
theorem kout8 : outs m 8 main_v36 c = Cert.Stg.lin1 (F := Ideal) (pre m c) (arg m c main_arg10) := by
  have hz : ∀ j : S1x256.Idx, ((V7 m (outs m) c main_v35) : S1x256.Idx → Ideal .f32) j = (0 : Ideal .f32) := by
    intro j; rw [read7_v35]; exact Ideal.ofBits_zero_f32
  refine (outs_8 m c).trans ((val2 _ c hz).trans ?_)
  show Cert.Stg.lin1 (F := Ideal) (V7 m (outs m) c main_v3) (V7 m (outs m) c main_arg10) = _
  rw [read7_v3, keep7 m (outs m) c main_arg10 (by decide), kout4]

theorem kout12 : outs m 12 main_v56 c = e1 m c := by
  unfold e1 Cert.Stg.emb1
  refine (outs_12 m c).trans ((val3 _ c).trans ?_)
  show Cert.Stg.gru1 (F := Ideal) (V11 m (outs m) c main_v53) (V11 m (outs m) c main_arg4) (V11 m (outs m) c main_arg14) (V11 m (outs m) c main_arg15) (V11 m (outs m) c main_v54) (V11 m (outs m) c main_v55) = _
  rw [read11_v53, keep11 m (outs m) c main_arg4 (by decide), keep11 m (outs m) c main_arg14 (by decide), keep11 m (outs m) c main_arg15 (by decide), read11_v54, read11_v55, kout8]

/-- The projection's bias row is zero. -/
theorem kout14 : outs m 14 main_v59 c = Cert.Stg.lin2 (F := Ideal) (e1 m c) (arg m c main_arg12) := by
  have hz : ∀ j : S1x128.Idx, ((V13 m (outs m) c main_v58) : S1x128.Idx → Ideal .f32) j = (0 : Ideal .f32) := by
    intro j; rw [read13_v58]; exact Ideal.ofBits_zero_f32
  refine (outs_14 m c).trans ((val4 _ c hz).trans ?_)
  show Cert.Stg.lin2 (F := Ideal) (V13 m (outs m) c main_v56) (V13 m (outs m) c main_arg12) = _
  rw [read13_v56, keep13 m (outs m) c main_arg12 (by decide), kout12]

theorem kout18 : outs m 18 main_v79 c = e2 m c := by
  unfold e2 Cert.Stg.emb2
  refine (outs_18 m c).trans ((val5 _ c).trans ?_)
  show Cert.Stg.gru2 (F := Ideal) (V17 m (outs m) c main_v76) (V17 m (outs m) c main_arg5) (V17 m (outs m) c main_arg18) (V17 m (outs m) c main_arg19) (V17 m (outs m) c main_v77) (V17 m (outs m) c main_v78) = _
  rw [read17_v76, keep17 m (outs m) c main_arg5 (by decide), keep17 m (outs m) c main_arg18 (by decide), keep17 m (outs m) c main_arg19 (by decide), read17_v77, read17_v78, kout14]

theorem kout20 : outs m 20 main_v100 c
    = Cert.Stg.score (F := Ideal) (Cert.Stg.cat (F := Ideal) (e2 m c) (arg m c main_arg2) (arg m c main_arg3)) (arg m c main_arg22) (Cert.Stg.row1 (arg m c main_arg23)) := by
  refine (outs_20 m c).trans ((val6 _ c).trans ?_)
  show Cert.Stg.score (F := Ideal) (V19 m (outs m) c main_v98) (V19 m (outs m) c main_arg22) (V19 m (outs m) c main_v99) = _
  rw [read19_v98, keep19 m (outs m) c main_arg22 (by decide), read19_v99, kout18]

theorem kval_emb1 : V21 m (outs m) c main_v56 = e1 m c := (read21_v56 m (outs m) c).trans (kout12 m c)

theorem kval_emb2 : V21 m (outs m) c main_v79 = e2 m c := (read21_v79 m (outs m) c).trans (kout18 m c)

theorem kval_scores : V21 m (outs m) c main_v101 = sc m c := by
  unfold sc Cert.Stg.scores
  rw [read21_v101, kout20]

end Cert.KernelIdeal.Hand

end
-- ==== Proof.KB.Body0.lean ====
import proofs.«154662_j44117904065163_1_alg».proof.Proof.Gen.Kernel.Launch
import proofs.«154662_j44117904065163_1_alg».proof.Proof.Gen.Kernel.Skeleton
import proofs.«154662_j44117904065163_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

section Region0
variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

def out0_3 (x0 : Vec F S1000x256 .f32) (x1 : Vec F S256x256 .f32) (x2 : Vec F S1x256 .f32) : Vec F S1000x256 .f32 :=
  View.canon [⟨Rect.unit (s := S1000x256) ![0, 0] S1000x256.size inb_S1000x256_S1000x256_0_0, k0_pay1 (View.ld x0 (Rect.unit (s := S1000x256) ![0, 0] S1000x256.size inb_S1000x256_S1000x256_0_0)) (View.ld x1 (Rect.unit (s := S256x256) ![0, 0] S256x256.size inb_S256x256_S256x256_0_0)) (View.ld x2 (Rect.unit (s := S1x256) ![0, 0] S1x256.size inb_S1x256_S1x256_0_0))⟩]

set_option maxHeartbeats 1000000 in
theorem sound_kernel0 (c : Dev nD) (i : grid0.Coords)
    (a0 : Memref sig .tc .vmem S1000x256 .f32) (h0 : a0.IsWhole) (a1 : Memref sig .tc .vmem S256x256 .f32) (h1 : a1.IsWhole) (a2 : Memref sig .tc .vmem S1x256 .f32) (h2 : a2.IsWhole) (a3 : Memref sig .tc .vmem S1000x256 .f32) (h3 : a3.IsWhole)
    (x0 : Vec F S1000x256 .f32) (x1 : Vec F S256x256 .f32) (x2 : Vec F S1x256 .f32) (K : PUnit → sProp 𝕄) :
    iprop(owns (c : Thread nD τ) a0 fullShare x0 ∗ owns (c : Thread nD τ) a1 fullShare x1 ∗ owns (c : Thread nD τ) a2 fullShare x2 ∗ (∃ d, owns (c : Thread nD τ) a3 fullShare d)
        ∗ (iprop(owns (c : Thread nD τ) a0 fullShare x0 ∗ owns (c : Thread nD τ) a1 fullShare x1 ∗ owns (c : Thread nD τ) a2 fullShare x2 ∗ owns (c : Thread nD τ) a3 fullShare (out0_3 x0 x1 x2)) -∗ K ⟨⟩))
      ⊢ wp frame (wpE (defs₀ (F := F)) Variants.none c none) Set.univ (cc0__dense_kernel i a0 h0 a1 h1 a2 h2 a3 h3) K := by
  simp only [cc0__dense_kernel_eq_skeleton]; unfold cc0__dense_kernel_skel owns
  iintro ⟨⟨%f0, %e0, H0⟩, ⟨%f1, %e1, H1⟩, ⟨%f2, %e2, H2⟩, ⟨%d, %f3, -, H3⟩, Hk⟩
  subst e0 e1 e2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (View.cover_of_tiled _ S1000x256.size (by rfl))

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem after0_3 (c : Dev nD) (t : Fin cfg0.N) :
    (dat0 V c).after 3 t = out0_3 (iblk0 V c 0 t) (iblk0 V c 1 t) (iblk0 V c 2 t) := by dsimp only [dat0]

theorem body_obligation0 (c : Dev nD) : BodyObligation (dat0 (F := F) V c) (defs₀ (F := F)) Variants.none () Set.univ := fun t => by
  have b : ∀ w : Fin cfg0.W, w ≠ 3 → ∀ d, (dat0 V c).before w t d = (dat0 V c).after w t := by
    intro w hw
    fin_cases w <;> first
      | exact absurd rfl hw
      | exact fun d => ((dat0 V c).before_in_eq_fetched _ rfl (fun _ => rfl) (fun _ _ _ => rfl) (fun _ => rfl) t d).trans rfl
  have a : (dat0 V c).after 3 t = out0_3 ((dat0 V c).after 0 t) ((dat0 V c).after 1 t) ((dat0 V c).after 2 t) := by dsimp only [dat0]
  rw [bigSep_W0, bigSep_W0]
  simp only [b 0 (by decide), b 1 (by decide), b 2 (by decide)]
  show _ ⊢ wp _ _ _ (bodyAt0 t) _
  rw [show (dat0 V c).Φ t.succ = (dat0 V c).Φ t.castSucc from rfl, show (dat0 V c).owesAt () t.succ = (dat0 V c).owesAt () t.castSucc from rfl, a]
  iintro ⟨HΦ, Ho, ⟨%d0, H0⟩, ⟨%d1, H1⟩, ⟨%d2, H2⟩, ⟨%d3, H3⟩⟩
  iapply (sound_kernel0 c _ _ _ _ _ _ _ _ _ ((dat0 V c).after 0 t) ((dat0 V c).after 1 t) ((dat0 V c).after 2 t) _)
  iframe H0 H1 H2
  isplitl [H3]; · iexists _; iexact H3
  iintro ⟨H0, H1, H2, H3⟩
  iframe

end Region0

end Cert.Kernel.Hand
-- ==== Proof.KB.Body1.lean ====
import proofs.«154662_j44117904065163_1_alg».proof.Proof.Gen.Kernel.Launch
import proofs.«154662_j44117904065163_1_alg».proof.Proof.Gen.Kernel.Skeleton
import proofs.«154662_j44117904065163_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

def out1_3 (x0 : Vec F S1000x256 .f32) (x1 : Vec F S256x128 .f32) (x2 : Vec F S1x128 .f32) : Vec F S1000x128 .f32 :=
  View.canon [⟨Rect.unit (s := S1000x128) ![0, 0] S1000x128.size inb_S1000x128_S1000x128_0_0, k1_pay1 (View.ld x0 (Rect.unit (s := S1000x256) ![0, 0] S1000x256.size inb_S1000x256_S1000x256_0_0)) (View.ld x1 (Rect.unit (s := S256x128) ![0, 0] S256x128.size inb_S256x128_S256x128_0_0)) (View.ld x2 (Rect.unit (s := S1x128) ![0, 0] S1x128.size inb_S1x128_S1x128_0_0))⟩]

set_option maxHeartbeats 1000000 in
theorem sound_kernel1 (c : Dev nD) (i : grid1.Coords)
    (a0 : Memref sig .tc .vmem S1000x256 .f32) (h0 : a0.IsWhole) (a1 : Memref sig .tc .vmem S256x128 .f32) (h1 : a1.IsWhole) (a2 : Memref sig .tc .vmem S1x128 .f32) (h2 : a2.IsWhole) (a3 : Memref sig .tc .vmem S1000x128 .f32) (h3 : a3.IsWhole)
    (x0 : Vec F S1000x256 .f32) (x1 : Vec F S256x128 .f32) (x2 : Vec F S1x128 .f32) (K : PUnit → sProp 𝕄) :
    iprop(owns (c : Thread nD τ) a0 fullShare x0 ∗ owns (c : Thread nD τ) a1 fullShare x1 ∗ owns (c : Thread nD τ) a2 fullShare x2 ∗ (∃ d, owns (c : Thread nD τ) a3 fullShare d)
        ∗ (iprop(owns (c : Thread nD τ) a0 fullShare x0 ∗ owns (c : Thread nD τ) a1 fullShare x1 ∗ owns (c : Thread nD τ) a2 fullShare x2 ∗ owns (c : Thread nD τ) a3 fullShare (out1_3 x0 x1 x2)) -∗ K ⟨⟩))
      ⊢ wp frame (wpE (defs₀ (F := F)) Variants.none c none) Set.univ (cc1__dense_kernel i a0 h0 a1 h1 a2 h2 a3 h3) K := by
  simp only [cc1__dense_kernel_eq_skeleton]; unfold cc1__dense_kernel_skel owns
  iintro ⟨⟨%f0, %e0, H0⟩, ⟨%f1, %e1, H1⟩, ⟨%f2, %e2, H2⟩, ⟨%d, %f3, -, H3⟩, Hk⟩
  subst e0 e1 e2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (View.cover_of_tiled _ S1000x128.size (by rfl))

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem after1_3 (c : Dev nD) (t : Fin cfg1.N) :
    (dat1 V c).after 3 t = out1_3 (iblk1 V c 0 t) (iblk1 V c 1 t) (iblk1 V c 2 t) := by dsimp only [dat1]

theorem body_obligation1 (c : Dev nD) : BodyObligation (dat1 (F := F) V c) (defs₀ (F := F)) Variants.none () Set.univ := fun t => by
  have b : ∀ w : Fin cfg1.W, w ≠ 3 → ∀ d, (dat1 V c).before w t d = (dat1 V c).after w t := by
    intro w hw
    fin_cases w <;> first
      | exact absurd rfl hw
      | exact fun d => ((dat1 V c).before_in_eq_fetched _ rfl (fun _ => rfl) (fun _ _ _ => rfl) (fun _ => rfl) t d).trans rfl
  have a : (dat1 V c).after 3 t = out1_3 ((dat1 V c).after 0 t) ((dat1 V c).after 1 t) ((dat1 V c).after 2 t) := by dsimp only [dat1]
  rw [bigSep_W1, bigSep_W1]
  simp only [b 0 (by decide), b 1 (by decide), b 2 (by decide)]
  show _ ⊢ wp _ _ _ (bodyAt1 t) _
  rw [show (dat1 V c).Φ t.succ = (dat1 V c).Φ t.castSucc from rfl, show (dat1 V c).owesAt () t.succ = (dat1 V c).owesAt () t.castSucc from rfl, a]
  iintro ⟨HΦ, Ho, ⟨%d0, H0⟩, ⟨%d1, H1⟩, ⟨%d2, H2⟩, ⟨%d3, H3⟩⟩
  iapply (sound_kernel1 c _ _ _ _ _ _ _ _ _ ((dat1 V c).after 0 t) ((dat1 V c).after 1 t) ((dat1 V c).after 2 t) _)
  iframe H0 H1 H2
  isplitl [H3]; · iexists _; iexact H3
  iintro ⟨H0, H1, H2, H3⟩
  iframe

end Region1

end Cert.Kernel.Hand
-- ==== Proof.KB.Body2.lean ====
import proofs.«154662_j44117904065163_1_alg».proof.Proof.Gen.Kernel.Launch
import proofs.«154662_j44117904065163_1_alg».proof.Proof.Gen.Kernel.Skeleton
import proofs.«154662_j44117904065163_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

section Region2
variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

def out2_3 (x0 : Vec F S1000x128 .f32) (x1 : Vec F S128x256 .f32) (x2 : Vec F S1x256 .f32) : Vec F S1000x256 .f32 :=
  View.canon [⟨Rect.unit (s := S1000x256) ![0, 0] S1000x256.size inb_S1000x256_S1000x256_0_0, k2_pay1 (View.ld x0 (Rect.unit (s := S1000x128) ![0, 0] S1000x128.size inb_S1000x128_S1000x128_0_0)) (View.ld x1 (Rect.unit (s := S128x256) ![0, 0] S128x256.size inb_S128x256_S128x256_0_0)) (View.ld x2 (Rect.unit (s := S1x256) ![0, 0] S1x256.size inb_S1x256_S1x256_0_0))⟩]

set_option maxHeartbeats 1000000 in
theorem sound_kernel2 (c : Dev nD) (i : grid2.Coords)
    (a0 : Memref sig .tc .vmem S1000x128 .f32) (h0 : a0.IsWhole) (a1 : Memref sig .tc .vmem S128x256 .f32) (h1 : a1.IsWhole) (a2 : Memref sig .tc .vmem S1x256 .f32) (h2 : a2.IsWhole) (a3 : Memref sig .tc .vmem S1000x256 .f32) (h3 : a3.IsWhole)
    (x0 : Vec F S1000x128 .f32) (x1 : Vec F S128x256 .f32) (x2 : Vec F S1x256 .f32) (K : PUnit → sProp 𝕄) :
    iprop(owns (c : Thread nD τ) a0 fullShare x0 ∗ owns (c : Thread nD τ) a1 fullShare x1 ∗ owns (c : Thread nD τ) a2 fullShare x2 ∗ (∃ d, owns (c : Thread nD τ) a3 fullShare d)
        ∗ (iprop(owns (c : Thread nD τ) a0 fullShare x0 ∗ owns (c : Thread nD τ) a1 fullShare x1 ∗ owns (c : Thread nD τ) a2 fullShare x2 ∗ owns (c : Thread nD τ) a3 fullShare (out2_3 x0 x1 x2)) -∗ K ⟨⟩))
      ⊢ wp frame (wpE (defs₀ (F := F)) Variants.none c none) Set.univ (cc2__dense_kernel i a0 h0 a1 h1 a2 h2 a3 h3) K := by
  simp only [cc2__dense_kernel_eq_skeleton]; unfold cc2__dense_kernel_skel owns
  iintro ⟨⟨%f0, %e0, H0⟩, ⟨%f1, %e1, H1⟩, ⟨%f2, %e2, H2⟩, ⟨%d, %f3, -, H3⟩, Hk⟩
  subst e0 e1 e2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (View.cover_of_tiled _ S1000x256.size (by rfl))

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem after2_3 (c : Dev nD) (t : Fin cfg2.N) :
    (dat2 V c).after 3 t = out2_3 (iblk2 V c 0 t) (iblk2 V c 1 t) (iblk2 V c 2 t) := by dsimp only [dat2]

theorem body_obligation2 (c : Dev nD) : BodyObligation (dat2 (F := F) V c) (defs₀ (F := F)) Variants.none () Set.univ := fun t => by
  have b : ∀ w : Fin cfg2.W, w ≠ 3 → ∀ d, (dat2 V c).before w t d = (dat2 V c).after w t := by
    intro w hw
    fin_cases w <;> first
      | exact absurd rfl hw
      | exact fun d => ((dat2 V c).before_in_eq_fetched _ rfl (fun _ => rfl) (fun _ _ _ => rfl) (fun _ => rfl) t d).trans rfl
  have a : (dat2 V c).after 3 t = out2_3 ((dat2 V c).after 0 t) ((dat2 V c).after 1 t) ((dat2 V c).after 2 t) := by dsimp only [dat2]
  rw [bigSep_W2, bigSep_W2]
  simp only [b 0 (by decide), b 1 (by decide), b 2 (by decide)]
  show _ ⊢ wp _ _ _ (bodyAt2 t) _
  rw [show (dat2 V c).Φ t.succ = (dat2 V c).Φ t.castSucc from rfl, show (dat2 V c).owesAt () t.succ = (dat2 V c).owesAt () t.castSucc from rfl, a]
  iintro ⟨HΦ, Ho, ⟨%d0, H0⟩, ⟨%d1, H1⟩, ⟨%d2, H2⟩, ⟨%d3, H3⟩⟩
  iapply (sound_kernel2 c _ _ _ _ _ _ _ _ _ ((dat2 V c).after 0 t) ((dat2 V c).after 1 t) ((dat2 V c).after 2 t) _)
  iframe H0 H1 H2
  isplitl [H3]; · iexists _; iexact H3
  iintro ⟨H0, H1, H2, H3⟩
  iframe

end Region2

end Cert.Kernel.Hand
-- ==== Proof.KB.Body3.lean ====
import proofs.«154662_j44117904065163_1_alg».proof.Proof.Gen.Kernel.Launch
import proofs.«154662_j44117904065163_1_alg».proof.Proof.Gen.Kernel.Skeleton
import proofs.«154662_j44117904065163_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

section Region3
variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

def out3_6 (x0 : Vec F S1000x256 .f32) (x1 : Vec F S1000x256 .f32) (x2 : Vec F S256x768 .f32) (x3 : Vec F S256x768 .f32) (x4 : Vec F S1x768 .f32) (x5 : Vec F S1x768 .f32) : Vec F S1000x256 .f32 :=
  View.canon [⟨Rect.unit (s := S1000x256) ![0, 0] S1000x256.size inb_S1000x256_S1000x256_0_0, k3_pay1 (View.ld x0 (Rect.unit (s := S1000x256) ![0, 0] S1000x256.size inb_S1000x256_S1000x256_0_0)) (View.ld x1 (Rect.unit (s := S1000x256) ![0, 0] S1000x256.size inb_S1000x256_S1000x256_0_0)) (View.ld x2 (Rect.unit (s := S256x768) ![0, 0] S256x768.size inb_S256x768_S256x768_0_0)) (View.ld x3 (Rect.unit (s := S256x768) ![0, 0] S256x768.size inb_S256x768_S256x768_0_0)) (View.ld x4 (Rect.unit (s := S1x768) ![0, 0] S1x768.size inb_S1x768_S1x768_0_0)) (View.ld x5 (Rect.unit (s := S1x768) ![0, 0] S1x768.size inb_S1x768_S1x768_0_0))⟩]

set_option maxHeartbeats 1000000 in
theorem sound_kernel3 (c : Dev nD) (i : grid3.Coords)
    (a0 : Memref sig .tc .vmem S1000x256 .f32) (h0 : a0.IsWhole) (a1 : Memref sig .tc .vmem S1000x256 .f32) (h1 : a1.IsWhole) (a2 : Memref sig .tc .vmem S256x768 .f32) (h2 : a2.IsWhole) (a3 : Memref sig .tc .vmem S256x768 .f32) (h3 : a3.IsWhole) (a4 : Memref sig .tc .vmem S1x768 .f32) (h4 : a4.IsWhole) (a5 : Memref sig .tc .vmem S1x768 .f32) (h5 : a5.IsWhole) (a6 : Memref sig .tc .vmem S1000x256 .f32) (h6 : a6.IsWhole)
    (x0 : Vec F S1000x256 .f32) (x1 : Vec F S1000x256 .f32) (x2 : Vec F S256x768 .f32) (x3 : Vec F S256x768 .f32) (x4 : Vec F S1x768 .f32) (x5 : Vec F S1x768 .f32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ (∃ d, owns (c : Thread nD τ) a6 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare (out3_6 x0 x1 x2 x3 x4 x5)) -∗ K ⟨⟩))
      ⊢ wp frame (wpE (defs₀ (F := F)) Variants.none c none) Set.univ (cc3__gru_kernel i a0 h0 a1 h1 a2 h2 a3 h3 a4 h4 a5 h5 a6 h6) K := by
  simp only [cc3__gru_kernel_eq_skeleton]; unfold cc3__gru_kernel_skel owns
  iintro ⟨⟨%f0, %e0, H0⟩, ⟨%f1, %e1, H1⟩, ⟨%f2, %e2, H2⟩, ⟨%f3, %e3, H3⟩, ⟨%f4, %e4, H4⟩, ⟨%f5, %e5, H5⟩, ⟨%d, %f6, -, H6⟩, Hk⟩
  subst e0 e1 e2 e3 e4 e5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (View.cover_of_tiled _ S1000x256.size (by rfl))

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => out3_6 (iblk3 V c 0 t) (iblk3 V c 1 t) (iblk3 V c 2 t) (iblk3 V c 3 t) (iblk3 V c 4 t) (iblk3 V c 5 t)
  Φ _ := Pipeline.ΦA spec3 c
  q _ := fullShare
  owed _ := 0

theorem after3_6 (c : Dev nD) (t : Fin cfg3.N) :
    (dat3 V c).after 6 t = out3_6 (iblk3 V c 0 t) (iblk3 V c 1 t) (iblk3 V c 2 t) (iblk3 V c 3 t) (iblk3 V c 4 t) (iblk3 V c 5 t) := by dsimp only [dat3]

theorem body_obligation3 (c : Dev nD) : BodyObligation (dat3 (F := F) V c) (defs₀ (F := F)) Variants.none () Set.univ := fun t => by
  have b : ∀ w : Fin cfg3.W, w ≠ 6 → ∀ d, (dat3 V c).before w t d = (dat3 V c).after w t := by
    intro w hw
    fin_cases w <;> first
      | exact absurd rfl hw
      | exact fun d => ((dat3 V c).before_in_eq_fetched _ rfl (fun _ => rfl) (fun _ _ _ => rfl) (fun _ => rfl) t d).trans rfl
  have a : (dat3 V c).after 6 t = out3_6 ((dat3 V c).after 0 t) ((dat3 V c).after 1 t) ((dat3 V c).after 2 t) ((dat3 V c).after 3 t) ((dat3 V c).after 4 t) ((dat3 V c).after 5 t) := by dsimp only [dat3]
  rw [bigSep_W3, bigSep_W3]
  simp only [b 0 (by decide), b 1 (by decide), b 2 (by decide), b 3 (by decide), b 4 (by decide), b 5 (by decide)]
  show _ ⊢ wp _ _ _ (bodyAt3 t) _
  rw [show (dat3 V c).Φ t.succ = (dat3 V c).Φ t.castSucc from rfl, show (dat3 V c).owesAt () t.succ = (dat3 V c).owesAt () t.castSucc from rfl, a]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel3 c _ _ _ _ _ _ _ _ _ _ _ _ _ _ _ ((dat3 V c).after 0 t) ((dat3 V c).after 1 t) ((dat3 V c).after 2 t) ((dat3 V c).after 3 t) ((dat3 V c).after 4 t) ((dat3 V c).after 5 t) _)
  iframe H0 H1 H2 H3 H4 H5
  isplitl [H6]; · iexists _; iexact H6
  iintro ⟨H0, H1, H2, H3, H4, H5, H6⟩
  iframe

end Region3

end Cert.Kernel.Hand
-- ==== Proof.KB.Body4.lean ====
import proofs.«154662_j44117904065163_1_alg».proof.Proof.Gen.Kernel.Launch
import proofs.«154662_j44117904065163_1_alg».proof.Proof.Gen.Kernel.Skeleton
import proofs.«154662_j44117904065163_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

section Region4
variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

def out4_3 (x0 : Vec F S1000x256 .f32) (x1 : Vec F S256x128 .f32) (x2 : Vec F S1x128 .f32) : Vec F S1000x128 .f32 :=
  View.canon [⟨Rect.unit (s := S1000x128) ![0, 0] S1000x128.size inb_S1000x128_S1000x128_0_0, k4_pay1 (View.ld x0 (Rect.unit (s := S1000x256) ![0, 0] S1000x256.size inb_S1000x256_S1000x256_0_0)) (View.ld x1 (Rect.unit (s := S256x128) ![0, 0] S256x128.size inb_S256x128_S256x128_0_0)) (View.ld x2 (Rect.unit (s := S1x128) ![0, 0] S1x128.size inb_S1x128_S1x128_0_0))⟩]

set_option maxHeartbeats 1000000 in
theorem sound_kernel4 (c : Dev nD) (i : grid4.Coords)
    (a0 : Memref sig .tc .vmem S1000x256 .f32) (h0 : a0.IsWhole) (a1 : Memref sig .tc .vmem S256x128 .f32) (h1 : a1.IsWhole) (a2 : Memref sig .tc .vmem S1x128 .f32) (h2 : a2.IsWhole) (a3 : Memref sig .tc .vmem S1000x128 .f32) (h3 : a3.IsWhole)
    (x0 : Vec F S1000x256 .f32) (x1 : Vec F S256x128 .f32) (x2 : Vec F S1x128 .f32) (K : PUnit → sProp 𝕄) :
    iprop(owns (c : Thread nD τ) a0 fullShare x0 ∗ owns (c : Thread nD τ) a1 fullShare x1 ∗ owns (c : Thread nD τ) a2 fullShare x2 ∗ (∃ d, owns (c : Thread nD τ) a3 fullShare d)
        ∗ (iprop(owns (c : Thread nD τ) a0 fullShare x0 ∗ owns (c : Thread nD τ) a1 fullShare x1 ∗ owns (c : Thread nD τ) a2 fullShare x2 ∗ owns (c : Thread nD τ) a3 fullShare (out4_3 x0 x1 x2)) -∗ K ⟨⟩))
      ⊢ wp frame (wpE (defs₀ (F := F)) Variants.none c none) Set.univ (cc4__dense_kernel i a0 h0 a1 h1 a2 h2 a3 h3) K := by
  simp only [cc4__dense_kernel_eq_skeleton]; unfold cc4__dense_kernel_skel owns
  iintro ⟨⟨%f0, %e0, H0⟩, ⟨%f1, %e1, H1⟩, ⟨%f2, %e2, H2⟩, ⟨%d, %f3, -, H3⟩, Hk⟩
  subst e0 e1 e2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (View.cover_of_tiled _ S1000x128.size (by rfl))

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => out4_3 (iblk4 V c 0 t) (iblk4 V c 1 t) (iblk4 V c 2 t)
  Φ _ := Pipeline.ΦA spec4 c
  q _ := fullShare
  owed _ := 0

theorem after4_3 (c : Dev nD) (t : Fin cfg4.N) :
    (dat4 V c).after 3 t = out4_3 (iblk4 V c 0 t) (iblk4 V c 1 t) (iblk4 V c 2 t) := by dsimp only [dat4]

theorem body_obligation4 (c : Dev nD) : BodyObligation (dat4 (F := F) V c) (defs₀ (F := F)) Variants.none () Set.univ := fun t => by
  have b : ∀ w : Fin cfg4.W, w ≠ 3 → ∀ d, (dat4 V c).before w t d = (dat4 V c).after w t := by
    intro w hw
    fin_cases w <;> first
      | exact absurd rfl hw
      | exact fun d => ((dat4 V c).before_in_eq_fetched _ rfl (fun _ => rfl) (fun _ _ _ => rfl) (fun _ => rfl) t d).trans rfl
  have a : (dat4 V c).after 3 t = out4_3 ((dat4 V c).after 0 t) ((dat4 V c).after 1 t) ((dat4 V c).after 2 t) := by dsimp only [dat4]
  rw [bigSep_W4, bigSep_W4]
  simp only [b 0 (by decide), b 1 (by decide), b 2 (by decide)]
  show _ ⊢ wp _ _ _ (bodyAt4 t) _
  rw [show (dat4 V c).Φ t.succ = (dat4 V c).Φ t.castSucc from rfl, show (dat4 V c).owesAt () t.succ = (dat4 V c).owesAt () t.castSucc from rfl, a]
  iintro ⟨HΦ, Ho, ⟨%d0, H0⟩, ⟨%d1, H1⟩, ⟨%d2, H2⟩, ⟨%d3, H3⟩⟩
  iapply (sound_kernel4 c _ _ _ _ _ _ _ _ _ ((dat4 V c).after 0 t) ((dat4 V c).after 1 t) ((dat4 V c).after 2 t) _)
  iframe H0 H1 H2
  isplitl [H3]; · iexists _; iexact H3
  iintro ⟨H0, H1, H2, H3⟩
  iframe

end Region4

end Cert.Kernel.Hand
-- ==== Proof.KB.Body5.lean ====
import proofs.«154662_j44117904065163_1_alg».proof.Proof.Gen.Kernel.Launch
import proofs.«154662_j44117904065163_1_alg».proof.Proof.Gen.Kernel.Skeleton
import proofs.«154662_j44117904065163_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

section Region5
variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

def out5_6 (x0 : Vec F S2000x128 .f32) (x1 : Vec F S2000x128 .f32) (x2 : Vec F S128x384 .f32) (x3 : Vec F S128x384 .f32) (x4 : Vec F S1x384 .f32) (x5 : Vec F S1x384 .f32) : Vec F S2000x128 .f32 :=
  View.canon [⟨Rect.unit (s := S2000x128) ![0, 0] S2000x128.size inb_S2000x128_S2000x128_0_0, k5_pay1 (View.ld x0 (Rect.unit (s := S2000x128) ![0, 0] S2000x128.size inb_S2000x128_S2000x128_0_0)) (View.ld x1 (Rect.unit (s := S2000x128) ![0, 0] S2000x128.size inb_S2000x128_S2000x128_0_0)) (View.ld x2 (Rect.unit (s := S128x384) ![0, 0] S128x384.size inb_S128x384_S128x384_0_0)) (View.ld x3 (Rect.unit (s := S128x384) ![0, 0] S128x384.size inb_S128x384_S128x384_0_0)) (View.ld x4 (Rect.unit (s := S1x384) ![0, 0] S1x384.size inb_S1x384_S1x384_0_0)) (View.ld x5 (Rect.unit (s := S1x384) ![0, 0] S1x384.size inb_S1x384_S1x384_0_0))⟩]

set_option maxHeartbeats 1000000 in
theorem sound_kernel5 (c : Dev nD) (i : grid5.Coords)
    (a0 : Memref sig .tc .vmem S2000x128 .f32) (h0 : a0.IsWhole) (a1 : Memref sig .tc .vmem S2000x128 .f32) (h1 : a1.IsWhole) (a2 : Memref sig .tc .vmem S128x384 .f32) (h2 : a2.IsWhole) (a3 : Memref sig .tc .vmem S128x384 .f32) (h3 : a3.IsWhole) (a4 : Memref sig .tc .vmem S1x384 .f32) (h4 : a4.IsWhole) (a5 : Memref sig .tc .vmem S1x384 .f32) (h5 : a5.IsWhole) (a6 : Memref sig .tc .vmem S2000x128 .f32) (h6 : a6.IsWhole)
    (x0 : Vec F S2000x128 .f32) (x1 : Vec F S2000x128 .f32) (x2 : Vec F S128x384 .f32) (x3 : Vec F S128x384 .f32) (x4 : Vec F S1x384 .f32) (x5 : Vec F S1x384 .f32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ (∃ d, owns (c : Thread nD τ) a6 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare (out5_6 x0 x1 x2 x3 x4 x5)) -∗ K ⟨⟩))
      ⊢ wp frame (wpE (defs₀ (F := F)) Variants.none c none) Set.univ (cc5__gru_kernel i a0 h0 a1 h1 a2 h2 a3 h3 a4 h4 a5 h5 a6 h6) K := by
  simp only [cc5__gru_kernel_eq_skeleton]; unfold cc5__gru_kernel_skel owns
  iintro ⟨⟨%f0, %e0, H0⟩, ⟨%f1, %e1, H1⟩, ⟨%f2, %e2, H2⟩, ⟨%f3, %e3, H3⟩, ⟨%f4, %e4, H4⟩, ⟨%f5, %e5, H5⟩, ⟨%d, %f6, -, H6⟩, Hk⟩
  subst e0 e1 e2 e3 e4 e5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (View.cover_of_tiled _ S2000x128.size (by rfl))

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => out5_6 (iblk5 V c 0 t) (iblk5 V c 1 t) (iblk5 V c 2 t) (iblk5 V c 3 t) (iblk5 V c 4 t) (iblk5 V c 5 t)
  Φ _ := Pipeline.ΦA spec5 c
  q _ := fullShare
  owed _ := 0

theorem after5_6 (c : Dev nD) (t : Fin cfg5.N) :
    (dat5 V c).after 6 t = out5_6 (iblk5 V c 0 t) (iblk5 V c 1 t) (iblk5 V c 2 t) (iblk5 V c 3 t) (iblk5 V c 4 t) (iblk5 V c 5 t) := by dsimp only [dat5]

theorem body_obligation5 (c : Dev nD) : BodyObligation (dat5 (F := F) V c) (defs₀ (F := F)) Variants.none () Set.univ := fun t => by
  have b : ∀ w : Fin cfg5.W, w ≠ 6 → ∀ d, (dat5 V c).before w t d = (dat5 V c).after w t := by
    intro w hw
    fin_cases w <;> first
      | exact absurd rfl hw
      | exact fun d => ((dat5 V c).before_in_eq_fetched _ rfl (fun _ => rfl) (fun _ _ _ => rfl) (fun _ => rfl) t d).trans rfl
  have a : (dat5 V c).after 6 t = out5_6 ((dat5 V c).after 0 t) ((dat5 V c).after 1 t) ((dat5 V c).after 2 t) ((dat5 V c).after 3 t) ((dat5 V c).after 4 t) ((dat5 V c).after 5 t) := by dsimp only [dat5]
  rw [bigSep_W5, bigSep_W5]
  simp only [b 0 (by decide), b 1 (by decide), b 2 (by decide), b 3 (by decide), b 4 (by decide), b 5 (by decide)]
  show _ ⊢ wp _ _ _ (bodyAt5 t) _
  rw [show (dat5 V c).Φ t.succ = (dat5 V c).Φ t.castSucc from rfl, show (dat5 V c).owesAt () t.succ = (dat5 V c).owesAt () t.castSucc from rfl, a]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel5 c _ _ _ _ _ _ _ _ _ _ _ _ _ _ _ ((dat5 V c).after 0 t) ((dat5 V c).after 1 t) ((dat5 V c).after 2 t) ((dat5 V c).after 3 t) ((dat5 V c).after 4 t) ((dat5 V c).after 5 t) _)
  iframe H0 H1 H2 H3 H4 H5
  isplitl [H6]; · iexists _; iexact H6
  iintro ⟨H0, H1, H2, H3, H4, H5, H6⟩
  iframe

end Region5

end Cert.Kernel.Hand
-- ==== Proof.KB.Body6.lean ====
import proofs.«154662_j44117904065163_1_alg».proof.Proof.Gen.Kernel.Launch
import proofs.«154662_j44117904065163_1_alg».proof.Proof.Gen.Kernel.Skeleton
import proofs.«154662_j44117904065163_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

section Region6
variable (V : (c : Dev nD) → (b : Ref sig .tc) → Buf (Elt F) ((c : Thread nD τ).loc b))

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

def out6_3 (x0 : Vec F S2000x272 .f32) (x1 : Vec F S272x1 .f32) (x2 : Vec F S1x1 .f32) : Vec F S2000x1 .f32 :=
  View.canon [⟨Rect.unit (s := S2000x1) ![0, 0] S2000x1.size inb_S2000x1_S2000x1_0_0, k6_pay1 (View.ld x0 (Rect.unit (s := S2000x272) ![0, 0] S2000x272.size inb_S2000x272_S2000x272_0_0)) (View.ld x1 (Rect.unit (s := S272x1) ![0, 0] S272x1.size inb_S272x1_S272x1_0_0)) (View.ld x2 (Rect.unit (s := S1x1) ![0, 0] S1x1.size inb_S1x1_S1x1_0_0))⟩]

set_option maxHeartbeats 1000000 in
theorem sound_kernel6 (c : Dev nD) (i : grid6.Coords)
    (a0 : Memref sig .tc .vmem S2000x272 .f32) (h0 : a0.IsWhole) (a1 : Memref sig .tc .vmem S272x1 .f32) (h1 : a1.IsWhole) (a2 : Memref sig .tc .vmem S1x1 .f32) (h2 : a2.IsWhole) (a3 : Memref sig .tc .vmem S2000x1 .f32) (h3 : a3.IsWhole)
    (x0 : Vec F S2000x272 .f32) (x1 : Vec F S272x1 .f32) (x2 : Vec F S1x1 .f32) (K : PUnit → sProp 𝕄) :
    iprop(owns (c : Thread nD τ) a0 fullShare x0 ∗ owns (c : Thread nD τ) a1 fullShare x1 ∗ owns (c : Thread nD τ) a2 fullShare x2 ∗ (∃ d, owns (c : Thread nD τ) a3 fullShare d)
        ∗ (iprop(owns (c : Thread nD τ) a0 fullShare x0 ∗ owns (c : Thread nD τ) a1 fullShare x1 ∗ owns (c : Thread nD τ) a2 fullShare x2 ∗ owns (c : Thread nD τ) a3 fullShare (out6_3 x0 x1 x2)) -∗ K ⟨⟩))
      ⊢ wp frame (wpE (defs₀ (F := F)) Variants.none c none) Set.univ (cc6__dense_kernel i a0 h0 a1 h1 a2 h2 a3 h3) K := by
  simp only [cc6__dense_kernel_eq_skeleton]; unfold cc6__dense_kernel_skel owns
  iintro ⟨⟨%f0, %e0, H0⟩, ⟨%f1, %e1, H1⟩, ⟨%f2, %e2, H2⟩, ⟨%d, %f3, -, H3⟩, Hk⟩
  subst e0 e1 e2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (View.cover_of_tiled _ S2000x1.size (by rfl))

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => out6_3 (iblk6 V c 0 t) (iblk6 V c 1 t) (iblk6 V c 2 t)
  Φ _ := Pipeline.ΦA spec6 c
  q _ := fullShare
  owed _ := 0

theorem after6_3 (c : Dev nD) (t : Fin cfg6.N) :
    (dat6 V c).after 3 t = out6_3 (iblk6 V c 0 t) (iblk6 V c 1 t) (iblk6 V c 2 t) := by dsimp only [dat6]

theorem body_obligation6 (c : Dev nD) : BodyObligation (dat6 (F := F) V c) (defs₀ (F := F)) Variants.none () Set.univ := fun t => by
  have b : ∀ w : Fin cfg6.W, w ≠ 3 → ∀ d, (dat6 V c).before w t d = (dat6 V c).after w t := by
    intro w hw
    fin_cases w <;> first
      | exact absurd rfl hw
      | exact fun d => ((dat6 V c).before_in_eq_fetched _ rfl (fun _ => rfl) (fun _ _ _ => rfl) (fun _ => rfl) t d).trans rfl
  have a : (dat6 V c).after 3 t = out6_3 ((dat6 V c).after 0 t) ((dat6 V c).after 1 t) ((dat6 V c).after 2 t) := by dsimp only [dat6]
  rw [bigSep_W6, bigSep_W6]
  simp only [b 0 (by decide), b 1 (by decide), b 2 (by decide)]
  show _ ⊢ wp _ _ _ (bodyAt6 t) _
  rw [show (dat6 V c).Φ t.succ = (dat6 V c).Φ t.castSucc from rfl, show (dat6 V c).owesAt () t.succ = (dat6 V c).owesAt () t.castSucc from rfl, a]
  iintro ⟨HΦ, Ho, ⟨%d0, H0⟩, ⟨%d1, H1⟩, ⟨%d2, H2⟩, ⟨%d3, H3⟩⟩
  iapply (sound_kernel6 c _ _ _ _ _ _ _ _ _ ((dat6 V c).after 0 t) ((dat6 V c).after 1 t) ((dat6 V c).after 2 t) _)
  iframe H0 H1 H2
  isplitl [H3]; · iexists _; iexact H3
  iintro ⟨H0, H1, H2, H3⟩
  iframe

end Region6

end Cert.Kernel.Hand
-- ==== Proof.KB.Regs.lean ====
import proofs.«154662_j44117904065163_1_alg».proof.Proof.Gen.Kernel.Regions
import proofs.«154662_j44117904065163_1_alg».proof.Proof.KB.Body0
import proofs.«154662_j44117904065163_1_alg».proof.Proof.KB.Body1
import proofs.«154662_j44117904065163_1_alg».proof.Proof.KB.Body2
import proofs.«154662_j44117904065163_1_alg».proof.Proof.KB.Body3
import proofs.«154662_j44117904065163_1_alg».proof.Proof.KB.Body4
import proofs.«154662_j44117904065163_1_alg».proof.Proof.KB.Body5
import proofs.«154662_j44117904065163_1_alg».proof.Proof.KB.Body6
import Idealize.ShloMosaic.Lib.Pipeline.Frame
import Idealize.ShloMosaic.Lib.Pipeline.Regions
import Idealize.ShloMosaic.Lib.Pipeline.RegionsLoop
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

def pdatsG (E0 E1 E2 E3 E4 E5 E6 : Dev nD → Valuation τ sig (Elt F)) :
    (p : Fin 7) → (c : Dev nD) → Dat τ (Elt F) Unit ℕ (UR sig nD τ) ℕ (Pipeline.pin (pcfgs (F := F)) adm p) c
  | ⟨0, _⟩ => fun c => dat0 (fun c b => E0 c b) c
  | ⟨1, _⟩ => fun c => dat1 (fun c b => E1 c b) c
  | ⟨2, _⟩ => fun c => dat2 (fun c b => E2 c b) c
  | ⟨3, _⟩ => fun c => dat3 (fun c b => E3 c b) c
  | ⟨4, _⟩ => fun c => dat4 (fun c b => E4 c b) c
  | ⟨5, _⟩ => fun c => dat5 (fun c b => E5 c b) c
  | ⟨6, _⟩ => fun c => dat6 (fun c b => E6 c b) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)

section Generic

variable {cfg : Cfg sig Λ₀} {c : Dev nD} (dat : Dat τ (Elt F) Unit ℕ (UR sig nD τ) ℕ cfg c) (t : Fin (cfg.N + 1))

theorem owesAt_intro (h0 : dat.owed t = 0) (hr : dat.recorded t = Set.univ) :
    iprop(∃ W, owes (c : Thread nD τ) (0 : CellTallies nD τ sig Unit) W) ⊢ (dat.owesAt () t : sProp 𝕄) := by
  unfold Pipeline.Dat.owesAt Pipeline.owesWithin Pipeline.Dat.bound; rw [h0, hr]
  iintro ⟨%W, HO⟩; iexists W; isplitr; · ipureintro; exact fun _ _ => Or.inl trivial
  iexact HO
theorem owesAt_elim (h0 : dat.owed t = 0) :
    (dat.owesAt () t : sProp 𝕄) ⊢ iprop(∃ W, owes (c : Thread nD τ) (0 : CellTallies nD τ sig Unit) W) := by
  unfold Pipeline.Dat.owesAt Pipeline.owesWithin; rw [h0]
  iintro ⟨%W, -, HO⟩; iexists W; iexact HO

end Generic

variable {p : Fin 7} (pd : (p : Fin 7) → (c : Dev nD) → Dat τ (Elt F) Unit ℕ (UR sig nD τ) ℕ (Pipeline.pin (pcfgs (F := F)) adm p) c)
  (E Vp : Dev nD → Valuation τ sig (Elt F))

set_option backward.isDefEq.respectTransparency.types false in
-- From every array at E to every array at Vp, when Vp agrees with E off the array of o and holds the final contents there.
def regG (lf : Pipeline.LaunchFacts (nD := nD) (τ := τ) cfgs p)
    (hb : ∀ c, BodyObligation (pd p c) defs₀ 𝒱₀ () Set.univ)
    (hq : ∀ c w, (pd p c).q w = fullShare)
    (ho : ∀ c t, (pd p c).owed t = 0)
    (hr : ∀ c, (pd p c).recorded 0 = Set.univ)
    (hΦ : ∀ c t, (pd p c).Φ t = Pipeline.ΦA (Pipeline.pin (pcfgs (F := F)) adm p).spec c)
    (hA : ∀ c w, (pd p c).A w = E c (Pipeline.arrRef (cfgs p).spec w))
    (hK : IsEmpty (Fin (pcfgs (F := F) p).pre.K))
    (o : Fin (cfgs p).W)
    (hio : ∀ w, w ≠ o → ((cfgs p).win w).isOut = false)
    (hro : ∀ w, w ≠ o → Pipeline.arrRef (cfgs p).spec w ≠ Pipeline.arrRef (cfgs p).spec o)
    (hout : ∀ c, Vp c (Pipeline.arrRef (cfgs p).spec o) = (pd p c).arrAt o (cfgs p).N)
    (hne : ∀ c (b : Ref sig .tc), b ≠ Pipeline.arrRef (cfgs p).spec o → Vp c b = E c b) :
    Pipeline.RegionSeg (pcfgs (F := F)) adm pd () defs₀ 𝒱₀ L lv p where
  win := lf.win.to₀
  block_pos := lf.block_pos
  stage_whole := lf.stage_whole
  K := PEmpty
  osem k := k.elim
  ho := Pipeline.OwnSemFacts.none _
  hbody c := (hb c).loose
  hwaits := Pipeline.hwaits_of_owed_zero _ _ _ _ L lv p ho
  pre c := iprop(StableHlo.held (c : Thread nD τ) (Pipeline.ucRefs τ sig) (E c) ∗ R c)
  post c := iprop(StableHlo.held (c : Thread nD τ) (Pipeline.ucRefs τ sig) (Vp c) ∗ R c)
  X c := iprop(∃ r, prngReg c r)
  Y c := iprop(∃ r, prngReg c r)
  Z c := Pipeline.unscopedRest (Pipeline.pin (pcfgs (F := F)) adm p).spec c (fun b => E c b)
  hentry c := by
    rw [Pipeline.ownSems0_none]
    have hsplit := Pipeline.arrays_of_unscopedBufs (p := p) (pcfgs (F := F)) adm pd lf.win lf.arr_whole c
      ((pd p c).share_full (hq c)) (fun b => E c b) (hA c)
    rw [Pipeline.unscopedBufs_held] at hsplit
    haveI := hK
    iintro ⟨⟨Hub, Hp, HO⟩, -, -⟩
    ihave H := hsplit $$ Hub
    icases H with ⟨Ha, Hrest⟩
    imodintro
    isplitl [Ha]; · iexact Ha
    isplitr; · unfold Pipeline.prefHeld; rw [Finset.univ_eq_empty, BI.bigSep_empty]; iempintro
    isplitl [HO]; · iapply owesAt_intro _ _ (ho c 0) (hr c); iexact HO
    isplitl [Hp]; · iexact Hp
    iexact Hrest
  hin c := by
    rw [hΦ]; unfold Pipeline.ΦA
    iintro ⟨Hp, -, Hr⟩
    isplitl [Hr]; · iexact Hr
    iexact Hp
  hout c := by
    rw [Pipeline.ownSems0_none, hΦ]; unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm
      lf.win lf.arr_whole c pd ((pd p c).share_full (hq c)) (fun b => E c b) (fun b => Vp c b) ((pd p c).arrAt · (cfgs p).N)
      (fun w => if h : w = o then h ▸ (hout c).symm
        else ((pd p c).arrAt_in w (hio w h) _).trans ((hA c w).trans (hne c _ (hro w h)).symm))
      (fun b hb => hne c b fun h => hb (h ▸ Finset.mem_image.mpr ⟨o, Finset.mem_univ _, rfl⟩))
    rw [Pipeline.unscopedBufs_held] at hjoin
    iintro ⟨Ha, HO, HY, Hrest⟩
    imodintro
    isplitl [Ha Hrest]
    · iapply hjoin; isplitl [Ha] <;> iassumption
    isplitl [HY]; · iexact HY
    iapply owesAt_elim _ _ (ho c _); iexact HO

variable (m : (ℓ : Loc nD τ sig) → Buf (Elt F) ℓ) (outs : Outs (F := F))

abbrev pdats : (p : Fin 7) → (c : Dev nD) → Dat τ (Elt F) Unit ℕ (UR sig nD τ) ℕ (Pipeline.pin (pcfgs (F := F)) adm p) c :=
  pdatsG (V1 m) (V3 m outs) (V7 m outs) (V11 m outs) (V13 m outs) (V17 m outs) (V19 m outs)

def reg0 (hout : ∀ c : Dev nD, outs 2 main_v1 c = (dat0 (fun c b => V1 m c b) c).arrAt 3 cfg0.N) :
    Pipeline.RegionSeg (pcfgs (F := F)) adm (pdats m outs) () defs₀ 𝒱₀ L lv 0 :=
  regG (pdats m outs) (V1 m) (V2 m outs) launch0 (fun c => body_obligation0 (fun c b => V1 m c b) c)
    (fun _ _ => rfl) (fun _ _ => rfl) (fun _ => rfl) (fun _ _ => rfl) (fun _ _ => rfl) Fin.isEmpty (3 : Fin 4) (by decide) (by decide)
    (fun c => (Function.update_self _ _ _).trans (hout c)) fun c b h => V2_of m outs c b fun hm => h (List.mem_singleton.mp hm)

def reg1 (hout : ∀ c : Dev nD, outs 4 main_v3 c = (dat1 (fun c b => V3 m outs c b) c).arrAt 3 cfg1.N) :
    Pipeline.RegionSeg (pcfgs (F := F)) adm (pdats m outs) () defs₀ 𝒱₀ L lv 1 :=
  regG (pdats m outs) (V3 m outs) (V4 m outs) launch1 (fun c => body_obligation1 (fun c b => V3 m outs c b) c)
    (fun _ _ => rfl) (fun _ _ => rfl) (fun _ => rfl) (fun _ _ => rfl) (fun _ _ => rfl) Fin.isEmpty (3 : Fin 4) (by decide) (by decide)
    (fun c => (Function.update_self _ _ _).trans (hout c)) fun c b h => V4_of m outs c b fun hm => h (List.mem_singleton.mp hm)

def reg2 (hout : ∀ c : Dev nD, outs 8 main_v36 c = (dat2 (fun c b => V7 m outs c b) c).arrAt 3 cfg2.N) :
    Pipeline.RegionSeg (pcfgs (F := F)) adm (pdats m outs) () defs₀ 𝒱₀ L lv 2 :=
  regG (pdats m outs) (V7 m outs) (V8 m outs) launch2 (fun c => body_obligation2 (fun c b => V7 m outs c b) c)
    (fun _ _ => rfl) (fun _ _ => rfl) (fun _ => rfl) (fun _ _ => rfl) (fun _ _ => rfl) Fin.isEmpty (3 : Fin 4) (by decide) (by decide)
    (fun c => (Function.update_self _ _ _).trans (hout c)) fun c b h => V8_of m outs c b fun hm => h (List.mem_singleton.mp hm)

def reg3 (hout : ∀ c : Dev nD, outs 12 main_v56 c = (dat3 (fun c b => V11 m outs c b) c).arrAt 6 cfg3.N) :
    Pipeline.RegionSeg (pcfgs (F := F)) adm (pdats m outs) () defs₀ 𝒱₀ L lv 3 :=
  regG (pdats m outs) (V11 m outs) (V12 m outs) launch3 (fun c => body_obligation3 (fun c b => V11 m outs c b) c)
    (fun _ _ => rfl) (fun _ _ => rfl) (fun _ => rfl) (fun _ _ => rfl) (fun _ _ => rfl) Fin.isEmpty (6 : Fin 7) (by decide) (by decide)
    (fun c => (Function.update_self _ _ _).trans (hout c)) fun c b h => V12_of m outs c b fun hm => h (List.mem_singleton.mp hm)

def reg4 (hout : ∀ c : Dev nD, outs 14 main_v59 c = (dat4 (fun c b => V13 m outs c b) c).arrAt 3 cfg4.N) :
    Pipeline.RegionSeg (pcfgs (F := F)) adm (pdats m outs) () defs₀ 𝒱₀ L lv 4 :=
  regG (pdats m outs) (V13 m outs) (V14 m outs) launch4 (fun c => body_obligation4 (fun c b => V13 m outs c b) c)
    (fun _ _ => rfl) (fun _ _ => rfl) (fun _ => rfl) (fun _ _ => rfl) (fun _ _ => rfl) Fin.isEmpty (3 : Fin 4) (by decide) (by decide)
    (fun c => (Function.update_self _ _ _).trans (hout c)) fun c b h => V14_of m outs c b fun hm => h (List.mem_singleton.mp hm)

def reg5 (hout : ∀ c : Dev nD, outs 18 main_v79 c = (dat5 (fun c b => V17 m outs c b) c).arrAt 6 cfg5.N) :
    Pipeline.RegionSeg (pcfgs (F := F)) adm (pdats m outs) () defs₀ 𝒱₀ L lv 5 :=
  regG (pdats m outs) (V17 m outs) (V18 m outs) launch5 (fun c => body_obligation5 (fun c b => V17 m outs c b) c)
    (fun _ _ => rfl) (fun _ _ => rfl) (fun _ => rfl) (fun _ _ => rfl) (fun _ _ => rfl) Fin.isEmpty (6 : Fin 7) (by decide) (by decide)
    (fun c => (Function.update_self _ _ _).trans (hout c)) fun c b h => V18_of m outs c b fun hm => h (List.mem_singleton.mp hm)

def reg6 (hout : ∀ c : Dev nD, outs 20 main_v100 c = (dat6 (fun c b => V19 m outs c b) c).arrAt 3 cfg6.N) :
    Pipeline.RegionSeg (pcfgs (F := F)) adm (pdats m outs) () defs₀ 𝒱₀ L lv 6 :=
  regG (pdats m outs) (V19 m outs) (V20 m outs) launch6 (fun c => body_obligation6 (fun c b => V19 m outs c b) c)
    (fun _ _ => rfl) (fun _ _ => rfl) (fun _ => rfl) (fun _ _ => rfl) (fun _ _ => rfl) Fin.isEmpty (3 : Fin 4) (by decide) (by decide)
    (fun c => (Function.update_self _ _ _).trans (hout c)) fun c b h => V20_of m outs c b fun hm => h (List.mem_singleton.mp hm)

end Cert.Kernel.Hand

end
-- ==== Proof.KB.Run.lean ====
import proofs.«154662_j44117904065163_1_alg».proof.Proof.KB.RunCond
import proofs.«154662_j44117904065163_1_alg».proof.Proof.KB.Regs
import Idealize.ShloMosaic.Lib.Pipeline.Frame
import Idealize.ShloMosaic.Lib.Pipeline.Regions
import Idealize.ShloMosaic.Lib.Pipeline.RegionsLoop
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

def W2 (c : Dev nD) : Valuation τ sig (Elt F) := Function.update (V1 m c) main_v1 ((dat0 (fun c b => V1 m c b) c).arrAt 3 cfg0.N)
def W3 (c : Dev nD) : Valuation τ sig (Elt F) := StableHlo.after hostOps1 (W2 m c)
def W4 (c : Dev nD) : Valuation τ sig (Elt F) := Function.update (W3 m c) main_v3 ((dat1 (fun c b => W3 m c b) c).arrAt 3 cfg1.N)
def W7 (c : Dev nD) : Valuation τ sig (Elt F) := StableHlo.after hostOps2_2 (StableHlo.after hostOps2_1 (StableHlo.after hostOps2 (W4 m c)))
def W8 (c : Dev nD) : Valuation τ sig (Elt F) := Function.update (W7 m c) main_v36 ((dat2 (fun c b => W7 m c b) c).arrAt 3 cfg2.N)
def W11 (c : Dev nD) : Valuation τ sig (Elt F) := StableHlo.after hostOps3_2 (StableHlo.after hostOps3_1 (StableHlo.after hostOps3 (W8 m c)))
def W12 (c : Dev nD) : Valuation τ sig (Elt F) := Function.update (W11 m c) main_v56 ((dat3 (fun c b => W11 m c b) c).arrAt 6 cfg3.N)
def W13 (c : Dev nD) : Valuation τ sig (Elt F) := StableHlo.after hostOps4 (W12 m c)
def W14 (c : Dev nD) : Valuation τ sig (Elt F) := Function.update (W13 m c) main_v59 ((dat4 (fun c b => W13 m c b) c).arrAt 3 cfg4.N)
def W17 (c : Dev nD) : Valuation τ sig (Elt F) := StableHlo.after hostOps5_2 (StableHlo.after hostOps5_1 (StableHlo.after hostOps5 (W14 m c)))
def W18 (c : Dev nD) : Valuation τ sig (Elt F) := Function.update (W17 m c) main_v79 ((dat5 (fun c b => W17 m c b) c).arrAt 6 cfg5.N)
def W19 (c : Dev nD) : Valuation τ sig (Elt F) := StableHlo.after hostOps6 (W18 m c)
def W20 (c : Dev nD) : Valuation τ sig (Elt F) := Function.update (W19 m c) main_v100 ((dat6 (fun c b => W19 m c b) c).arrAt 3 cfg6.N)

def outs : Outs (F := F) := fun J r c => match J with
  | 2 => W2 m c r
  | 4 => W4 m c r
  | 8 => W8 m c r
  | 12 => W12 m c r
  | 14 => W14 m c r
  | 18 => W18 m c r
  | 20 => W20 m c r
  | _ => V0 m c r

theorem outs_2 (c : Dev nD) : outs m 2 main_v1 c = (dat0 (fun c b => V1 m c b) c).arrAt 3 cfg0.N := by
  show W2 m c main_v1 = _; unfold W2; exact Function.update_self _ _ _
theorem V3_eq : V3 m (outs m) = W3 m := funext fun c => by
  unfold W3 W2 V3 V2; rw [outs_2]
theorem outs_4 (c : Dev nD) : outs m 4 main_v3 c = (dat1 (fun c b => V3 m (outs m) c b) c).arrAt 3 cfg1.N := by
  rw [V3_eq]; show W4 m c main_v3 = _; unfold W4; exact Function.update_self _ _ _
theorem V7_eq : V7 m (outs m) = W7 m := funext fun c => by
  unfold W7 W4 V7 V6 V5 V4; rw [outs_4, V3_eq]
theorem outs_8 (c : Dev nD) : outs m 8 main_v36 c = (dat2 (fun c b => V7 m (outs m) c b) c).arrAt 3 cfg2.N := by
  rw [V7_eq]; show W8 m c main_v36 = _; unfold W8; exact Function.update_self _ _ _
theorem V11_eq : V11 m (outs m) = W11 m := funext fun c => by
  unfold W11 W8 V11 V10 V9 V8; rw [outs_8, V7_eq]
theorem outs_12 (c : Dev nD) : outs m 12 main_v56 c = (dat3 (fun c b => V11 m (outs m) c b) c).arrAt 6 cfg3.N := by
  rw [V11_eq]; show W12 m c main_v56 = _; unfold W12; exact Function.update_self _ _ _
theorem V13_eq : V13 m (outs m) = W13 m := funext fun c => by
  unfold W13 W12 V13 V12; rw [outs_12, V11_eq]
theorem outs_14 (c : Dev nD) : outs m 14 main_v59 c = (dat4 (fun c b => V13 m (outs m) c b) c).arrAt 3 cfg4.N := by
  rw [V13_eq]; show W14 m c main_v59 = _; unfold W14; exact Function.update_self _ _ _
theorem V17_eq : V17 m (outs m) = W17 m := funext fun c => by
  unfold W17 W14 V17 V16 V15 V14; rw [outs_14, V13_eq]
theorem outs_18 (c : Dev nD) : outs m 18 main_v79 c = (dat5 (fun c b => V17 m (outs m) c b) c).arrAt 6 cfg5.N := by
  rw [V17_eq]; show W18 m c main_v79 = _; unfold W18; exact Function.update_self _ _ _
theorem V19_eq : V19 m (outs m) = W19 m := funext fun c => by
  unfold W19 W18 V19 V18; rw [outs_18, V17_eq]
theorem outs_20 (c : Dev nD) : outs m 20 main_v100 c = (dat6 (fun c b => V19 m (outs m) c b) c).arrAt 3 cfg6.N := by
  rw [V19_eq]; show W20 m c main_v100 = _; unfold W20; exact Function.update_self _ _ _

set_option backward.isDefEq.respectTransparency.types false in

/-- Every weakly fair execution ends with each unscoped buffer at the last valuation. -/
theorem run (ρ : Dev nD → PrngReg) :
    θ_run defs (onTc (τ := τ) (main (F := F))) ⟨m, fun _ => 0, ρ⟩ (fun r => ∀ c : Dev nD, ∀ b : Ref sig .tc,
      ¬ (Proc.devRef .tc b : DevRef τ sig).isScoped → r.2.mem ((c.tc : Thread nD τ).loc b) = V21 m (outs m) c b) :=
  run_cond m (Ix := Unit) (U := UR sig nD τ) (Lvl := ℕ) emb₁ () 𝒱₀ L lv (fun _ _ => rfl) ρ (outs m) (pdats m (outs m))
    0 (fun _ => iprop(emp)) (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (fun _ c => R c)
    (Pipeline.initEach L lv fun c => by
      iintro ⟨⟨-, HO, -, Hp, -⟩, -⟩
      imodintro
      isplitl [Hp]; · iexists _; iexact Hp
      iexists ∅; iexact HO)
    (fun c => by iintro ⟨-, HO⟩; iexact HO)
    (reg0 m (outs m) (outs_2 m)) (fun _ => .rfl) (fun _ => .rfl)
    (reg1 m (outs m) (outs_4 m)) (fun _ => .rfl) (fun _ => .rfl)
    (reg2 m (outs m) (outs_8 m)) (fun _ => .rfl) (fun _ => .rfl)
    (reg3 m (outs m) (outs_12 m)) (fun _ => .rfl) (fun _ => .rfl)
    (reg4 m (outs m) (outs_14 m)) (fun _ => .rfl) (fun _ => .rfl)
    (reg5 m (outs m) (outs_18 m)) (fun _ => .rfl) (fun _ => .rfl)
    (reg6 m (outs m) (outs_20 m)) (fun _ => .rfl) (fun _ => .rfl)

/-- No item writes an argument, so a memory at the last valuation holds every argument as launched. -/
theorem kept (c : Dev nD) (mem : (ℓ : Loc nD τ sig) → Buf (Elt F) ℓ)
    (h : ∀ b : Ref sig .tc, ¬ (Proc.devRef .tc b : DevRef τ sig).isScoped → mem ((c.tc : Thread nD τ).loc b) = V21 m (outs m) c b) :
    mem ((c.tc : Thread nD τ).loc main_arg0) = m ((c.tc : Thread nD τ).loc main_arg0)
    ∧ mem ((c.tc : Thread nD τ).loc main_arg1) = m ((c.tc : Thread nD τ).loc main_arg1)
    ∧ mem ((c.tc : Thread nD τ).loc main_arg2) = m ((c.tc : Thread nD τ).loc main_arg2)
    ∧ mem ((c.tc : Thread nD τ).loc main_arg3) = m ((c.tc : Thread nD τ).loc main_arg3)
    ∧ mem ((c.tc : Thread nD τ).loc main_arg4) = m ((c.tc : Thread nD τ).loc main_arg4)
    ∧ mem ((c.tc : Thread nD τ).loc main_arg5) = m ((c.tc : Thread nD τ).loc main_arg5)
    ∧ mem ((c.tc : Thread nD τ).loc main_arg6) = m ((c.tc : Thread nD τ).loc main_arg6)
    ∧ mem ((c.tc : Thread nD τ).loc main_arg7) = m ((c.tc : Thread nD τ).loc main_arg7)
    ∧ mem ((c.tc : Thread nD τ).loc main_arg8) = m ((c.tc : Thread nD τ).loc main_arg8)
    ∧ mem ((c.tc : Thread nD τ).loc main_arg9) = m ((c.tc : Thread nD τ).loc main_arg9)
    ∧ mem ((c.tc : Thread nD τ).loc main_arg10) = m ((c.tc : Thread nD τ).loc main_arg10)
    ∧ mem ((c.tc : Thread nD τ).loc main_arg11) = m ((c.tc : Thread nD τ).loc main_arg11)
    ∧ mem ((c.tc : Thread nD τ).loc main_arg12) = m ((c.tc : Thread nD τ).loc main_arg12)
    ∧ mem ((c.tc : Thread nD τ).loc main_arg13) = m ((c.tc : Thread nD τ).loc main_arg13)
    ∧ mem ((c.tc : Thread nD τ).loc main_arg14) = m ((c.tc : Thread nD τ).loc main_arg14)
    ∧ mem ((c.tc : Thread nD τ).loc main_arg15) = m ((c.tc : Thread nD τ).loc main_arg15)
    ∧ mem ((c.tc : Thread nD τ).loc main_arg16) = m ((c.tc : Thread nD τ).loc main_arg16)
    ∧ mem ((c.tc : Thread nD τ).loc main_arg17) = m ((c.tc : Thread nD τ).loc main_arg17)
    ∧ mem ((c.tc : Thread nD τ).loc main_arg18) = m ((c.tc : Thread nD τ).loc main_arg18)
    ∧ mem ((c.tc : Thread nD τ).loc main_arg19) = m ((c.tc : Thread nD τ).loc main_arg19)
    ∧ mem ((c.tc : Thread nD τ).loc main_arg20) = m ((c.tc : Thread nD τ).loc main_arg20)
    ∧ mem ((c.tc : Thread nD τ).loc main_arg21) = m ((c.tc : Thread nD τ).loc main_arg21)
    ∧ mem ((c.tc : Thread nD τ).loc main_arg22) = m ((c.tc : Thread nD τ).loc main_arg22)
    ∧ mem ((c.tc : Thread nD τ).loc main_arg23) = m ((c.tc : Thread nD τ).loc main_arg23) :=
  ⟨(h _ (by decide)).trans (V21_main_arg0 m _ c),
    (h _ (by decide)).trans (V21_main_arg1 m _ c),
    (h _ (by decide)).trans (V21_main_arg2 m _ c),
    (h _ (by decide)).trans (V21_main_arg3 m _ c),
    (h _ (by decide)).trans (V21_main_arg4 m _ c),
    (h _ (by decide)).trans (V21_main_arg5 m _ c),
    (h _ (by decide)).trans (V21_main_arg6 m _ c),
    (h _ (by decide)).trans (V21_main_arg7 m _ c),
    (h _ (by decide)).trans (V21_main_arg8 m _ c),
    (h _ (by decide)).trans (V21_main_arg9 m _ c),
    (h _ (by decide)).trans (V21_main_arg10 m _ c),
    (h _ (by decide)).trans (V21_main_arg11 m _ c),
    (h _ (by decide)).trans (V21_main_arg12 m _ c),
    (h _ (by decide)).trans (V21_main_arg13 m _ c),
    (h _ (by decide)).trans (V21_main_arg14 m _ c),
    (h _ (by decide)).trans (V21_main_arg15 m _ c),
    (h _ (by decide)).trans (V21_main_arg16 m _ c),
    (h _ (by decide)).trans (V21_main_arg17 m _ c),
    (h _ (by decide)).trans (V21_main_arg18 m _ c),
    (h _ (by decide)).trans (V21_main_arg19 m _ c),
    (h _ (by decide)).trans (V21_main_arg20 m _ c),
    (h _ (by decide)).trans (V21_main_arg21 m _ c),
    (h _ (by decide)).trans (V21_main_arg22 m _ c),
    (h _ (by decide)).trans (V21_main_arg23 m _ c)⟩

end Cert.Kernel.Hand

end
-- ==== Proof.Ref.Fns.lean ====
import proofs.«154662_j44117904065163_1_alg».proof.Proof.GlueR
import Idealize.ShloMosaic.Lib.StableHlo.Run

noncomputable section

namespace Cert.ReferenceIdeal.Hand

open Idealize.ShloMosaic Idealize.SL.Sem
open Cert.ReferenceIdeal Cert.Stg

variable {F : FTy → Type} [FloatOps F] [Cert.ReferenceIdeal.Facts]
open Cert.ReferenceIdeal.Facts₀ Cert.ReferenceIdeal.Facts

def catIx (a : T (F := F) S800000 .i32) (b : T (F := F) S50000 .i32) : T (F := F) S850000 .i32 :=
  concatenate S850000 0 [⟨S800000, a⟩, ⟨S50000, b⟩] concatenates_S800000_S50000_S850000_d0

def cat3 (a b : T (F := F) S200000x128 .f32) (d : T (F := F) S200000x16 .f32) : T (F := F) S200000x272 .f32 :=
  concatenate S200000x272 1 [⟨S200000x128, a⟩, ⟨S200000x128, b⟩, ⟨S200000x16, d⟩]
    concatenates_S200000x128_S200000x128_S200000x16_S200000x272_d1

-- operations that write, one by one, exactly the references listed in `W` write only references of `W`
theorem writes_of {Val : EltTy → Type} {τ : Topo} {sig : RefSig} :
    ∀ {l : List (HloOp τ sig Val)} {W : List (Ref sig .tc)},
      List.Forall₂ (fun op y => op.writes = {Proc.devRef .tc y}) l W →
      l.Forall fun op => op.writes ⊆ (W.map (Proc.devRef (τ := τ) .tc)).toFinset
  | _, _, .nil => trivial
  | _, _, .cons h t => (List.forall_cons _ _ _).mpr ⟨by
      rw [h, Finset.singleton_subset_iff, List.mem_toFinset]; exact List.mem_map_of_mem List.mem_cons_self,
    (writes_of t).imp fun _ hs => hs.trans fun _ hb => by
      rw [List.mem_toFinset] at hb ⊢; exact List.map_cons ▸ List.mem_cons_of_mem _ hb⟩

end Cert.ReferenceIdeal.Hand

end
-- ==== Proof.Ref.Ops0.lean ====
import proofs.«154662_j44117904065163_1_alg».proof.Proof.Ref.Fns

noncomputable section

namespace Cert.ReferenceIdeal.Hand

open Cert.ReferenceIdeal Idealize.ShloMosaic Idealize.ShloMosaic.TcCoe Idealize.SL.Sem Idealize.ShloMosaic.StableHlo

variable {F : FTy → Type} [FloatOps F] [Cert.ReferenceIdeal.Facts]
open Cert.ReferenceIdeal.Facts₀ Cert.ReferenceIdeal.Facts

abbrev ops0 : List (HloOp τ sig (Elt F)) :=
  [ binary main_arg0 main_arg6 main_v0 (Host.dotGeneral dot_S50000x256_S256x256_S50000x256_1_0_0_1_n_n none),
    unary main_arg7 main_v1 (broadcastInDim S1x256 ![1] bcast_S256_S1x256_1),
    unary main_v1 main_v2 (broadcastInDim S50000x256 ![0, 1] bcast_S1x256_S50000x256_0_1),
    binary main_v0 main_v2 main_v3 addf,
    nullary main_cst (constant S_ .f32 0x3C23D70A#32),
    TRef.nullary main_call0.cst (constant S_ .f32 0x00000000#32),
    TRef.unary main_call0.cst main_call0.v0 (broadcastInDim S50000x256 ![] bcast_S_S50000x256),
    TRef.binary (.of main_v3) main_call0.v0 main_call0.v1 (cmpf .oge),
    TRef.unary (.of main_cst) main_call0.v2 id,
    TRef.unary main_call0.v2 main_call0.v3 (broadcastInDim S50000x256 ![] bcast_S_S50000x256),
    TRef.binary main_call0.v3 (.of main_v3) main_call0.v4 mulf,
    TRef.ternary main_call0.v1 (.of main_v3) main_call0.v4 main_call0.call0.v0 select,
    binary main_v4 main_arg8 main_v5 (Host.dotGeneral dot_S50000x256_S256x128_S50000x128_1_0_0_1_n_n none),
    unary main_arg9 main_v6 (broadcastInDim S1x128 ![1] bcast_S128_S1x128_1),
    unary main_v6 main_v7 (broadcastInDim S50000x128 ![0, 1] bcast_S1x128_S50000x128_0_1),
    binary main_v5 main_v7 main_v8 addf,
    nullary main_cst_0 (constant S_ .f32 0x3C23D70A#32),
    TRef.nullary main_call1.cst (constant S_ .f32 0x00000000#32),
    TRef.unary main_call1.cst main_call1.v0 (broadcastInDim S50000x128 ![] bcast_S_S50000x128),
    TRef.binary (.of main_v8) main_call1.v0 main_call1.v1 (cmpf .oge),
    TRef.unary (.of main_cst_0) main_call1.v2 id,
    TRef.unary main_call1.v2 main_call1.v3 (broadcastInDim S50000x128 ![] bcast_S_S50000x128),
    TRef.binary main_call1.v3 (.of main_v8) main_call1.v4 mulf,
    TRef.ternary main_call1.v1 (.of main_v8) main_call1.v4 main_call1.call0.v0 select,
    unary main_arg1 main_v10 (extractStridedSlice S1x800000 ![0, 0] · slices_S2x800000_S1x800000_0_0),
    reshape main_v10 main_v11 rfl shapeCasts_S1x800000_S800000,
    unary main_arg1 main_v12 (extractStridedSlice S1x800000 ![1, 0] · slices_S2x800000_S1x800000_1_0),
    reshape main_v12 main_v13 rfl shapeCasts_S1x800000_S800000,
    nullary main_v14 (iotaInDim S50000 32 0),
    binary main_v11 main_v14 main_v15 catIx,
    binary main_v13 main_v14 main_v16 catIx,
    nullary main_cst_1 (constant S_ .f32 0x3F800000#32),
    unary main_cst_1 main_v17 (broadcastInDim S850000 ![] bcast_S_S850000),
    nullary main_cst_2 (constant S_ .f32 0x00000000#32),
    unary main_cst_2 main_v18 (broadcastInDim S50000 ![] bcast_S_S50000),
    unary main_v16 main_v19 (broadcastInDim S850000x1 ![0] bcast_S850000_S850000x1_0),
    ternary main_v18 main_v19 main_v17 main_v20 (Host.scatterAdd scatter_S50000_S850000x1_S850000_n_0_0_1),
    nullary main_cst_3 (constant S_ .f32 0x00000000#32),
    unary main_cst_3 main_v21 (broadcastInDim S50000 ![] bcast_S_S50000),
    binary main_v20 main_v21 main_v22 (cmpf .ogt),
    unary main_v20 main_v23 Host.rsqrt,
    nullary main_cst_4 (constant S_ .f32 0x00000000#32),
    TRef.unary (.of main_cst_4) main_call2.v0 id,
    TRef.unary main_call2.v0 main_call2.v1 (broadcastInDim S50000 ![] bcast_S_S50000),
    TRef.ternary (.of main_v22) (.of main_v23) main_call2.v1 main_call2.v2 select,
    nullary main_c (constantI S_ 32 0#32),
    unary main_c main_v25 (broadcastInDim S850000 ![] bcast_S_S850000),
    binary main_v15 main_v25 main_v26 (cmpi .slt),
    nullary main_c_5 (constantI S_ 32 50000#32),
    unary main_c_5 main_v27 (broadcastInDim S850000 ![] bcast_S_S850000),
    binary main_v15 main_v27 main_v28 addi,
    ternary main_v26 main_v28 main_v15 main_v29 select,
    unary main_v29 main_v30 (broadcastInDim S850000x1 ![0] bcast_S850000_S850000x1_0),
    binary main_v24 main_v30 main_v31 (Host.gather gather_S50000_S850000x1_S850000_n_0_n_n_0_1_1),
    nullary main_c_6 (constantI S_ 32 0#32),
    unary main_c_6 main_v32 (broadcastInDim S850000 ![] bcast_S_S850000),
    binary main_v16 main_v32 main_v33 (cmpi .slt),
    nullary main_c_7 (constantI S_ 32 50000#32),
    unary main_c_7 main_v34 (broadcastInDim S850000 ![] bcast_S_S850000),
    binary main_v16 main_v34 main_v35 addi,
    ternary main_v33 main_v35 main_v16 main_v36 select,
    unary main_v36 main_v37 (broadcastInDim S850000x1 ![0] bcast_S850000_S850000x1_0),
    binary main_v24 main_v37 main_v38 (Host.gather gather_S50000_S850000x1_S850000_n_0_n_n_0_1_1),
    binary main_v31 main_v38 main_v39 mulf,
    binary main_v9 main_arg10 main_v40 (Host.dotGeneral dot_S50000x128_S128x256_S50000x256_1_0_0_1_n_n none),
    nullary main_c_8 (constantI S_ 32 0#32),
    unary main_c_8 main_v41 (broadcastInDim S850000 ![] bcast_S_S850000),
    binary main_v15 main_v41 main_v42 (cmpi .slt),
    nullary main_c_9 (constantI S_ 32 50000#32),
    unary main_c_9 main_v43 (broadcastInDim S850000 ![] bcast_S_S850000),
    binary main_v15 main_v43 main_v44 addi,
    ternary main_v42 main_v44 main_v15 main_v45 select,
    unary main_v45 main_v46 (broadcastInDim S850000x1 ![0] bcast_S850000_S850000x1_0),
    binary main_v40 main_v46 main_v47 (Host.gather gather_S50000x256_S850000x1_S850000x256_1_0_n_n_0_1_1256) ]

theorem part0_eq (c : Dev nD) : main_part0 (F := F) c = seq ops0 := rfl

theorem ops0_sub : (ops0 : List (HloOp τ sig (Elt F))).Forall fun op => op.bufs ⊆ tcRefs τ sig := by
  simp only [List.forall_cons, List.Forall, nullary_bufs_sub, unary_bufs_sub, binary_bufs_sub, ternary_bufs_sub, reshape_bufs_sub, and_self]

theorem ops0_fresh : ∀ op ∈ (ops0 : List (HloOp τ sig (Elt F))), op.fresh = ∅ := by
  intro _ h; (repeat (cases h with | head => rfl | tail _ h => ?_)); exact nomatch h

abbrev ops0_W : List (Ref sig .tc) := [main_v0, main_v1, main_v2, main_v3, main_cst, main_call0_cst, main_call0_v0, main_call0_v1, main_call0_v2, main_call0_v3, main_call0_v4, main_v4, main_v5, main_v6, main_v7, main_v8, main_cst_0, main_call1_cst, main_call1_v0, main_call1_v1, main_call1_v2, main_call1_v3, main_call1_v4, main_v9, main_v10, main_v11, main_v12, main_v13, main_v14, main_v15, main_v16, main_cst_1, main_v17, main_cst_2, main_v18, main_v19, main_v20, main_cst_3, main_v21, main_v22, main_v23, main_cst_4, main_call2_v0, main_call2_v1, main_v24, main_c, main_v25, main_v26, main_c_5, main_v27, main_v28, main_v29, main_v30, main_v31, main_c_6, main_v32, main_v33, main_c_7, main_v34, main_v35, main_v36, main_v37, main_v38, main_v39, main_v40, main_c_8, main_v41, main_v42, main_c_9, main_v43, main_v44, main_v45, main_v46, main_v47]

theorem ops0_writes : (ops0 : List (HloOp τ sig (Elt F))).Forall fun op => op.writes ⊆ (ops0_W.map (Proc.devRef (τ := τ) .tc)).toFinset :=
  writes_of (by repeat constructor)

end Cert.ReferenceIdeal.Hand

end
-- ==== Proof.Ref.Ops1.lean ====
import proofs.«154662_j44117904065163_1_alg».proof.Proof.Ref.Fns

noncomputable section

namespace Cert.ReferenceIdeal.Hand

open Cert.ReferenceIdeal Idealize.ShloMosaic Idealize.ShloMosaic.TcCoe Idealize.SL.Sem Idealize.ShloMosaic.StableHlo

variable {F : FTy → Type} [FloatOps F] [Cert.ReferenceIdeal.Facts]
open Cert.ReferenceIdeal.Facts₀ Cert.ReferenceIdeal.Facts

abbrev ops1 : List (HloOp τ sig (Elt F)) :=
  [ unary main_v39 main_v48 (broadcastInDim S850000x1 ![0] bcast_S850000_S850000x1_0),
    unary main_v48 main_v49 (broadcastInDim S850000x256 ![0, 1] bcast_S850000x1_S850000x256_0_1),
    binary main_v47 main_v49 main_v50 mulf,
    nullary main_cst_10 (constant S_ .f32 0x00000000#32),
    unary main_cst_10 main_v51 (broadcastInDim S50000x256 ![] bcast_S_S50000x256),
    unary main_v16 main_v52 (broadcastInDim S850000x1 ![0] bcast_S850000_S850000x1_0),
    ternary main_v51 main_v52 main_v50 main_v53 (Host.scatterAdd scatter_S50000x256_S850000x1_S850000x256_1_0_0_1),
    unary main_arg11 main_v54 (broadcastInDim S1x256 ![1] bcast_S256_S1x256_1),
    unary main_v54 main_v55 (broadcastInDim S50000x256 ![0, 1] bcast_S1x256_S50000x256_0_1),
    binary main_v53 main_v55 main_v56 addf,
    nullary main_cst_11 (constant S_ .f32 0x3C23D70A#32),
    TRef.nullary main_call3.cst (constant S_ .f32 0x00000000#32),
    TRef.unary main_call3.cst main_call3.v0 (broadcastInDim S50000x256 ![] bcast_S_S50000x256),
    TRef.binary (.of main_v56) main_call3.v0 main_call3.v1 (cmpf .oge),
    TRef.unary (.of main_cst_11) main_call3.v2 id,
    TRef.unary main_call3.v2 main_call3.v3 (broadcastInDim S50000x256 ![] bcast_S_S50000x256),
    TRef.binary main_call3.v3 (.of main_v56) main_call3.v4 mulf,
    TRef.ternary main_call3.v1 (.of main_v56) main_call3.v4 main_call3.call0.v0 select,
    binary main_v57 main_arg14 main_v58 (Host.dotGeneral dot_S50000x256_S256x768_S50000x768_1_0_0_1_n_n none),
    unary main_arg16 main_v59 (broadcastInDim S1x768 ![1] bcast_S768_S1x768_1),
    unary main_v59 main_v60 (broadcastInDim S50000x768 ![0, 1] bcast_S1x768_S50000x768_0_1),
    binary main_v58 main_v60 main_v61 addf,
    binary main_arg4 main_arg15 main_v62 (Host.dotGeneral dot_S50000x256_S256x768_S50000x768_1_0_0_1_n_n none),
    unary main_arg17 main_v63 (broadcastInDim S1x768 ![1] bcast_S768_S1x768_1),
    unary main_v63 main_v64 (broadcastInDim S50000x768 ![0, 1] bcast_S1x768_S50000x768_0_1),
    binary main_v62 main_v64 main_v65 addf,
    unary main_v61 main_v66 (extractStridedSlice S50000x256 ![0, 0] · slices_S50000x768_S50000x256_0_0),
    unary main_v61 main_v67 (extractStridedSlice S50000x256 ![0, 256] · slices_S50000x768_S50000x256_0_256),
    unary main_v61 main_v68 (extractStridedSlice S50000x256 ![0, 512] · slices_S50000x768_S50000x256_0_512),
    unary main_v65 main_v69 (extractStridedSlice S50000x256 ![0, 0] · slices_S50000x768_S50000x256_0_0),
    unary main_v65 main_v70 (extractStridedSlice S50000x256 ![0, 256] · slices_S50000x768_S50000x256_0_256),
    unary main_v65 main_v71 (extractStridedSlice S50000x256 ![0, 512] · slices_S50000x768_S50000x256_0_512),
    binary main_v66 main_v69 main_v72 addf,
    unary main_v72 main_v73 Host.negf,
    unary main_v73 main_v74 Host.exp,
    nullary main_cst_12 (constant S_ .f32 0x3F800000#32),
    unary main_cst_12 main_v75 (broadcastInDim S50000x256 ![] bcast_S_S50000x256),
    binary main_v75 main_v74 main_v76 addf,
    nullary main_cst_13 (constant S_ .f32 0x3F800000#32),
    unary main_cst_13 main_v77 (broadcastInDim S50000x256 ![] bcast_S_S50000x256),
    binary main_v77 main_v76 main_v78 Host.divf,
    binary main_v67 main_v70 main_v79 addf,
    unary main_v79 main_v80 Host.negf,
    unary main_v80 main_v81 Host.exp,
    nullary main_cst_14 (constant S_ .f32 0x3F800000#32),
    unary main_cst_14 main_v82 (broadcastInDim S50000x256 ![] bcast_S_S50000x256),
    binary main_v82 main_v81 main_v83 addf,
    nullary main_cst_15 (constant S_ .f32 0x3F800000#32),
    unary main_cst_15 main_v84 (broadcastInDim S50000x256 ![] bcast_S_S50000x256),
    binary main_v84 main_v83 main_v85 Host.divf,
    binary main_v78 main_v71 main_v86 mulf,
    binary main_v68 main_v86 main_v87 addf,
    unary main_v87 main_v88 Host.tanh,
    nullary main_cst_16 (constant S_ .f32 0x3F800000#32),
    unary main_cst_16 main_v89 (broadcastInDim S50000x256 ![] bcast_S_S50000x256),
    binary main_v89 main_v85 main_v90 subf,
    binary main_v90 main_v88 main_v91 mulf,
    binary main_v85 main_arg4 main_v92 mulf,
    binary main_v91 main_v92 main_v93 addf,
    unary main_arg1 main_v94 (extractStridedSlice S1x800000 ![0, 0] · slices_S2x800000_S1x800000_0_0),
    reshape main_v94 main_v95 rfl shapeCasts_S1x800000_S800000,
    unary main_arg1 main_v96 (extractStridedSlice S1x800000 ![1, 0] · slices_S2x800000_S1x800000_1_0),
    reshape main_v96 main_v97 rfl shapeCasts_S1x800000_S800000,
    nullary main_v98 (iotaInDim S50000 32 0),
    binary main_v95 main_v98 main_v99 catIx,
    binary main_v97 main_v98 main_v100 catIx ]

theorem part1_eq (c : Dev nD) : main_part1 (F := F) c = seq ops1 := rfl

theorem ops1_sub : (ops1 : List (HloOp τ sig (Elt F))).Forall fun op => op.bufs ⊆ tcRefs τ sig := by
  simp only [List.forall_cons, List.Forall, nullary_bufs_sub, unary_bufs_sub, binary_bufs_sub, ternary_bufs_sub, reshape_bufs_sub, and_self]

theorem ops1_fresh : ∀ op ∈ (ops1 : List (HloOp τ sig (Elt F))), op.fresh = ∅ := by
  intro _ h; (repeat (cases h with | head => rfl | tail _ h => ?_)); exact nomatch h

abbrev ops1_W : List (Ref sig .tc) := [main_v48, main_v49, main_v50, main_cst_10, main_v51, main_v52, main_v53, main_v54, main_v55, main_v56, main_cst_11, main_call3_cst, main_call3_v0, main_call3_v1, main_call3_v2, main_call3_v3, main_call3_v4, main_v57, main_v58, main_v59, main_v60, main_v61, main_v62, main_v63, main_v64, main_v65, main_v66, main_v67, main_v68, main_v69, main_v70, main_v71, main_v72, main_v73, main_v74, main_cst_12, main_v75, main_v76, main_cst_13, main_v77, main_v78, main_v79, main_v80, main_v81, main_cst_14, main_v82, main_v83, main_cst_15, main_v84, main_v85, main_v86, main_v87, main_v88, main_cst_16, main_v89, main_v90, main_v91, main_v92, main_v93, main_v94, main_v95, main_v96, main_v97, main_v98, main_v99, main_v100]

theorem ops1_writes : (ops1 : List (HloOp τ sig (Elt F))).Forall fun op => op.writes ⊆ (ops1_W.map (Proc.devRef (τ := τ) .tc)).toFinset :=
  writes_of (by repeat constructor)

end Cert.ReferenceIdeal.Hand

end
-- ==== Proof.Ref.Ops2.lean ====
import proofs.«154662_j44117904065163_1_alg».proof.Proof.Ref.Fns

noncomputable section

namespace Cert.ReferenceIdeal.Hand

open Cert.ReferenceIdeal Idealize.ShloMosaic Idealize.ShloMosaic.TcCoe Idealize.SL.Sem Idealize.ShloMosaic.StableHlo

variable {F : FTy → Type} [FloatOps F] [Cert.ReferenceIdeal.Facts]
open Cert.ReferenceIdeal.Facts₀ Cert.ReferenceIdeal.Facts

abbrev ops2 : List (HloOp τ sig (Elt F)) :=
  [ nullary main_cst_17 (constant S_ .f32 0x3F800000#32),
    unary main_cst_17 main_v101 (broadcastInDim S850000 ![] bcast_S_S850000),
    nullary main_cst_18 (constant S_ .f32 0x00000000#32),
    unary main_cst_18 main_v102 (broadcastInDim S50000 ![] bcast_S_S50000),
    unary main_v100 main_v103 (broadcastInDim S850000x1 ![0] bcast_S850000_S850000x1_0),
    ternary main_v102 main_v103 main_v101 main_v104 (Host.scatterAdd scatter_S50000_S850000x1_S850000_n_0_0_1),
    nullary main_cst_19 (constant S_ .f32 0x00000000#32),
    unary main_cst_19 main_v105 (broadcastInDim S50000 ![] bcast_S_S50000),
    binary main_v104 main_v105 main_v106 (cmpf .ogt),
    unary main_v104 main_v107 Host.rsqrt,
    nullary main_cst_20 (constant S_ .f32 0x00000000#32),
    TRef.unary (.of main_cst_20) main_call4.v0 id,
    TRef.unary main_call4.v0 main_call4.v1 (broadcastInDim S50000 ![] bcast_S_S50000),
    TRef.ternary (.of main_v106) (.of main_v107) main_call4.v1 main_call4.v2 select,
    nullary main_c_21 (constantI S_ 32 0#32),
    unary main_c_21 main_v109 (broadcastInDim S850000 ![] bcast_S_S850000),
    binary main_v99 main_v109 main_v110 (cmpi .slt),
    nullary main_c_22 (constantI S_ 32 50000#32),
    unary main_c_22 main_v111 (broadcastInDim S850000 ![] bcast_S_S850000),
    binary main_v99 main_v111 main_v112 addi,
    ternary main_v110 main_v112 main_v99 main_v113 select,
    unary main_v113 main_v114 (broadcastInDim S850000x1 ![0] bcast_S850000_S850000x1_0),
    binary main_v108 main_v114 main_v115 (Host.gather gather_S50000_S850000x1_S850000_n_0_n_n_0_1_1),
    nullary main_c_23 (constantI S_ 32 0#32),
    unary main_c_23 main_v116 (broadcastInDim S850000 ![] bcast_S_S850000),
    binary main_v100 main_v116 main_v117 (cmpi .slt),
    nullary main_c_24 (constantI S_ 32 50000#32),
    unary main_c_24 main_v118 (broadcastInDim S850000 ![] bcast_S_S850000),
    binary main_v100 main_v118 main_v119 addi,
    ternary main_v117 main_v119 main_v100 main_v120 select,
    unary main_v120 main_v121 (broadcastInDim S850000x1 ![0] bcast_S850000_S850000x1_0),
    binary main_v108 main_v121 main_v122 (Host.gather gather_S50000_S850000x1_S850000_n_0_n_n_0_1_1),
    binary main_v115 main_v122 main_v123 mulf,
    binary main_v93 main_arg12 main_v124 (Host.dotGeneral dot_S50000x256_S256x128_S50000x128_1_0_0_1_n_n none),
    nullary main_c_25 (constantI S_ 32 0#32),
    unary main_c_25 main_v125 (broadcastInDim S850000 ![] bcast_S_S850000),
    binary main_v99 main_v125 main_v126 (cmpi .slt),
    nullary main_c_26 (constantI S_ 32 50000#32),
    unary main_c_26 main_v127 (broadcastInDim S850000 ![] bcast_S_S850000),
    binary main_v99 main_v127 main_v128 addi,
    ternary main_v126 main_v128 main_v99 main_v129 select,
    unary main_v129 main_v130 (broadcastInDim S850000x1 ![0] bcast_S850000_S850000x1_0),
    binary main_v124 main_v130 main_v131 (Host.gather gather_S50000x128_S850000x1_S850000x128_1_0_n_n_0_1_1128),
    unary main_v123 main_v132 (broadcastInDim S850000x1 ![0] bcast_S850000_S850000x1_0),
    unary main_v132 main_v133 (broadcastInDim S850000x128 ![0, 1] bcast_S850000x1_S850000x128_0_1),
    binary main_v131 main_v133 main_v134 mulf,
    nullary main_cst_27 (constant S_ .f32 0x00000000#32),
    unary main_cst_27 main_v135 (broadcastInDim S50000x128 ![] bcast_S_S50000x128),
    unary main_v100 main_v136 (broadcastInDim S850000x1 ![0] bcast_S850000_S850000x1_0),
    ternary main_v135 main_v136 main_v134 main_v137 (Host.scatterAdd scatter_S50000x128_S850000x1_S850000x128_1_0_0_1),
    unary main_arg13 main_v138 (broadcastInDim S1x128 ![1] bcast_S128_S1x128_1),
    unary main_v138 main_v139 (broadcastInDim S50000x128 ![0, 1] bcast_S1x128_S50000x128_0_1),
    binary main_v137 main_v139 main_v140 addf,
    nullary main_cst_28 (constant S_ .f32 0x3C23D70A#32),
    TRef.nullary main_call5.cst (constant S_ .f32 0x00000000#32),
    TRef.unary main_call5.cst main_call5.v0 (broadcastInDim S50000x128 ![] bcast_S_S50000x128),
    TRef.binary (.of main_v140) main_call5.v0 main_call5.v1 (cmpf .oge),
    TRef.unary (.of main_cst_28) main_call5.v2 id,
    TRef.unary main_call5.v2 main_call5.v3 (broadcastInDim S50000x128 ![] bcast_S_S50000x128),
    TRef.binary main_call5.v3 (.of main_v140) main_call5.v4 mulf,
    TRef.ternary main_call5.v1 (.of main_v140) main_call5.v4 main_call5.call0.v0 select,
    binary main_v141 main_arg18 main_v142 (Host.dotGeneral dot_S50000x128_S128x384_S50000x384_1_0_0_1_n_n none),
    unary main_arg20 main_v143 (broadcastInDim S1x384 ![1] bcast_S384_S1x384_1),
    unary main_v143 main_v144 (broadcastInDim S50000x384 ![0, 1] bcast_S1x384_S50000x384_0_1),
    binary main_v142 main_v144 main_v145 addf,
    binary main_arg5 main_arg19 main_v146 (Host.dotGeneral dot_S50000x128_S128x384_S50000x384_1_0_0_1_n_n none),
    unary main_arg21 main_v147 (broadcastInDim S1x384 ![1] bcast_S384_S1x384_1),
    unary main_v147 main_v148 (broadcastInDim S50000x384 ![0, 1] bcast_S1x384_S50000x384_0_1) ]

theorem part2_eq (c : Dev nD) : main_part2 (F := F) c = seq ops2 := rfl

theorem ops2_sub : (ops2 : List (HloOp τ sig (Elt F))).Forall fun op => op.bufs ⊆ tcRefs τ sig := by
  simp only [List.forall_cons, List.Forall, nullary_bufs_sub, unary_bufs_sub, binary_bufs_sub, ternary_bufs_sub, reshape_bufs_sub, and_self]

theorem ops2_fresh : ∀ op ∈ (ops2 : List (HloOp τ sig (Elt F))), op.fresh = ∅ := by
  intro _ h; (repeat (cases h with | head => rfl | tail _ h => ?_)); exact nomatch h

abbrev ops2_W : List (Ref sig .tc) := [main_cst_17, main_v101, main_cst_18, main_v102, main_v103, main_v104, main_cst_19, main_v105, main_v106, main_v107, main_cst_20, main_call4_v0, main_call4_v1, main_v108, main_c_21, main_v109, main_v110, main_c_22, main_v111, main_v112, main_v113, main_v114, main_v115, main_c_23, main_v116, main_v117, main_c_24, main_v118, main_v119, main_v120, main_v121, main_v122, main_v123, main_v124, main_c_25, main_v125, main_v126, main_c_26, main_v127, main_v128, main_v129, main_v130, main_v131, main_v132, main_v133, main_v134, main_cst_27, main_v135, main_v136, main_v137, main_v138, main_v139, main_v140, main_cst_28, main_call5_cst, main_call5_v0, main_call5_v1, main_call5_v2, main_call5_v3, main_call5_v4, main_v141, main_v142, main_v143, main_v144, main_v145, main_v146, main_v147, main_v148]

theorem ops2_writes : (ops2 : List (HloOp τ sig (Elt F))).Forall fun op => op.writes ⊆ (ops2_W.map (Proc.devRef (τ := τ) .tc)).toFinset :=
  writes_of (by repeat constructor)

end Cert.ReferenceIdeal.Hand

end
-- ==== Proof.Ref.Ops3.lean ====
import proofs.«154662_j44117904065163_1_alg».proof.Proof.Ref.Fns

noncomputable section

namespace Cert.ReferenceIdeal.Hand

open Cert.ReferenceIdeal Idealize.ShloMosaic Idealize.ShloMosaic.TcCoe Idealize.SL.Sem Idealize.ShloMosaic.StableHlo

variable {F : FTy → Type} [FloatOps F] [Cert.ReferenceIdeal.Facts]
open Cert.ReferenceIdeal.Facts₀ Cert.ReferenceIdeal.Facts

abbrev ops3 : List (HloOp τ sig (Elt F)) :=
  [ binary main_v146 main_v148 main_v149 addf,
    unary main_v145 main_v150 (extractStridedSlice S50000x128 ![0, 0] · slices_S50000x384_S50000x128_0_0),
    unary main_v145 main_v151 (extractStridedSlice S50000x128 ![0, 128] · slices_S50000x384_S50000x128_0_128),
    unary main_v145 main_v152 (extractStridedSlice S50000x128 ![0, 256] · slices_S50000x384_S50000x128_0_256),
    unary main_v149 main_v153 (extractStridedSlice S50000x128 ![0, 0] · slices_S50000x384_S50000x128_0_0),
    unary main_v149 main_v154 (extractStridedSlice S50000x128 ![0, 128] · slices_S50000x384_S50000x128_0_128),
    unary main_v149 main_v155 (extractStridedSlice S50000x128 ![0, 256] · slices_S50000x384_S50000x128_0_256),
    binary main_v150 main_v153 main_v156 addf,
    unary main_v156 main_v157 Host.negf,
    unary main_v157 main_v158 Host.exp,
    nullary main_cst_29 (constant S_ .f32 0x3F800000#32),
    unary main_cst_29 main_v159 (broadcastInDim S50000x128 ![] bcast_S_S50000x128),
    binary main_v159 main_v158 main_v160 addf,
    nullary main_cst_30 (constant S_ .f32 0x3F800000#32),
    unary main_cst_30 main_v161 (broadcastInDim S50000x128 ![] bcast_S_S50000x128),
    binary main_v161 main_v160 main_v162 Host.divf,
    binary main_v151 main_v154 main_v163 addf,
    unary main_v163 main_v164 Host.negf,
    unary main_v164 main_v165 Host.exp,
    nullary main_cst_31 (constant S_ .f32 0x3F800000#32),
    unary main_cst_31 main_v166 (broadcastInDim S50000x128 ![] bcast_S_S50000x128),
    binary main_v166 main_v165 main_v167 addf,
    nullary main_cst_32 (constant S_ .f32 0x3F800000#32),
    unary main_cst_32 main_v168 (broadcastInDim S50000x128 ![] bcast_S_S50000x128),
    binary main_v168 main_v167 main_v169 Host.divf,
    binary main_v162 main_v155 main_v170 mulf,
    binary main_v152 main_v170 main_v171 addf,
    unary main_v171 main_v172 Host.tanh,
    nullary main_cst_33 (constant S_ .f32 0x3F800000#32),
    unary main_cst_33 main_v173 (broadcastInDim S50000x128 ![] bcast_S_S50000x128),
    binary main_v173 main_v169 main_v174 subf,
    binary main_v174 main_v172 main_v175 mulf,
    binary main_v169 main_arg5 main_v176 mulf,
    binary main_v175 main_v176 main_v177 addf,
    unary main_arg2 main_v178 (extractStridedSlice S1x200000 ![0, 0] · slices_S2x200000_S1x200000_0_0),
    reshape main_v178 main_v179 rfl shapeCasts_S1x200000_S200000,
    nullary main_c_34 (constantI S_ 32 0#32),
    unary main_c_34 main_v180 (broadcastInDim S200000 ![] bcast_S_S200000),
    binary main_v179 main_v180 main_v181 (cmpi .slt),
    nullary main_c_35 (constantI S_ 32 50000#32),
    unary main_c_35 main_v182 (broadcastInDim S200000 ![] bcast_S_S200000),
    binary main_v179 main_v182 main_v183 addi,
    ternary main_v181 main_v183 main_v179 main_v184 select,
    unary main_v184 main_v185 (broadcastInDim S200000x1 ![0] bcast_S200000_S200000x1_0),
    binary main_v177 main_v185 main_v186 (Host.gather gather_S50000x128_S200000x1_S200000x128_1_0_n_n_0_1_1128),
    unary main_arg2 main_v187 (extractStridedSlice S1x200000 ![1, 0] · slices_S2x200000_S1x200000_1_0),
    reshape main_v187 main_v188 rfl shapeCasts_S1x200000_S200000,
    nullary main_c_36 (constantI S_ 32 0#32),
    unary main_c_36 main_v189 (broadcastInDim S200000 ![] bcast_S_S200000),
    binary main_v188 main_v189 main_v190 (cmpi .slt),
    nullary main_c_37 (constantI S_ 32 50000#32),
    unary main_c_37 main_v191 (broadcastInDim S200000 ![] bcast_S_S200000),
    binary main_v188 main_v191 main_v192 addi,
    ternary main_v190 main_v192 main_v188 main_v193 select,
    unary main_v193 main_v194 (broadcastInDim S200000x1 ![0] bcast_S200000_S200000x1_0),
    binary main_v177 main_v194 main_v195 (Host.gather gather_S50000x128_S200000x1_S200000x128_1_0_n_n_0_1_1128),
    nary ![main_v186, main_v195, main_arg3] main_v196 (fun u => cat3 (F := F) (u 0) (u 1) (u 2)),
    binary main_v196 main_arg22 main_v197 (Host.dotGeneral dot_S200000x272_S272x1_S200000x1_1_0_0_1_n_n none),
    unary main_arg23 main_v198 (broadcastInDim S1x1 ![1] bcast_S1_S1x1_1),
    unary main_v198 main_v199 (broadcastInDim S200000x1 ![0, 1] bcast_S1x1_S200000x1_0_1) ]

theorem part3_eq (c : Dev nD) : main_part3 (F := F) c = seq ops3 := rfl

theorem ops3_sub : (ops3 : List (HloOp τ sig (Elt F))).Forall fun op => op.bufs ⊆ tcRefs τ sig := by
  simp only [List.forall_cons, List.Forall, nullary_bufs_sub, unary_bufs_sub, binary_bufs_sub, ternary_bufs_sub, reshape_bufs_sub, nary_bufs_sub, and_self]

theorem ops3_fresh : ∀ op ∈ (ops3 : List (HloOp τ sig (Elt F))), op.fresh = ∅ := by
  intro _ h; (repeat (cases h with | head => rfl | tail _ h => ?_)); exact nomatch h

abbrev ops3_W : List (Ref sig .tc) := [main_v149, main_v150, main_v151, main_v152, main_v153, main_v154, main_v155, main_v156, main_v157, main_v158, main_cst_29, main_v159, main_v160, main_cst_30, main_v161, main_v162, main_v163, main_v164, main_v165, main_cst_31, main_v166, main_v167, main_cst_32, main_v168, main_v169, main_v170, main_v171, main_v172, main_cst_33, main_v173, main_v174, main_v175, main_v176, main_v177, main_v178, main_v179, main_c_34, main_v180, main_v181, main_c_35, main_v182, main_v183, main_v184, main_v185, main_v186, main_v187, main_v188, main_c_36, main_v189, main_v190, main_c_37, main_v191, main_v192, main_v193, main_v194, main_v195, main_v196, main_v197, main_v198, main_v199]

theorem ops3_writes : (ops3 : List (HloOp τ sig (Elt F))).Forall fun op => op.writes ⊆ (ops3_W.map (Proc.devRef (τ := τ) .tc)).toFinset :=
  writes_of (by repeat constructor)

end Cert.ReferenceIdeal.Hand

end
-- ==== Proof.Ref.Ops4.lean ====
import proofs.«154662_j44117904065163_1_alg».proof.Proof.Ref.Fns

noncomputable section

namespace Cert.ReferenceIdeal.Hand

open Cert.ReferenceIdeal Idealize.ShloMosaic Idealize.ShloMosaic.TcCoe Idealize.SL.Sem Idealize.ShloMosaic.StableHlo

variable {F : FTy → Type} [FloatOps F] [Cert.ReferenceIdeal.Facts]
open Cert.ReferenceIdeal.Facts₀ Cert.ReferenceIdeal.Facts

abbrev ops4 : List (HloOp τ sig (Elt F)) :=
  [ binary main_v197 main_v199 main_v200 addf,
    reshape main_v200 main_v201 rfl shapeCasts_S200000x1_S200000 ]

theorem part4_eq (c : Dev nD) : main_part4 (F := F) c = seq ops4 := rfl

theorem ops4_sub : (ops4 : List (HloOp τ sig (Elt F))).Forall fun op => op.bufs ⊆ tcRefs τ sig := by
  simp only [List.forall_cons, List.Forall, nullary_bufs_sub, unary_bufs_sub, binary_bufs_sub, ternary_bufs_sub, reshape_bufs_sub, and_self]

theorem ops4_fresh : ∀ op ∈ (ops4 : List (HloOp τ sig (Elt F))), op.fresh = ∅ := by
  intro _ h; (repeat (cases h with | head => rfl | tail _ h => ?_)); exact nomatch h

abbrev ops4_W : List (Ref sig .tc) := [main_v200, main_v201]

theorem ops4_writes : (ops4 : List (HloOp τ sig (Elt F))).Forall fun op => op.writes ⊆ (ops4_W.map (Proc.devRef (τ := τ) .tc)).toFinset :=
  writes_of (by repeat constructor)

end Cert.ReferenceIdeal.Hand

end
-- ==== Proof.Ref.Run.lean ====
import proofs.«154662_j44117904065163_1_alg».proof.Proof.Ref.Ops0
import proofs.«154662_j44117904065163_1_alg».proof.Proof.Ref.Ops1
import proofs.«154662_j44117904065163_1_alg».proof.Proof.Ref.Ops2
import proofs.«154662_j44117904065163_1_alg».proof.Proof.Ref.Ops3
import proofs.«154662_j44117904065163_1_alg».proof.Proof.Ref.Ops4
import proofs.«154662_j44117904065163_1_alg».proof.Proof.Whole
import Idealize.ShloMosaic.Lib.Pipeline.Frame

noncomputable section

namespace Cert.ReferenceIdeal.Hand

open Cert.ReferenceIdeal Idealize.ShloMosaic Idealize.ShloMosaic.TcCoe Idealize.SL.Sem Idealize.ShloMosaic.StableHlo
open Cert.Stg

variable {F : FTy → Type} [FloatOps F] [Cert.ReferenceIdeal.Facts]
open Cert.ReferenceIdeal.Facts₀ Cert.ReferenceIdeal.Facts

abbrev ops : List (HloOp τ sig (Elt F)) := ops0 ++ (ops1 ++ (ops2 ++ (ops3 ++ ops4)))

theorem main_eq (c : Dev nD) : main (F := F) c = seq ops := by
  simp only [ops, seq_append, ← part0_eq c, ← part1_eq c, ← part2_eq c, ← part3_eq c, ← part4_eq c]
  rfl

theorem ops_sub : (ops : List (HloOp τ sig (Elt F))).Forall fun op => op.bufs ⊆ tcRefs τ sig :=
  List.forall_iff_forall_mem.mpr fun op h => by
    simp only [ops, List.mem_append] at h
    rcases h with h | h | h | h | h
    exacts [List.forall_iff_forall_mem.mp ops0_sub op h, List.forall_iff_forall_mem.mp ops1_sub op h,
      List.forall_iff_forall_mem.mp ops2_sub op h, List.forall_iff_forall_mem.mp ops3_sub op h,
      List.forall_iff_forall_mem.mp ops4_sub op h]

theorem ops_fresh : ∀ op ∈ (ops : List (HloOp τ sig (Elt F))), op.fresh = ∅ := fun op h => by
  simp only [ops, List.mem_append] at h
  rcases h with h | h | h | h | h
  exacts [ops0_fresh op h, ops1_fresh op h, ops2_fresh op h, ops3_fresh op h, ops4_fresh op h]

section Values

variable (V0 : Valuation τ sig (Elt F))

def rH2 : T (F := F) S50000x128 .f32 :=
  pre (V0 (Proc.devRef .tc main_arg0)) (V0 (Proc.devRef .tc main_arg6)) (V0 (Proc.devRef .tc main_arg7)) (V0 (Proc.devRef .tc main_arg8)) (V0 (Proc.devRef .tc main_arg9))

def rEmb1 : T (F := F) S50000x256 .f32 :=
  emb1 (V0 (Proc.devRef .tc main_arg0)) (V0 (Proc.devRef .tc main_arg1)) (V0 (Proc.devRef .tc main_arg4)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg14)) (V0 (Proc.devRef .tc main_arg15)) (V0 (Proc.devRef .tc main_arg16)) (V0 (Proc.devRef .tc main_arg17))

def rX2 : T (F := F) S50000x128 .f32 :=
  lrelu128 (agg128 (lin2 (rEmb1 V0) (V0 (Proc.devRef .tc main_arg12))) (nrm (V0 (Proc.devRef .tc main_arg1))) (eRow (V0 (Proc.devRef .tc main_arg1))) (eCol (V0 (Proc.devRef .tc main_arg1))) (V0 (Proc.devRef .tc main_arg13)))

def rEmb2 : T (F := F) S50000x128 .f32 :=
  emb2 (rEmb1 V0) (V0 (Proc.devRef .tc main_arg1)) (V0 (Proc.devRef .tc main_arg5)) (V0 (Proc.devRef .tc main_arg12)) (V0 (Proc.devRef .tc main_arg13)) (V0 (Proc.devRef .tc main_arg18)) (V0 (Proc.devRef .tc main_arg19)) (V0 (Proc.devRef .tc main_arg20)) (V0 (Proc.devRef .tc main_arg21))

def rScores : T (F := F) S200000 .f32 :=
  scores (rEmb2 V0) (V0 (Proc.devRef .tc main_arg2)) (V0 (Proc.devRef .tc main_arg3)) (V0 (Proc.devRef .tc main_arg22)) (V0 (Proc.devRef .tc main_arg23))

def val1 : Valuation τ sig (Elt F) := after ops0 V0
def val2 : Valuation τ sig (Elt F) := after ops1 (val1 V0)
def val3 : Valuation τ sig (Elt F) := after ops2 (val2 V0)
def val4 : Valuation τ sig (Elt F) := after ops3 (val3 V0)
def val5 : Valuation τ sig (Elt F) := after ops4 (val4 V0)

theorem after_ops : after ops V0 = val5 V0 := by
  simp only [ops, StableHlo.after_append]
  rfl

theorem val1_keep (r : Ref sig .tc) (h : r ∉ ops0_W) : val1 V0 (no_index (Proc.devRef .tc r)) = V0 (Proc.devRef .tc r) :=
  after_of_writes_sub ops0 _ ops0_writes h
theorem val2_keep (r : Ref sig .tc) (h : r ∉ ops1_W) : val2 V0 (no_index (Proc.devRef .tc r)) = val1 V0 (Proc.devRef .tc r) :=
  after_of_writes_sub ops1 _ ops1_writes h
theorem val3_keep (r : Ref sig .tc) (h : r ∉ ops2_W) : val3 V0 (no_index (Proc.devRef .tc r)) = val2 V0 (Proc.devRef .tc r) :=
  after_of_writes_sub ops2 _ ops2_writes h
theorem val4_keep (r : Ref sig .tc) (h : r ∉ ops3_W) : val4 V0 (no_index (Proc.devRef .tc r)) = val3 V0 (Proc.devRef .tc r) :=
  after_of_writes_sub ops3 _ ops3_writes h
theorem val5_keep (r : Ref sig .tc) (h : r ∉ ops4_W) : val5 V0 (no_index (Proc.devRef .tc r)) = val4 V0 (Proc.devRef .tc r) :=
  after_of_writes_sub ops4 _ ops4_writes h

theorem val2_arg (r : Ref sig .tc) (h0 : r ∉ ops0_W) (h1 : r ∉ ops1_W) :
    val2 V0 (no_index (Proc.devRef .tc r)) = V0 (Proc.devRef .tc r) := (val2_keep V0 r h1).trans (val1_keep V0 r h0)
theorem val3_arg (r : Ref sig .tc) (h0 : r ∉ ops0_W) (h1 : r ∉ ops1_W) (h2 : r ∉ ops2_W) :
    val3 V0 (no_index (Proc.devRef .tc r)) = V0 (Proc.devRef .tc r) := (val3_keep V0 r h2).trans (val2_arg V0 r h0 h1)

theorem val1_v16 : val1 V0 (no_index (Proc.devRef .tc main_v16)) = eCol (V0 (Proc.devRef .tc main_arg1)) := by
  unfold val1
  simp only [ops0]
  after_results_simp
  all_goals rfl

theorem val1_v39 : val1 V0 (no_index (Proc.devRef .tc main_v39)) = nrm (V0 (Proc.devRef .tc main_arg1)) := by
  unfold val1
  simp only [ops0]
  after_results_simp
  all_goals rfl

theorem val1_v47 : val1 V0 (no_index (Proc.devRef .tc main_v47))
    = Host.gather gather_S50000x256_S850000x1_S850000x256_1_0_n_n_0_1_1256 (lin1 (rH2 V0) (V0 (Proc.devRef .tc main_arg10))) (wrapIx (eRow (V0 (Proc.devRef .tc main_arg1)))) := by
  unfold val1
  simp only [ops0]
  after_results_simp
  all_goals rfl

theorem val2_v93 : val2 V0 (no_index (Proc.devRef .tc main_v93)) = rEmb1 V0 := by
  unfold val2
  simp only [ops1]
  after_results_simp
  simp (disch := decide) only [val1_v16, val1_v39, val1_v47, val1_keep] <;> rfl

theorem val2_v99 : val2 V0 (no_index (Proc.devRef .tc main_v99)) = eRow (V0 (Proc.devRef .tc main_arg1)) := by
  unfold val2
  simp only [ops1]
  after_results_simp
  simp (disch := decide) only [val1_keep] <;> rfl

theorem val2_v100 : val2 V0 (no_index (Proc.devRef .tc main_v100)) = eCol (V0 (Proc.devRef .tc main_arg1)) := by
  unfold val2
  simp only [ops1]
  after_results_simp
  simp (disch := decide) only [val1_keep] <;> rfl

theorem val3_v93 : val3 V0 (no_index (Proc.devRef .tc main_v93)) = rEmb1 V0 :=
  (val3_keep V0 main_v93 (by decide)).trans (val2_v93 V0)

theorem val3_v145 : val3 V0 (no_index (Proc.devRef .tc main_v145))
    = addf (Host.dotGeneral dot_S50000x128_S128x384_S50000x384_1_0_0_1_n_n none (rX2 V0) (V0 (Proc.devRef .tc main_arg18))) (broadcastInDim S50000x384 ![0, 1] bcast_S1x384_S50000x384_0_1 (row384 (V0 (Proc.devRef .tc main_arg20)))) := by
  unfold val3
  simp only [ops2]
  after_results_simp
  simp (disch := decide) only [val2_v93, val2_v99, val2_v100, val2_arg] <;> rfl

theorem val3_v146 : val3 V0 (no_index (Proc.devRef .tc main_v146))
    = Host.dotGeneral dot_S50000x128_S128x384_S50000x384_1_0_0_1_n_n none (V0 (Proc.devRef .tc main_arg5)) (V0 (Proc.devRef .tc main_arg19)) := by
  unfold val3
  simp only [ops2]
  after_results_simp
  simp (disch := decide) only [val2_arg] <;> rfl

theorem val3_v148 : val3 V0 (no_index (Proc.devRef .tc main_v148))
    = broadcastInDim S50000x384 ![0, 1] bcast_S1x384_S50000x384_0_1 (row384 (V0 (Proc.devRef .tc main_arg21))) := by
  unfold val3
  simp only [ops2]
  after_results_simp
  simp (disch := decide) only [val2_arg] <;> rfl

theorem val4_v93 : val4 V0 (no_index (Proc.devRef .tc main_v93)) = rEmb1 V0 :=
  (val4_keep V0 main_v93 (by decide)).trans (val3_v93 V0)

theorem val4_v177 : val4 V0 (no_index (Proc.devRef .tc main_v177)) = rEmb2 V0 := by
  unfold val4
  simp only [ops3]
  after_results_simp
  simp (disch := decide) only [val3_v145, val3_v146, val3_v148, val3_arg] <;> rfl

set_option maxHeartbeats 4000000 in
theorem val4_v197 : val4 V0 (no_index (Proc.devRef .tc main_v197))
    = Host.dotGeneral dot_S200000x272_S272x1_S200000x1_1_0_0_1_n_n none (cat (rEmb2 V0) (V0 (Proc.devRef .tc main_arg2)) (V0 (Proc.devRef .tc main_arg3))) (V0 (Proc.devRef .tc main_arg22)) := by
  unfold val4
  simp only [ops3]
  after_results_simp
  try dsimp only [Matrix.cons_val]
  try after_results_simp
  simp (disch := decide) only [val3_v145, val3_v146, val3_v148, val3_arg] <;> rfl

theorem val4_v199 : val4 V0 (no_index (Proc.devRef .tc main_v199))
    = broadcastInDim S200000x1 ![0, 1] bcast_S1x1_S200000x1_0_1 (row1 (V0 (Proc.devRef .tc main_arg23))) := by
  unfold val4
  simp only [ops3]
  after_results_simp
  simp (disch := decide) only [val3_arg] <;> rfl

theorem val5_v93 : val5 V0 (no_index (Proc.devRef .tc main_v93)) = rEmb1 V0 :=
  (val5_keep V0 main_v93 (by decide)).trans (val4_v93 V0)
theorem val5_v177 : val5 V0 (no_index (Proc.devRef .tc main_v177)) = rEmb2 V0 :=
  (val5_keep V0 main_v177 (by decide)).trans (val4_v177 V0)

theorem val5_v201 : val5 V0 (no_index (Proc.devRef .tc main_v201)) = rScores V0 := by
  unfold val5
  simp only [ops4]
  after_results_simp
  simp (disch := decide) only [val4_v197, val4_v199] <;> rfl

end Values

theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v201) = Cert.Stg.scores (Cert.Stg.emb2 (Cert.Stg.emb1 (m ((c.tc : Thread nD τ).loc main_arg0)) (m ((c.tc : Thread nD τ).loc main_arg1)) (m ((c.tc : Thread nD τ).loc main_arg4)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg14)) (m ((c.tc : Thread nD τ).loc main_arg15)) (m ((c.tc : Thread nD τ).loc main_arg16)) (m ((c.tc : Thread nD τ).loc main_arg17))) (m ((c.tc : Thread nD τ).loc main_arg1)) (m ((c.tc : Thread nD τ).loc main_arg5)) (m ((c.tc : Thread nD τ).loc main_arg12)) (m ((c.tc : Thread nD τ).loc main_arg13)) (m ((c.tc : Thread nD τ).loc main_arg18)) (m ((c.tc : Thread nD τ).loc main_arg19)) (m ((c.tc : Thread nD τ).loc main_arg20)) (m ((c.tc : Thread nD τ).loc main_arg21))) (m ((c.tc : Thread nD τ).loc main_arg2)) (m ((c.tc : Thread nD τ).loc main_arg3)) (m ((c.tc : Thread nD τ).loc main_arg22)) (m ((c.tc : Thread nD τ).loc main_arg23))
      ∧ r.2.mem ((c.tc : Thread nD τ).loc main_v93) = (Cert.Stg.emb1 (m ((c.tc : Thread nD τ).loc main_arg0)) (m ((c.tc : Thread nD τ).loc main_arg1)) (m ((c.tc : Thread nD τ).loc main_arg4)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg14)) (m ((c.tc : Thread nD τ).loc main_arg15)) (m ((c.tc : Thread nD τ).loc main_arg16)) (m ((c.tc : Thread nD τ).loc main_arg17)))
      ∧ r.2.mem ((c.tc : Thread nD τ).loc main_v177) = (Cert.Stg.emb2 (Cert.Stg.emb1 (m ((c.tc : Thread nD τ).loc main_arg0)) (m ((c.tc : Thread nD τ).loc main_arg1)) (m ((c.tc : Thread nD τ).loc main_arg4)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg14)) (m ((c.tc : Thread nD τ).loc main_arg15)) (m ((c.tc : Thread nD τ).loc main_arg16)) (m ((c.tc : Thread nD τ).loc main_arg17))) (m ((c.tc : Thread nD τ).loc main_arg1)) (m ((c.tc : Thread nD τ).loc main_arg5)) (m ((c.tc : Thread nD τ).loc main_arg12)) (m ((c.tc : Thread nD τ).loc main_arg13)) (m ((c.tc : Thread nD τ).loc main_arg18)) (m ((c.tc : Thread nD τ).loc main_arg19)) (m ((c.tc : Thread nD τ).loc main_arg20)) (m ((c.tc : Thread nD τ).loc main_arg21)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23) :=
  (θ_run defs _ _).mono (fun _ h c => by
      simp only [h c, after_ops]
      refine ⟨val5_v201 _, val5_v93 _, val5_v177 _, ?_⟩
      repeat' apply And.intro
      all_goals exact (val5_keep _ _ (by decide)).trans ((val4_keep _ _ (by decide)).trans (val3_arg _ _ (by decide) (by decide) (by decide))))
    (run_seq (by decide) (by decide) defs main (fun _ => ops) main_eq (fun _ => ops_sub) m ρ (fun _ => ops_fresh))

end Cert.ReferenceIdeal.Hand

end
-- ==== Proof.Claims.lean ====
import proofs.«154662_j44117904065163_1_alg».proof.Defs
import proofs.«154662_j44117904065163_1_alg».proof.Proof.Gen.Kernel
import proofs.«154662_j44117904065163_1_alg».proof.Proof.Gen.KernelIdeal
import proofs.«154662_j44117904065163_1_alg».proof.Proof.Gen.ReferenceIdeal
import proofs.«154662_j44117904065163_1_alg».proof.Proof.Gen.Pre_finite_inputs
import proofs.«154662_j44117904065163_1_alg».proof.Proof.KI.Run
import proofs.«154662_j44117904065163_1_alg».proof.Proof.KI.Vals
import proofs.«154662_j44117904065163_1_alg».proof.Proof.KB.Run
import proofs.«154662_j44117904065163_1_alg».proof.Proof.Ref.Run

noncomputable section

namespace Cert.Proof.Claims

open Idealize.ShloMosaic Idealize.ShloMosaic.TcCoe Idealize.SL.Sem

theorem frame_k : Cert.frame_Kernel := fun m ρ _ =>
  (θ_run Cert.Kernel.defs _ _).mono (fun r h c => Cert.Kernel.Hand.kept m c _ (h c)) (Cert.Kernel.Hand.run m ρ)

theorem frame_ki : Cert.frame_KernelIdeal := fun m ρ _ =>
  (θ_run Cert.KernelIdeal.defs _ _).mono (fun r h c => Cert.KernelIdeal.Hand.kept m c _ (h c)) (Cert.KernelIdeal.Hand.run m ρ)

theorem frame_ri : Cert.frame_ReferenceIdeal := fun m ρ _ =>
  (θ_run Cert.ReferenceIdeal.defs _ _).mono (fun _ h c => (h c).2.2.2) (Cert.ReferenceIdeal.Hand.run (F := Ideal) m ρ)

theorem preserves : Cert.preserves_Kernel_KernelIdeal := trivial

/-- Both programs end with the scores and the two embeddings at the reference's functions of the agreeing arguments. -/
theorem algebraic : Cert.algebraic_KernelIdeal_ReferenceIdeal := by
  intro m ρ m' ρ' _ hagree
  refine ⟨fun c => Cert.KernelIdeal.Hand.sc m c, fun c => Cert.KernelIdeal.Hand.e1 m c, fun c => Cert.KernelIdeal.Hand.e2 m c, ?_, ?_⟩
  · exact (θ_run Cert.KernelIdeal.defs _ _).mono (fun r h c =>
      ⟨(h c Cert.KernelIdeal.main_v101 (by decide)).trans (Cert.KernelIdeal.Hand.kval_scores m c),
        (h c Cert.KernelIdeal.main_v56 (by decide)).trans (Cert.KernelIdeal.Hand.kval_emb1 m c),
        (h c Cert.KernelIdeal.main_v79 (by decide)).trans (Cert.KernelIdeal.Hand.kval_emb2 m c),
        Cert.KernelIdeal.Hand.kept m c _ (h c)⟩) (Cert.KernelIdeal.Hand.run (F := Ideal) m ρ)
  · refine (θ_run Cert.ReferenceIdeal.defs _ _).mono (fun r h c => ?_) (Cert.ReferenceIdeal.Hand.run (F := Ideal) m' ρ')
    obtain ⟨e0, e1, e2, e3, e4, e5, e6, e7, e8, e9, e10, e11, e12, e13, e14, e15, e16, e17, e18, e19, e20, e21, e22, e23⟩ := hagree c
    obtain ⟨h0, h1, h2, hargs⟩ := h c
    refine ⟨?_, ?_, ?_, hargs⟩
    · rw [h0, e0, e1, e2, e3, e4, e5, e6, e7, e8, e9, e10, e11, e12, e13, e14, e15, e16, e17, e18, e19, e20, e21, e22, e23]
    · rw [h1, e0, e1, e4, e6, e7, e8, e9, e10, e11, e14, e15, e16, e17]
    · rw [h2, e0, e1, e4, e6, e7, e8, e9, e10, e11, e14, e15, e16, e17, e5, e12, e13, e18, e19, e20, e21]

end Cert.Proof.Claims

end
-- ==== Proof.lean ====
import proofs.«154662_j44117904065163_1_alg».proof.Defs
import proofs.«154662_j44117904065163_1_alg».proof.Proof.Gen.Kernel
import proofs.«154662_j44117904065163_1_alg».proof.Proof.Gen.KernelIdeal
import proofs.«154662_j44117904065163_1_alg».proof.Proof.Gen.ReferenceIdeal
import proofs.«154662_j44117904065163_1_alg».proof.Proof.Gen.Pre_finite_inputs
import proofs.«154662_j44117904065163_1_alg».proof.Proof.Claims

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_finite_inputs.Gen.facts,
  Claims.frame_k, Claims.frame_ki, Claims.frame_ri, Claims.preserves, Claims.algebraic⟩

end Cert.Proof

end
